-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part7 {F : FTy → Type} [FloatOps F] (main_arg2 : IVec S50000 32) (main_arg16 : FVec F S256 .f32) (main_arg20 : FVec F S256 .f32) (main_v117 : IVec S_ 1) (main_v118 : FVec F S256 .f32) : IVec S_ 1 :=
  let main_v119 : IVec S256 1 := cmpf .oge main_arg16 main_v118
  let main_c_47 : IVec S_ 1 := constantI S_ 1 1#1
  let main_v120 : IVec S_ 1 := (fun x v => Host.reduce IntOp.andi x v reducesTo_S256_S_d0 h_S_) main_v119 main_c_47
  let main_v121 : IVec S_ 1 := andi main_v117 main_v120
  let main_cst_48 : FVec F S_ .f32 := constant S_ .f32 0x00000000#32
  let main_v122 : FVec F S256 .f32 := broadcastInDim S256 ![] bcast_S_S256 main_cst_48
  let main_v123 : IVec S256 1 := cmpf .oge main_arg20 main_v122
  let main_c_49 : IVec S_ 1 := constantI S_ 1 1#1
  let main_v124 : IVec S_ 1 := (fun x v => Host.reduce IntOp.andi x v reducesTo_S256_S_d0 h_S_) main_v123 main_c_49
  let main_v125 : IVec S_ 1 := andi main_v121 main_v124
  let main_c_50 : IVec S_ 32 := constantI S_ 32 0#32
  let main_v126 : IVec S50000 32 := broadcastInDim S50000 ![] bcast_S_S50000 main_c_50
  let main_v127 : IVec S50000 1 := cmpi .sge main_arg2 main_v126
  let main_c_51 : IVec S_ 1 := constantI S_ 1 1#1
  let main_v128 : IVec S_ 1 := (fun x v => Host.reduce IntOp.andi x v reducesTo_S50000_S_d0 h_S_) main_v127 main_c_51
  let main_v129 : IVec S_ 1 := andi main_v125 main_v128
  let main_c_52 : IVec S_ 32 := constantI S_ 32 512#32
  let main_v130 : IVec S50000 32 := broadcastInDim S50000 ![] bcast_S_S50000 main_c_52
  let main_v131 : IVec S50000 1 := cmpi .slt main_arg2 main_v130
  let main_c_53 : IVec S_ 1 := constantI S_ 1 1#1
  let main_v132 : IVec S_ 1 := (fun x v => Host.reduce IntOp.andi x v reducesTo_S50000_S_d0 h_S_) main_v131 main_c_53
  let main_v133 : IVec S_ 1 := andi main_v129 main_v132
  main_v133

def fn_part6 {F : FTy → Type} [FloatOps F] (main_arg2 : IVec S50000 32) (main_arg12 : FVec F S256 .f32) (main_arg16 : FVec F S256 .f32) (main_arg20 : FVec F S256 .f32) (main_arg23 : FVec F S256x1 .f32) (main_arg24 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x1 .f32 := Host.absf main_arg23
  let main_cst_40 : FVec F S_ .f32 := constant S_ .f32 0x7F800000#32
  let main_v105 : FVec F S256x1 .f32 := broadcastInDim S256x1 ![] bcast_S_S256x1 main_cst_40
  let main_v106 : IVec S256x1 1 := cmpf .olt main_v104 main_v105
  let main_c_41 : IVec S_ 1 := constantI S_ 1 1#1
  let main_v107 : IVec S_ 1 := (fun x v => Host.reduce IntOp.andi x v reducesTo_S256x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_cst_44 : FVec F S_ .f32 := constant S_ .f32 0x00000000#32
  let main_v114 : FVec F S256 .f32 := broadcastInDim S256 ![] bcast_S_S256 main_cst_44
  let main_v115 : IVec S256 1 := cmpf .oge main_arg12 main_v114
  let main_c_45 : IVec S_ 1 := constantI S_ 1 1#1
  let main_v116 : IVec S_ 1 := (fun x v => Host.reduce IntOp.andi x v reducesTo_S256_S_d0 h_S_) main_v115 main_c_45
  let main_v117 : IVec S_ 1 := andi main_v113 main_v116
  let main_cst_46 : FVec F S_ .f32 := constant S_ .f32 0x00000000#32
  let main_v118 : FVec F S256 .f32 := broadcastInDim S256 ![] bcast_S_S256 main_cst_46
  fn_part7 (F := F) main_arg2 main_arg16 main_arg20 main_v117 main_v118

def fn_part5 {F : FTy → Type} [FloatOps F] (main_arg2 : IVec S50000 32) (main_arg12 : FVec F S256 .f32) (main_arg16 : FVec F S256 .f32) (main_arg20 : FVec F S256 .f32) (main_arg21 : FVec F S256x256 .f32) (main_arg22 : FVec F S256 .f32) (main_arg23 : FVec F S256x1 .f32) (main_arg24 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg21
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg2 main_arg12 main_arg16 main_arg20 main_arg23 main_arg24 main_v98 main_v101 main_c_39

def fn_part4 {F : FTy → Type} [FloatOps F] (main_arg2 : IVec S50000 32) (main_arg12 : FVec F S256 .f32) (main_arg16 : FVec F S256 .f32) (main_arg17 : FVec F S256 .f32) (main_arg18 : FVec F S256 .f32) (main_arg19 : FVec F S256 .f32) (main_arg20 : FVec F S256 .f32) (main_arg21 : FVec F S256x256 .f32) (main_arg22 : FVec F S256 .f32) (main_arg23 : FVec F S256x1 .f32) (main_arg24 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg2 main_arg12 main_arg16 main_arg20 main_arg21 main_arg22 main_arg23 main_arg24 main_v83 main_v84 main_cst_32

def fn_part3 {F : FTy → Type} [FloatOps F] (main_arg2 : IVec S50000 32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256x256 .f32) (main_arg22 : FVec F S256 .f32) (main_arg23 : FVec F S256x1 .f32) (main_arg24 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg12 main_arg16 main_arg17 main_arg18 main_arg19 main_arg20 main_arg21 main_arg22 main_arg23 main_arg24 main_v63 main_v67

def fn_part2 {F : FTy → Type} [FloatOps F] (main_arg2 : IVec S50000 32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256x256 .f32) (main_arg22 : FVec F S256 .f32) (main_arg23 : FVec F S256x1 .f32) (main_arg24 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg2 main_arg12 main_arg13 main_arg14 main_arg15 main_arg16 main_arg17 main_arg18 main_arg19 main_arg20 main_arg21 main_arg22 main_arg23 main_arg24 main_v48 main_v49 main_v50

def fn_part1 {F : FTy → Type} [FloatOps F] (main_arg2 : IVec S50000 32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256x256 .f32) (main_arg22 : FVec F S256 .f32) (main_arg23 : FVec F S256x1 .f32) (main_arg24 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256x256 .f32) (main_arg22 : FVec F S256 .f32) (main_arg23 : FVec F S256x1 .f32) (main_arg24 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩
abbrev S512 : Shape := ⟨1, ![512]⟩
abbrev S512x1 : Shape := ⟨2, ![512, 1]⟩
abbrev S1x1 : Shape := ⟨2, ![1, 1]⟩
abbrev S512x256 : Shape := ⟨2, ![512, 256]⟩
abbrev S2000x512 : Shape := ⟨2, ![2000, 512]⟩

abbrev nBuf : Space → Nat
  | .hbm => 125
  | .vmem => 81
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S256x1, .f32⟩
  | .hbm, ⟨24, _⟩ => ⟨S1, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x256, .f32⟩
  | .hbm, ⟨41, _⟩ => ⟨S50000x256, .bf16⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .bf16⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S50000x256, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .bf16⟩
  | .hbm, ⟨73, _⟩ => ⟨S800000x256, .f32⟩
  | .hbm, ⟨74, _⟩ => ⟨S_, .f32⟩
  | .hbm, ⟨75, _⟩ => ⟨S50000x256, .f32⟩
  | .hbm, ⟨76, _⟩ => ⟨S800000x1, .i32⟩
  | .hbm, ⟨77, _⟩ => ⟨S50000x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S50000x256, .bf16⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x256, .bf16⟩
  | .hbm, ⟨95, _⟩ => ⟨S800000x256, .f32⟩
  | .hbm, ⟨96, _⟩ => ⟨S_, .f32⟩
  | .hbm, ⟨97, _⟩ => ⟨S50000x256, .f32⟩
  | .hbm, ⟨98, _⟩ => ⟨S800000x1, .i32⟩
  | .hbm, ⟨99, _⟩ => ⟨S50000x256, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S1x256, .f32⟩
  | .hbm, ⟨104, _⟩ => ⟨S1x256, .f32⟩
  | .hbm, ⟨105, _⟩ => ⟨S50000x256, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S50000, .i32⟩
  | .hbm, ⟨110, _⟩ => ⟨S50000, .i32⟩
  | .hbm, ⟨111, _⟩ => ⟨S_, .i32⟩
  | .hbm, ⟨112, _⟩ => ⟨S50000, .i32⟩
  | .hbm, ⟨113, _⟩ => ⟨S50000, .i32⟩
  | .hbm, ⟨114, _⟩ => ⟨S_, .f32⟩
  | .hbm, ⟨115, _⟩ => ⟨S50000, .f32⟩
  | .hbm, ⟨116, _⟩ => ⟨S_, .f32⟩
  | .hbm, ⟨117, _⟩ => ⟨S512, .f32⟩
  | .hbm, ⟨118, _⟩ => ⟨S50000x1, .i32⟩
  | .hbm, ⟨119, _⟩ => ⟨S512, .f32⟩
  | .hbm, ⟨120, _⟩ => ⟨S512x1, .f32⟩
  | .hbm, ⟨121, _⟩ => ⟨S50000x1, .i32⟩
  | .hbm, ⟨122, _⟩ => ⟨S1x256, .f32⟩
  | .hbm, ⟨123, _⟩ => ⟨S1x1, .f32⟩
  | .hbm, ⟨124, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S2000x1, .f32⟩
  | .local _ .vmem, ⟨26, _⟩ => ⟨S2000x1, .f32⟩
  | .local _ .vmem, ⟨27, _⟩ => ⟨S2000x256, .f32⟩
  | .local _ .vmem, ⟨28, _⟩ => ⟨S2000x256, .f32⟩
  | .local _ .vmem, ⟨29, _⟩ => ⟨S2000x256, .bf16⟩
  | .local _ .vmem, ⟨30, _⟩ => ⟨S2000x256, .bf16⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x256, .f32⟩
  | .local _ .vmem, ⟨49, _⟩ => ⟨S2000x1, .f32⟩
  | .local _ .vmem, ⟨50, _⟩ => ⟨S2000x1, .f32⟩
  | .local _ .vmem, ⟨51, _⟩ => ⟨S2000x256, .f32⟩
  | .local _ .vmem, ⟨52, _⟩ => ⟨S2000x256, .f32⟩
  | .local _ .vmem, ⟨53, _⟩ => ⟨S2000x256, .bf16⟩
  | .local _ .vmem, ⟨54, _⟩ => ⟨S2000x256, .bf16⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x1, .f32⟩
  | .local _ .vmem, ⟨60, _⟩ => ⟨S2000x1, .f32⟩
  | .local _ .vmem, ⟨61, _⟩ => ⟨S1x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S2000x256, .f32⟩
  | .local _ .vmem, ⟨67, _⟩ => ⟨S2000x256, .f32⟩
  | .local _ .vmem, ⟨68, _⟩ => ⟨S2000x256, .f32⟩
  | .local _ .vmem, ⟨69, _⟩ => ⟨S2000x256, .f32⟩
  | .local _ .vmem, ⟨70, _⟩ => ⟨S2000x256, .f32⟩
  | .local _ .vmem, ⟨71, _⟩ => ⟨S2000x256, .f32⟩
  | .local _ .vmem, ⟨72, _⟩ => ⟨S2000x1, .i32⟩
  | .local _ .vmem, ⟨73, _⟩ => ⟨S2000x1, .i32⟩
  | .local _ .vmem, ⟨74, _⟩ => ⟨S512x1, .f32⟩
  | .local _ .vmem, ⟨75, _⟩ => ⟨S256x256, .f32⟩
  | .local _ .vmem, ⟨76, _⟩ => ⟨S1x256, .f32⟩
  | .local _ .vmem, ⟨77, _⟩ => ⟨S256x1, .f32⟩
  | .local _ .vmem, ⟨78, _⟩ => ⟨S1x1, .f32⟩
  | .local _ .vmem, ⟨79, _⟩ => ⟨S512x1, .f32⟩
  | .local _ .vmem, ⟨80, _⟩ => ⟨S512x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12_0 : Ref sig .tc := ⟨.hbm, 40, rfl⟩
abbrev main_v12_1 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30_0 : Ref sig .tc := ⟨.hbm, 62, rfl⟩
abbrev main_v30_1 : Ref sig .tc := ⟨.hbm, 63, rfl⟩
abbrev main_c_4 : Ref sig .tc := ⟨.hbm, 64, rfl⟩
abbrev main_v31 : Ref sig .tc := ⟨.hbm, 65, rfl⟩
abbrev main_v32 : Ref sig .tc := ⟨.hbm, 66, rfl⟩
abbrev main_c_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48_0 : Ref sig .tc := ⟨.hbm, 84, rfl⟩
abbrev main_v48_1 : Ref sig .tc := ⟨.hbm, 85, rfl⟩
abbrev main_c_7 : Ref sig .tc := ⟨.hbm, 86, rfl⟩
abbrev main_v49 : Ref sig .tc := ⟨.hbm, 87, rfl⟩
abbrev main_v50 : Ref sig .tc := ⟨.hbm, 88, rfl⟩
abbrev main_c_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_10 : Ref sig .tc := ⟨.hbm, 106, rfl⟩
abbrev main_c_11 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_cst_13 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc3_stg9_0 : Ref sig .tc := ⟨.vmem, 44, rfl⟩
abbrev cc3_stg9_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc4_stg4_0 : Ref sig .tc := ⟨.vmem, 53, rfl⟩
abbrev cc4_stg4_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg8_0 : Ref sig .tc := ⟨.vmem, 66, rfl⟩
abbrev cc5_stg8_1 : Ref sig .tc := ⟨.vmem, 67, rfl⟩
abbrev cc5_stg9_0 : Ref sig .tc := ⟨.vmem, 68, rfl⟩
abbrev cc5_stg9_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg1_1 : Ref sig .tc := ⟨.vmem, 73, rfl⟩
abbrev cc6_stg2_0 : Ref sig .tc := ⟨.vmem, 74, rfl⟩
abbrev cc6_stg3_0 : Ref sig .tc := ⟨.vmem, 75, rfl⟩
abbrev cc6_stg4_0 : Ref sig .tc := ⟨.vmem, 76, rfl⟩
abbrev cc6_stg5_0 : Ref sig .tc := ⟨.vmem, 77, rfl⟩
abbrev cc6_stg6_0 : Ref sig .tc := ⟨.vmem, 78, rfl⟩
abbrev cc6_stg7_0 : Ref sig .tc := ⟨.vmem, 79, rfl⟩
abbrev cc6_scratch0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43
abbrev cc3_sem9_0 : DmaSem sig := 44
abbrev cc3_sem9_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem2_1 : DmaSem sig := 50
abbrev cc4_sem3_0 : DmaSem sig := 51
abbrev cc4_sem3_1 : DmaSem sig := 52
abbrev cc4_sem4_0 : DmaSem sig := 53
abbrev cc4_sem4_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem8_1 : DmaSem sig := 67
abbrev cc5_sem9_0 : DmaSem sig := 68
abbrev cc5_sem9_1 : DmaSem sig := 69
abbrev cc6_sem0_0 : DmaSem sig := 70
abbrev cc6_sem0_1 : DmaSem sig := 71
abbrev cc6_sem1_0 : DmaSem sig := 72
abbrev cc6_sem1_1 : DmaSem sig := 73
abbrev cc6_sem2_0 : DmaSem sig := 74
abbrev cc6_sem3_0 : DmaSem sig := 75
abbrev cc6_sem4_0 : DmaSem sig := 76
abbrev cc6_sem5_0 : DmaSem sig := 77
abbrev cc6_sem6_0 : DmaSem sig := 78
abbrev cc6_sem7_0 : DmaSem sig := 79

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S2000x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_8 : BitVec 32 := 0#32
  let v23 : BitVec 1 := Scalar.cmpi .ne v22 c0_i32_8
  v23

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S512 : S_.BroadcastsInDim S512 (![] : Fin 0 → Fin S512.rank)
  bcast_S50000_S50000x1_0 : S50000.BroadcastsInDim S50000x1 (![0] : Fin 1 → Fin S50000x1.rank)
  shapeCasts_S512_S512x1 : S512.ShapeCasts S512x1
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S2000x512_d1_w32 : S2000x512.Iotas .tc 32 [1]
  broadcasts_S2000x1_S2000x512 : S2000x1.Broadcasts S2000x512
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  broadcasts_S1x256_S512x256 : S1x256.Broadcasts S512x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S512_S50000x1_S50000_n_0_0_1_wf : ScatterDims.WF S512 S50000x1 S50000 [] [0] [0] 1
  dot_S2000x512_S2000x256_S512x256_0_0_1_1_n_n_wf : DotDims.WF S2000x512 S2000x256 S512x256 [0] [0] [1] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .bf16 = 32 ∨ (Rect.block (s := S50000x256) S2000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x256.size a ≤ S50000x256.size a
  hwx3_9 : ∀ i : grid3.Coords, EltTy.bits .f32 = 32 ∨ (Rect.block (s := S50000x256) S2000x256.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .bf16 = 32 ∨ (Rect.block (s := S50000x256) S2000x256.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S50000x256.size a
  hwx5_8 : ∀ i : grid5.Coords, EltTy.bits .f32 = 32 ∨ (Rect.block (s := S50000x256) S2000x256.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x256.size a ≤ S50000x256.size a
  hwx5_9 : ∀ i : grid5.Coords, EltTy.bits .f32 = 32 ∨ (Rect.block (s := S50000x256) S2000x256.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S50000x256.size a
  hwx6_0 : ∀ i : grid6.Coords, EltTy.bits .f32 = 32 ∨ (Rect.block (s := S50000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S50000x1.size a
  hwx6_1 : ∀ i : grid6.Coords, EltTy.bits .i32 = 32 ∨ (Rect.block (s := S50000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x1.size a ≤ S512x1.size a
  hwx6_2 : ∀ i : grid6.Coords, EltTy.bits .f32 = 32 ∨ (Rect.block (s := S512x1) S512x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1.size a ≤ S256x1.size a
  hwx6_5 : ∀ i : grid6.Coords, EltTy.bits .f32 = 32 ∨ (Rect.block (s := S256x1) S256x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x1.size a ≤ S512x1.size a
  hwx6_7 : ∀ i : grid6.Coords, EltTy.bits .f32 = 32 ∨ (Rect.block (s := S512x1) S512x1.size (cc6_transform_7 i) (hinb6_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S2000x512_S2000x256_S512x256_0_0_1_1_n_n : DotDims S2000x512 S2000x256 S512x256 where
  lhsContracting := [0]
  rhsContracting := [0]
  lhsNonContracting := [1]
  rhsNonContracting := [1]
  lhsBatch := []
  rhsBatch := []
  wf := dot_S2000x512_S2000x256_S512x256_0_0_1_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v29) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S2000x256.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v30_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v46) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v29) S2000x256.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v47) S2000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v47) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48_0) S2000x256.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v48_1) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v48_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v63) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v64) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v47) S2000x256.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v65) S2000x256.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v65) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S512x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg21) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v73) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg23) S256x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v74) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v75) S512x1.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev idle6 : Fin 8 → grid6.Coords → Bool := fun | 0 => fun _ => false | 1 => fun _ => false | 2 => fun _ => false | 3 => fun _ => false | 4 => fun _ => false | 5 => fun _ => false | 6 => fun _ => false | 7 => fun i => !(k6_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S512x256 : Shape := ⟨2, ![512, 256]⟩
abbrev S512 : Shape := ⟨1, ![512]⟩
abbrev S512x1 : Shape := ⟨2, ![512, 1]⟩
abbrev S1x1 : Shape := ⟨2, ![1, 1]⟩

abbrev nBuf : Space → Nat
  | .hbm => 230
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256x256, .f32⟩
  | 22 => ⟨S256, .f32⟩
  | 23 => ⟨S256x1, .f32⟩
  | 24 => ⟨S1, .f32⟩
  | 25 => ⟨S1x800000, .i32⟩
  | 26 => ⟨S800000, .i32⟩
  | 27 => ⟨S1x800000, .i32⟩
  | 28 => ⟨S800000, .i32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000, .f32⟩
  | 39 => ⟨S50000x256, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x256, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S800000x1, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x1, .f32⟩
  | 66 => ⟨S50000x256, .f32⟩
  | 67 => ⟨S50000x256, .f32⟩
  | 68 => ⟨S50000, .f32⟩
  | 69 => ⟨S50000x1, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S256, .f32⟩
  | 84 => ⟨S256, .f32⟩
  | 85 => ⟨S256, .f32⟩
  | 86 => ⟨S256, .f32⟩
  | 87 => ⟨S1x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S50000x256, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S800000x1, .f32⟩
  | 113 => ⟨S800000x256, .f32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S50000x1, .f32⟩
  | 120 => ⟨S50000x256, .f32⟩
  | 121 => ⟨S50000x256, .f32⟩
  | 122 => ⟨S50000, .f32⟩
  | 123 => ⟨S50000x1, .f32⟩
  | 124 => ⟨S50000x256, .f32⟩
  | 125 => ⟨S50000x256, .f32⟩
  | 126 => ⟨S50000x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S1x256, .f32⟩
  | 6 => ⟨S50000x256, .f32⟩
  | 7 => ⟨S50000x256, .f32⟩
  | 8 => ⟨S_, .f32⟩
  | 9 => ⟨S256, .f32⟩
  | 10 => ⟨S256, .f32⟩
  | 11 => ⟨S256, .f32⟩
  | 12 => ⟨S256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S50000x256, .f32⟩
  | 20 => ⟨S50000x256, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000x1, .f32⟩
  | 40 => ⟨S800000x256, .f32⟩
  | 41 => ⟨S800000x256, .f32⟩
  | 42 => ⟨S_, .f32⟩
  | 43 => ⟨S50000x256, .f32⟩
  | 44 => ⟨S800000x1, .i32⟩
  | 45 => ⟨S50000x256, .f32⟩
  | 46 => ⟨S50000x1, .f32⟩
  | 47 => ⟨S50000x256, .f32⟩
  | 48 => ⟨S50000x256, .f32⟩
  | 49 => ⟨S50000, .f32⟩
  | 50 => ⟨S50000x1, .f32⟩
  | 51 => ⟨S50000x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S1x256, .f32⟩
  | 61 => ⟨S50000x256, .f32⟩
  | 62 => ⟨S50000x256, .f32⟩
  | 63 => ⟨S_, .f32⟩
  | 64 => ⟨S256, .f32⟩
  | 65 => ⟨S256, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S50000x256, .f32⟩
  | 75 => ⟨S_, .f32⟩
  | 76 => ⟨S512x256, .f32⟩
  | 77 => ⟨S50000x1, .i32⟩
  | 78 => ⟨S512x256, .f32⟩
  | 79 => ⟨S_, .f32⟩
  | 80 => ⟨S50000, .f32⟩
  | 81 => ⟨S_, .f32⟩
  | 82 => ⟨S512, .f32⟩
  | 83 => ⟨S50000x1, .i32⟩
  | 84 => ⟨S512, .f32⟩
  | 85 => ⟨S_, .f32⟩
  | 86 => ⟨S512, .f32⟩
  | 87 => ⟨S512, .f32⟩
  | 88 => ⟨S512x1, .f32⟩
  | 89 => ⟨S512x256, .f32⟩
  | 90 => ⟨S512x256, .f32⟩
  | 91 => ⟨S512x256, .f32⟩
  | 92 => ⟨S1x256, .f32⟩
  | 93 => ⟨S512x256, .f32⟩
  | 94 => ⟨S512x256, .f32⟩
  | 95 => ⟨S_, .f32⟩
  | 96 => ⟨S512x256, .f32⟩
  | 97 => ⟨S512x256, .f32⟩
  | 98 => ⟨S512x1, .f32⟩
  | 99 => ⟨S1x1, .f32⟩
  | 100 => ⟨S512x1, .f32⟩
  | 101 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_3 : Ref sig .tc := ⟨.hbm, 49, rfl⟩
abbrev main_v19 : Ref sig .tc := ⟨.hbm, 50, rfl⟩
abbrev main_v20 : Ref sig .tc := ⟨.hbm, 51, rfl⟩
abbrev main_c_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_call0_cst : Ref sig .tc := ⟨.hbm, 76, rfl⟩
abbrev main_call0_v0 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_6 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_7 : Ref sig .tc := ⟨.hbm, 94, rfl⟩
abbrev main_v58 : Ref sig .tc := ⟨.hbm, 95, rfl⟩
abbrev main_v59 : Ref sig .tc := ⟨.hbm, 96, rfl⟩
abbrev main_c_8 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_11 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call1_cst : Ref sig .tc := ⟨.hbm, 130, rfl⟩
abbrev main_call1_v0 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_12 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_13 : Ref sig .tc := ⟨.hbm, 149, rfl⟩
abbrev main_v105 : Ref sig .tc := ⟨.hbm, 150, rfl⟩
abbrev main_v106 : Ref sig .tc := ⟨.hbm, 151, rfl⟩
abbrev main_c_14 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_15 : Ref sig .tc := ⟨.hbm, 158, rfl⟩
abbrev main_v112 : Ref sig .tc := ⟨.hbm, 159, rfl⟩
abbrev main_v113 : Ref sig .tc := ⟨.hbm, 160, rfl⟩
abbrev main_c_16 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_17 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_call2_cst : Ref sig .tc := ⟨.hbm, 185, rfl⟩
abbrev main_call2_v0 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_18 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_19 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_20 : Ref sig .tc := ⟨.hbm, 207, rfl⟩
abbrev main_v154 : Ref sig .tc := ⟨.hbm, 208, rfl⟩
abbrev main_cst_21 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_22 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_call3_cst : Ref sig .tc := ⟨.hbm, 223, rfl⟩
abbrev main_call3_v0 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S512x256 : S_.BroadcastsInDim S512x256 (![] : Fin 0 → Fin S512x256.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  gather_S50000_S800000x1_S800000_n_0_n_n_0_1_1_wf : GatherDims.WF S50000 S800000x1 S800000 [] [0] [] [0] [] 1 ![1]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.Kernel.RegMMCommon.lean ====
import proofs.«415159_j89687507076125_2_alg».proof.Proof.Gen.Kernel.Launch
import proofs.«415159_j89687507076125_2_alg».proof.Proof.Gen.Kernel.Skeleton
import proofs.«415159_j89687507076125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

-- A body's triple on five whole memrefs: the first three are left at their contents, the last two, whatever they held, end at the given contents.
def Triple5 (c : Dev nD) {s0 s1 s2 s3 s4 : Shape} {e0 e1 e2 e3 e4 : EltTy}
    (m0 : Memref sig .tc .vmem s0 e0) (m1 : Memref sig .tc .vmem s1 e1) (m2 : Memref sig .tc .vmem s2 e2)
    (m3 : Memref sig .tc .vmem s3 e3) (m4 : Memref sig .tc .vmem s4 e4) {α3 α4 : Type} (b3 : α3 → Vec F s3 e3) (b4 : α4 → Vec F s4 e4)
    (X : Vec F s0 e0) (W : Vec F s1 e1) (D : Vec F s2 e2) (H : Vec F s3 e3) (S : Vec F s4 e4)
    (e : Prog (TpuEff nD τ sig (Elt F) Λ₀ .tc) PUnit) : Prop :=
  ∀ K : PUnit → sProp 𝕄,
    iprop(owns (c : Thread nD τ) m0 fullShare X ∗ owns (c : Thread nD τ) m1 fullShare W ∗ owns (c : Thread nD τ) m2 fullShare D
        ∗ (∃ d, owns (c : Thread nD τ) m3 fullShare (b3 d)) ∗ (∃ d, owns (c : Thread nD τ) m4 fullShare (b4 d))
        ∗ (iprop(owns (c : Thread nD τ) m0 fullShare X ∗ owns (c : Thread nD τ) m1 fullShare W ∗ owns (c : Thread nD τ) m2 fullShare D
            ∗ owns (c : Thread nD τ) m3 fullShare H ∗ owns (c : Thread nD τ) m4 fullShare S) -∗ K ⟨⟩))
      ⊢ wp frame (wpE (defs₀ (F := F)) Variants.none c none) Set.univ e K

-- Framing: a triple on five memrefs' contents extends by any two further resources; each input may be given as a family that is constantly its contents, each output's result up to equality.
theorem body_of_kernel {c : Dev nD} {s0 s1 s2 s3 s4 : Shape} {e0 e1 e2 e3 e4 : EltTy}
    {m0 : Memref sig .tc .vmem s0 e0} {m1 : Memref sig .tc .vmem s1 e1} {m2 : Memref sig .tc .vmem s2 e2}
    {m3 : Memref sig .tc .vmem s3 e3} {m4 : Memref sig .tc .vmem s4 e4} {Φ O : sProp 𝕄} {α0 α1 α2 α3 α4 : Type}
    {b0 : α0 → Vec F s0 e0} {b1 : α1 → Vec F s1 e1} {b2 : α2 → Vec F s2 e2} {b3 : α3 → Vec F s3 e3} {b4 : α4 → Vec F s4 e4}
    {X : Vec F s0 e0} {W : Vec F s1 e1} {D : Vec F s2 e2} {H H' : Vec F s3 e3} {S S' : Vec F s4 e4}
    {e : Prog (TpuEff nD τ sig (Elt F) Λ₀ .tc) PUnit}
    (hX : ∀ d, b0 d = X) (hW : ∀ d, b1 d = W) (hD : ∀ d, b2 d = D) (hH : H = H') (hS : S = S')
    (hk : Triple5 c m0 m1 m2 m3 m4 b3 b4 X W D H' S' e) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d))
        ∗ (∃ d, owns (c : Thread nD τ) m4 fullShare (b4 d)))
      ⊢ wp frame (wpE (defs₀ (F := F)) Variants.none c none) Set.univ e fun _ =>
        iprop(Φ ∗ O ∗ owns (c : Thread nD τ) m0 fullShare X ∗ owns (c : Thread nD τ) m1 fullShare W ∗ owns (c : Thread nD τ) m2 fullShare D
          ∗ owns (c : Thread nD τ) m3 fullShare H ∗ owns (c : Thread nD τ) m4 fullShare S) := by
  subst hH hS
  simp only [hX, hW, hD]
  iintro ⟨HΦ, Ho, ⟨%dX, HX⟩, ⟨%dW, HW⟩, ⟨%dD, HD⟩, HH, HS⟩
  iapply (hk _)
  isplitl [HX]; · iexact HX
  isplitl [HW]; · iexact HW
  isplitl [HD]; · iexact HD
  isplitl [HH]; · iexact HH
  isplitl [HS]; · iexact HS
  iintro ⟨HX, HW, HD, HH, HS⟩
  isplitl [HΦ]; · iexact HΦ
  isplitl [Ho]; · iexact Ho
  isplitl [HX]; · iexact HX
  isplitl [HW]; · iexact HW
  isplitl [HD]; · iexact HD
  isplitl [HH]; · iexact HH
  iexact HS

end Cert.Kernel.Frm

end
-- ==== Proof.Kernel.RegMM0.lean ====
import proofs.«415159_j89687507076125_2_alg».proof.Proof.Kernel.RegMMCommon

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]
variable (V : (c : Dev nD) → (b : Ref sig .tc) → Buf (Elt F) ((c : Thread nD τ).loc b)) (c : Dev nD)

local notation "𝕄" => MT nD τ sig Unit (Elt F) ℕ (UR sig nD τ) ℕ

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x1 := Rect.unit (s := S2000x1) ![0, 0] S2000x1.size inb_S2000x1_S2000x1_0_0
abbrev r0_3 : Rect S2000x256 := Rect.unit (s := S2000x256) ![0, 0] S2000x256.size inb_S2000x256_S2000x256_0_0

def out0_3 (xX : Vec F S2000x128 .f32) (xW : Vec F S128x256 .f32) : Vec F S2000x256 .f32 :=
  View.canon [⟨r0_3, k0_pay1 (View.ld xX r0_0) (View.ld xW r0_1)⟩]

def out0_4 (xX : Vec F S2000x128 .f32) (xW : Vec F S128x256 .f32) (xD : Vec F S2000x1 .f32) : Vec F S2000x256 .bf16 :=
  View.canon [⟨r0_3, k0_pay2 (View.ld xX r0_0) (View.ld xW r0_1) (View.ld xD r0_2)⟩]

set_option maxHeartbeats 1000000 in
-- The inputs are only read; each output is overwritten by one store over its whole index set, so afterwards it reads the stored value.
theorem sound_kernel0 {i : grid0.Coords}
    {mX : Memref sig .tc .vmem S2000x128 .f32} {hmX : mX.IsWhole} {mW : Memref sig .tc .vmem S128x256 .f32} {hmW : mW.IsWhole}
    {mD : Memref sig .tc .vmem S2000x1 .f32} {hmD : mD.IsWhole} {mH : Memref sig .tc .vmem S2000x256 .f32} {hmH : mH.IsWhole}
    {mS : Memref sig .tc .vmem S2000x256 .bf16} {hmS : mS.IsWhole} {αH αS : Type} {gH : αH → Vec F S2000x256 .f32} {gS : αS → Vec F S2000x256 .bf16}
    (xX : Vec F S2000x128 .f32) (xW : Vec F S128x256 .f32) (xD : Vec F S2000x1 .f32) :
    Triple5 c mX mW mD mH mS gH gS xX xW xD (out0_3 xX xW) (out0_4 xX xW xD) (cc0__matmul_scaled_kernel i mX hmX mW hmW mD hmD mH hmH mS hmS) := by
  intro K
  simp only [cc0__matmul_scaled_kernel_eq_skeleton]; unfold cc0__matmul_scaled_kernel_skel
  unfold owns
  iintro ⟨⟨%fX, %hfX, HX⟩, ⟨%fW, %hfW, HW⟩, ⟨%fD, %hfD, HD⟩, ⟨%dH, %fH, -, HH⟩, ⟨%dS, %fS, -, HS⟩, Hk⟩
  subst hfX; subst hfW; subst hfD
  sl_exec
  sl_step
  iapply Hk
  isplitl [HX]
  · iexists fX; isplitr; · ipureintro; rfl
    iexact HX
  isplitl [HW]
  · iexists fW; isplitr; · ipureintro; rfl
    iexact HW
  isplitl [HD]
  · iexists fD; isplitr; · ipureintro; rfl
    iexact HD
  isplitl [HH]
  · iexists _; isplitr
    swap; · iexact HH
    ipureintro
    exact View.read_writes_eq_canon _ _ _ (View.cover_of_tiled _ S2000x256.size (by rfl))
  iexists _; isplitr
  swap; · iexact HS
  ipureintro
  exact View.read_writes_eq_canon _ _ _ (View.cover_of_tiled _ S2000x256.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl
theorem share0 (w : Fin cfg0.W) : (dat0 V c).q w = fullShare := rfl
theorem owed0 (t : Fin (cfg0.N + 1)) : (dat0 V c).owed t = 0 := rfl
theorem Phi0 (t : Fin (cfg0.N + 1)) : (dat0 V c).Φ t = Pipeline.ΦA spec0 c := rfl
theorem after0_3 (t : Fin cfg0.N) : (dat0 V c).after 3 t = out0_3 (iblk0 V c 0 t) (iblk0 V c 1 t) := by dsimp only [dat0]
theorem after0_4 (t : Fin cfg0.N) : (dat0 V c).after 4 t = out0_4 (iblk0 V c 0 t) (iblk0 V c 1 t) (iblk0 V c 2 t) := by dsimp only [dat0]

-- What the body finds in an input window at a point is the window's block there.
theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl

theorem body_obligation0 : BodyObligation (dat0 (F := F) V c) (defs₀ (F := F)) Variants.none () Set.univ := fun t => by
  rw [bigSep_W0, bigSep_W0]
  exact body_of_kernel (e := bodyAt0 t) (before0_0 V c t) (before0_1 V c t) (before0_2 V c t) (after0_3 V c t) (after0_4 V c t) <|
    sound_kernel0 c (iblk0 V c 0 t) (iblk0 V c 1 t) (iblk0 V c 2 t)

end Cert.Kernel.Frm

end
-- ==== Proof.Kernel.RegCB1.lean ====
import proofs.«415159_j89687507076125_2_alg».proof.Proof.Gen.Kernel.Launch
import proofs.«415159_j89687507076125_2_alg».proof.Proof.Gen.Kernel.Skeleton
import proofs.«415159_j89687507076125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev r1_a : Rect S2000x256 := Rect.unit (s := S2000x256) ![0, 0] S2000x256.size inb_S2000x256_S2000x256_0_0
abbrev r1_b : Rect S2000x1 := Rect.unit (s := S2000x1) ![0, 0] S2000x1.size inb_S2000x1_S2000x1_0_0
abbrev r1_c : Rect S1x256 := Rect.unit (s := S1x256) ![0, 0] S1x256.size inb_S1x256_S1x256_0_0

def out1_8 (x0 : Vec F S2000x256 .f32) (x1 : Vec F S2000x256 .f32) (x2 : Vec F S2000x1 .f32) (x3 : Vec F S1x256 .f32) (x4 : Vec F S1x256 .f32)
    (x5 : Vec F S1x256 .f32) (x6 : Vec F S1x256 .f32) (x7 : Vec F S1x256 .f32) : Vec F S2000x256 .f32 :=
  View.canon [⟨r1_a, k1_pay1 (View.ld x2 r1_b) (View.ld x1 r1_a) (View.ld x0 r1_a) (View.ld x3 r1_c) (View.ld x4 r1_c) (View.ld x7 r1_c) (View.ld x6 r1_c) (View.ld x5 r1_c)⟩]

set_option maxHeartbeats 1000000 in
-- The body reads its inputs and writes one block that covers the whole output, so the output ends at the canonical contents of that one write.
theorem sound_kernel1 {c : Dev nD} {E : Set ℕ} {i : grid1.Coords} {arg1 arg2 arg9 : Memref sig .tc .vmem S2000x256 .f32} {arg3 : Memref sig .tc .vmem S2000x1 .f32}
    {arg4 arg5 arg6 arg7 arg8 : Memref sig .tc .vmem S1x256 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole} {harg9 : arg9.IsWhole}
    {x0 x1 : Vec F S2000x256 .f32} {x2 : Vec F S2000x1 .f32} {x3 x4 x5 x6 x7 : Vec F S1x256 .f32} {P Q : sProp 𝕄} :
    iprop(P ∗ Q ∗ owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ owns c arg8 fullShare x7 ∗ (∃ d, owns c arg9 fullShare d))
      ⊢ wp frame (wpE (defs₀ (F := F)) Variants.none c none) E (cc1__combine_kernel_noresid i arg1 harg1 arg2 harg2 arg3 harg3 arg4 harg4 arg5 harg5 arg6 harg6 arg7 harg7 arg8 harg8 arg9 harg9) fun _ =>
        iprop(P ∗ Q ∗ owns c arg1 fullShare x0 ∗ owns c arg2 fullShare x1 ∗ owns c arg3 fullShare x2 ∗ owns c arg4 fullShare x3 ∗ owns c arg5 fullShare x4
          ∗ owns c arg6 fullShare x5 ∗ owns c arg7 fullShare x6 ∗ owns c arg8 fullShare x7 ∗ owns c arg9 fullShare (out1_8 x0 x1 x2 x3 x4 x5 x6 x7)) := by
  simp only [cc1__combine_kernel_noresid_eq_skeleton]; unfold cc1__combine_kernel_noresid_skel owns
  iintro ⟨HP, HQ, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩⟩
  subst h0 h1 h2 h3 h4 h5 h6 h7
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (w : Fin cfg1.W) : (dat1 V c).A w = V c (Pipeline.arrRef spec1 w) := rfl
theorem share1 (w : Fin cfg1.W) : (dat1 V c).q w = fullShare := rfl
theorem owed1 (t : Fin (cfg1.N + 1)) : (dat1 V c).owed t = 0 := rfl
theorem Phi1 (t : Fin (cfg1.N + 1)) : (dat1 V c).Φ t = Pipeline.ΦA spec1 c := rfl
theorem after1_8 (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

-- The body returns every input as it found it, so at each point an input holds its block of the array.
theorem before1 : ∀ w : Fin cfg1.W, w.1 ≠ 8 → ∀ t d, (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (dat1 V c).before_in_eq_fetched _ ?_ ?_ ?_ ?_ t d <;> intros <;> rfl
  | ⟨8, _⟩, h, _, _ => absurd rfl h

-- At every point the inputs hold their blocks, so the body's triple applies; the invariant and what is owed pass through unchanged.
theorem body_obligation1 : BodyObligation (dat1 (F := F) V c) (defs₀ (F := F)) Variants.none () Set.univ := fun t => by
  rw [bigSep_W1, bigSep_W1]
  simp (disch := decide) only [before1 V c]
  rw [Phi1, Phi1, show (dat1 V c).owesAt () t.succ = (dat1 V c).owesAt () t.castSucc from rfl, after1_8]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_kernel1
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

end Cert.Kernel.Frm

end
-- ==== Proof.Kernel.RegMM2.lean ====
import proofs.«415159_j89687507076125_2_alg».proof.Proof.Kernel.RegMMCommon

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]
variable (V : (c : Dev nD) → (b : Ref sig .tc) → Buf (Elt F) ((c : Thread nD τ).loc b)) (c : Dev nD)

local notation "𝕄" => MT nD τ sig Unit (Elt F) ℕ (UR sig nD τ) ℕ

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x1 := Rect.unit (s := S2000x1) ![0, 0] S2000x1.size inb_S2000x1_S2000x1_0_0
abbrev r2_3 : Rect S2000x256 := Rect.unit (s := S2000x256) ![0, 0] S2000x256.size inb_S2000x256_S2000x256_0_0

def out2_3 (xX : Vec F S2000x256 .f32) (xW : Vec F S256x256 .f32) : Vec F S2000x256 .f32 :=
  View.canon [⟨r2_3, k2_pay1 (View.ld xX r2_0) (View.ld xW r2_1)⟩]

def out2_4 (xX : Vec F S2000x256 .f32) (xW : Vec F S256x256 .f32) (xD : Vec F S2000x1 .f32) : Vec F S2000x256 .bf16 :=
  View.canon [⟨r2_3, k2_pay2 (View.ld xX r2_0) (View.ld xW r2_1) (View.ld xD r2_2)⟩]

set_option maxHeartbeats 1000000 in
-- The inputs are only read; each output is overwritten by one store over its whole index set, so afterwards it reads the stored value.
theorem sound_kernel2 {i : grid2.Coords}
    {mX : Memref sig .tc .vmem S2000x256 .f32} {hmX : mX.IsWhole} {mW : Memref sig .tc .vmem S256x256 .f32} {hmW : mW.IsWhole}
    {mD : Memref sig .tc .vmem S2000x1 .f32} {hmD : mD.IsWhole} {mH : Memref sig .tc .vmem S2000x256 .f32} {hmH : mH.IsWhole}
    {mS : Memref sig .tc .vmem S2000x256 .bf16} {hmS : mS.IsWhole} {αH αS : Type} {gH : αH → Vec F S2000x256 .f32} {gS : αS → Vec F S2000x256 .bf16}
    (xX : Vec F S2000x256 .f32) (xW : Vec F S256x256 .f32) (xD : Vec F S2000x1 .f32) :
    Triple5 c mX mW mD mH mS gH gS xX xW xD (out2_3 xX xW) (out2_4 xX xW xD) (cc2__matmul_scaled_kernel i mX hmX mW hmW mD hmD mH hmH mS hmS) := by
  intro K
  simp only [cc2__matmul_scaled_kernel_eq_skeleton]; unfold cc2__matmul_scaled_kernel_skel
  unfold owns
  iintro ⟨⟨%fX, %hfX, HX⟩, ⟨%fW, %hfW, HW⟩, ⟨%fD, %hfD, HD⟩, ⟨%dH, %fH, -, HH⟩, ⟨%dS, %fS, -, HS⟩, Hk⟩
  subst hfX; subst hfW; subst hfD
  sl_exec
  sl_step
  iapply Hk
  isplitl [HX]
  · iexists fX; isplitr; · ipureintro; rfl
    iexact HX
  isplitl [HW]
  · iexists fW; isplitr; · ipureintro; rfl
    iexact HW
  isplitl [HD]
  · iexists fD; isplitr; · ipureintro; rfl
    iexact HD
  isplitl [HH]
  · iexists _; isplitr
    swap; · iexact HH
    ipureintro
    exact View.read_writes_eq_canon _ _ _ (View.cover_of_tiled _ S2000x256.size (by rfl))
  iexists _; isplitr
  swap; · iexact HS
  ipureintro
  exact View.read_writes_eq_canon _ _ _ (View.cover_of_tiled _ S2000x256.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (w : Fin cfg2.W) : (dat2 V c).A w = V c (Pipeline.arrRef spec2 w) := rfl
theorem share2 (w : Fin cfg2.W) : (dat2 V c).q w = fullShare := rfl
theorem owed2 (t : Fin (cfg2.N + 1)) : (dat2 V c).owed t = 0 := rfl
theorem Phi2 (t : Fin (cfg2.N + 1)) : (dat2 V c).Φ t = Pipeline.ΦA spec2 c := rfl
theorem after2_3 (t : Fin cfg2.N) : (dat2 V c).after 3 t = out2_3 (iblk2 V c 0 t) (iblk2 V c 1 t) := by dsimp only [dat2]
theorem after2_4 (t : Fin cfg2.N) : (dat2 V c).after 4 t = out2_4 (iblk2 V c 0 t) (iblk2 V c 1 t) (iblk2 V c 2 t) := by dsimp only [dat2]

-- What the body finds in an input window at a point is the window's block there.
theorem before2_0 (t : Fin cfg2.N) (d) : (dat2 V c).before 0 t d = iblk2 V c 0 t :=
  ((dat2 V c).before_in_eq_fetched 0 rfl (fun _ => rfl) (fun _ _ _ => rfl) (fun _ => rfl) t d).trans rfl
theorem before2_1 (t : Fin cfg2.N) (d) : (dat2 V c).before 1 t d = iblk2 V c 1 t :=
  ((dat2 V c).before_in_eq_fetched 1 rfl (fun _ => rfl) (fun _ _ _ => rfl) (fun _ => rfl) t d).trans rfl
theorem before2_2 (t : Fin cfg2.N) (d) : (dat2 V c).before 2 t d = iblk2 V c 2 t :=
  ((dat2 V c).before_in_eq_fetched 2 rfl (fun _ => rfl) (fun _ _ _ => rfl) (fun _ => rfl) t d).trans rfl

theorem body_obligation2 : BodyObligation (dat2 (F := F) V c) (defs₀ (F := F)) Variants.none () Set.univ := fun t => by
  rw [bigSep_W2, bigSep_W2]
  exact body_of_kernel (e := bodyAt2 t) (before2_0 V c t) (before2_1 V c t) (before2_2 V c t) (after2_3 V c t) (after2_4 V c t) <|
    sound_kernel2 c (iblk2 V c 0 t) (iblk2 V c 1 t) (iblk2 V c 2 t)

end Cert.Kernel.Frm

end
-- ==== Proof.Kernel.RegCB3.lean ====
import proofs.«415159_j89687507076125_2_alg».proof.Proof.Gen.Kernel.Launch
import proofs.«415159_j89687507076125_2_alg».proof.Proof.Gen.Kernel.Skeleton
import proofs.«415159_j89687507076125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev r3_0 : Rect S2000x256 := Rect.unit (s := S2000x256) ![0, 0] S2000x256.size inb_S2000x256_S2000x256_0_0
abbrev r3_1 : Rect S2000x1 := Rect.unit (s := S2000x1) ![0, 0] S2000x1.size inb_S2000x1_S2000x1_0_0
abbrev r3_2 : Rect S1x256 := Rect.unit (s := S1x256) ![0, 0] S1x256.size inb_S1x256_S1x256_0_0

def out3_9 (xa : Vec F S2000x256 .f32) (xb : Vec F S2000x256 .f32) (xc : Vec F S2000x1 .f32) (xd : Vec F S1x256 .f32) (xe : Vec F S1x256 .f32) (xf : Vec F S1x256 .f32) (xg : Vec F S1x256 .f32) (xh : Vec F S1x256 .f32) (xi : Vec F S2000x256 .f32) : Vec F S2000x256 .f32 :=
  View.canon [⟨r3_0, k3_pay1 (View.ld xc r3_1) (View.ld xb r3_0) (View.ld xa r3_0) (View.ld xd r3_2) (View.ld xe r3_2) (View.ld xh r3_2) (View.ld xg r3_2) (View.ld xf r3_2) (View.ld xi r3_0)⟩]

set_option maxHeartbeats 1000000 in
-- The body reads its inputs and writes one block that covers the whole output, so the output ends at the canonical contents of that one write.
theorem sound_kernel3 {c : Dev nD} {E : Set ℕ} {i : grid3.Coords} {ma mb mi mj : Memref sig .tc .vmem S2000x256 .f32} {mc : Memref sig .tc .vmem S2000x1 .f32}
    {md me mf mg mh : Memref sig .tc .vmem S1x256 .f32} {hma : ma.IsWhole} {hmb : mb.IsWhole} {hmc : mc.IsWhole} {hmd : md.IsWhole} {hme : me.IsWhole}
    {hmf : mf.IsWhole} {hmg : mg.IsWhole} {hmh : mh.IsWhole} {hmi : mi.IsWhole} {hmj : mj.IsWhole}
    {xa xb xi : Vec F S2000x256 .f32} {xc : Vec F S2000x1 .f32} {xd xe xf xg xh : Vec F S1x256 .f32} {P Q : sProp 𝕄} :
    iprop(P ∗ Q ∗ owns c ma fullShare xa ∗ owns c mb fullShare xb ∗ owns c mc fullShare xc ∗ owns c md fullShare xd ∗ owns c me fullShare xe
        ∗ owns c mf fullShare xf ∗ owns c mg fullShare xg ∗ owns c mh fullShare xh ∗ owns c mi fullShare xi ∗ (∃ d, owns c mj fullShare d))
      ⊢ wp frame (wpE (defs₀ (F := F)) Variants.none c none) E (cc3__combine_kernel_resid i ma hma mb hmb mc hmc md hmd me hme mf hmf mg hmg mh hmh mi hmi mj hmj) fun _ =>
        iprop(P ∗ Q ∗ owns c ma fullShare xa ∗ owns c mb fullShare xb ∗ owns c mc fullShare xc ∗ owns c md fullShare xd ∗ owns c me fullShare xe
          ∗ owns c mf fullShare xf ∗ owns c mg fullShare xg ∗ owns c mh fullShare xh ∗ owns c mi fullShare xi ∗ owns c mj fullShare (out3_9 xa xb xc xd xe xf xg xh xi)) := by
  simp only [cc3__combine_kernel_resid_eq_skeleton]; unfold cc3__combine_kernel_resid_skel owns
  iintro ⟨HP, HQ, ⟨%fa, %ha, Ha⟩, ⟨%fb, %hb, Hb⟩, ⟨%fc, %hc, Hc⟩, ⟨%fd, %hd, Hd⟩, ⟨%fe, %he, He⟩, ⟨%ff, %hf, Hf⟩, ⟨%fg, %hg, Hg⟩, ⟨%fh, %hh, Hh⟩, ⟨%fi, %hi, Hi⟩, ⟨%dj, %fj, -, Hj⟩⟩
  subst ha hb hc hd he hf hg hh hi
  sl_exec
  sl_step
  isplitl [HP]; · iexact HP
  isplitl [HQ]; · iexact HQ
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  isplitl [Hg]; · iexists fg; isplitr; · ipureintro; rfl
                  iexact Hg
  isplitl [Hh]; · iexists fh; isplitr; · ipureintro; rfl
                  iexact Hh
  isplitl [Hi]; · iexists fi; isplitr; · ipureintro; rfl
                  iexact Hi
  iexists _; isplitr
  swap; · iexact Hj
  ipureintro
  exact View.read_writes_eq_canon _ _ _ (View.cover_of_tiled _ S2000x256.size (by rfl))

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (w : Fin cfg3.W) : (dat3 V c).A w = V c (Pipeline.arrRef spec3 w) := rfl
theorem share3 (w : Fin cfg3.W) : (dat3 V c).q w = fullShare := rfl
theorem owed3 (t : Fin (cfg3.N + 1)) : (dat3 V c).owed t = 0 := rfl
theorem Phi3 (t : Fin (cfg3.N + 1)) : (dat3 V c).Φ t = Pipeline.ΦA spec3 c := rfl
theorem after3_9 (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

-- The body returns every input as it found it, so at each point an input holds its block of the array.
theorem before3 : ∀ w : Fin cfg3.W, w.1 ≠ 9 → ∀ t d, (dat3 V c).before w t d = (dat3 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d => by
    refine (dat3 V c).before_in_eq_fetched _ ?_ ?_ ?_ ?_ t d <;> intros <;> rfl
  | ⟨9, _⟩, h, _, _ => absurd rfl h

-- At every point the inputs hold their blocks, so the body's triple applies; the invariant and what is owed pass through unchanged.
theorem body_obligation3 : BodyObligation (dat3 (F := F) V c) (defs₀ (F := F)) Variants.none () Set.univ := fun t => by
  rw [bigSep_W3, bigSep_W3]
  simp (disch := decide) only [before3 V c]
  rw [Phi3, Phi3, show (dat3 V c).owesAt () t.succ = (dat3 V c).owesAt () t.castSucc from rfl, after3_9]
  show _ ⊢ wp _ _ _ (bodyAt3 t) _
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
  iapply sound_kernel3
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  iexists _; iexact Hj

end Cert.Kernel.Frm

end
-- ==== Proof.Kernel.RegMM4.lean ====
import proofs.«415159_j89687507076125_2_alg».proof.Proof.Kernel.RegMM2

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x256 := Rect.unit (s := S2000x256) ![0, 0] S2000x256.size inb_S2000x256_S2000x256_0_0
abbrev r4_1 : Rect S256x256 := Rect.unit (s := S256x256) ![0, 0] S256x256.size inb_S256x256_S256x256_0_0
abbrev r4_2 : Rect S2000x1 := Rect.unit (s := S2000x1) ![0, 0] S2000x1.size inb_S2000x1_S2000x1_0_0
abbrev r4_3 : Rect S2000x256 := Rect.unit (s := S2000x256) ![0, 0] S2000x256.size inb_S2000x256_S2000x256_0_0

def out4_3 (xX : Vec F S2000x256 .f32) (xW : Vec F S256x256 .f32) : Vec F S2000x256 .f32 :=
  View.canon [⟨r4_3, k4_pay1 (View.ld xX r4_0) (View.ld xW r4_1)⟩]

def out4_4 (xX : Vec F S2000x256 .f32) (xW : Vec F S256x256 .f32) (xD : Vec F S2000x1 .f32) : Vec F S2000x256 .bf16 :=
  View.canon [⟨r4_3, k4_pay2 (View.ld xX r4_0) (View.ld xW r4_1) (View.ld xD r4_2)⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (w : Fin cfg4.W) : (dat4 V c).A w = V c (Pipeline.arrRef spec4 w) := rfl
theorem share4 (w : Fin cfg4.W) : (dat4 V c).q w = fullShare := rfl
theorem owed4 (t : Fin (cfg4.N + 1)) : (dat4 V c).owed t = 0 := rfl
theorem Phi4 (t : Fin (cfg4.N + 1)) : (dat4 V c).Φ t = Pipeline.ΦA spec4 c := rfl
theorem after4_3 (t : Fin cfg4.N) : (dat4 V c).after 3 t = out4_3 (iblk4 V c 0 t) (iblk4 V c 1 t) := by dsimp only [dat4]
theorem after4_4 (t : Fin cfg4.N) : (dat4 V c).after 4 t = out4_4 (iblk4 V c 0 t) (iblk4 V c 1 t) (iblk4 V c 2 t) := by dsimp only [dat4]

-- What the body finds in an input window at a point is the window's block there.
theorem before4_0 (t : Fin cfg4.N) (d) : (dat4 V c).before 0 t d = iblk4 V c 0 t :=
  ((dat4 V c).before_in_eq_fetched 0 rfl (fun _ => rfl) (fun _ _ _ => rfl) (fun _ => rfl) t d).trans rfl
theorem before4_1 (t : Fin cfg4.N) (d) : (dat4 V c).before 1 t d = iblk4 V c 1 t :=
  ((dat4 V c).before_in_eq_fetched 1 rfl (fun _ => rfl) (fun _ _ _ => rfl) (fun _ => rfl) t d).trans rfl
theorem before4_2 (t : Fin cfg4.N) (d) : (dat4 V c).before 2 t d = iblk4 V c 2 t :=
  ((dat4 V c).before_in_eq_fetched 2 rfl (fun _ => rfl) (fun _ _ _ => rfl) (fun _ => rfl) t d).trans rfl

-- This pipeline's kernel is the kernel of pipeline 2, term for term.
theorem body_obligation4 : BodyObligation (dat4 (F := F) V c) (defs₀ (F := F)) Variants.none () Set.univ := fun t => by
  rw [bigSep_W4, bigSep_W4]
  exact body_of_kernel (e := bodyAt4 t) (before4_0 V c t) (before4_1 V c t) (before4_2 V c t) (after4_3 V c t) (after4_4 V c t) <| by
    unfold bodyAt4
    rw [show cc4__matmul_scaled_kernel (F := F) = cc2__matmul_scaled_kernel from rfl]
    exact sound_kernel2 c (iblk4 V c 0 t) (iblk4 V c 1 t) (iblk4 V c 2 t)

end Cert.Kernel.Frm

end
-- ==== Proof.Kernel.RegCB5.lean ====
import proofs.«415159_j89687507076125_2_alg».proof.Proof.Kernel.RegCB3

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

abbrev r5_0 : Rect S2000x256 := Rect.unit (s := S2000x256) ![0, 0] S2000x256.size inb_S2000x256_S2000x256_0_0
abbrev r5_1 : Rect S2000x1 := Rect.unit (s := S2000x1) ![0, 0] S2000x1.size inb_S2000x1_S2000x1_0_0
abbrev r5_2 : Rect S1x256 := Rect.unit (s := S1x256) ![0, 0] S1x256.size inb_S1x256_S1x256_0_0

def out5_9 (xa : Vec F S2000x256 .f32) (xb : Vec F S2000x256 .f32) (xc : Vec F S2000x1 .f32) (xd : Vec F S1x256 .f32) (xe : Vec F S1x256 .f32) (xf : Vec F S1x256 .f32) (xg : Vec F S1x256 .f32) (xh : Vec F S1x256 .f32) (xi : Vec F S2000x256 .f32) : Vec F S2000x256 .f32 :=
  View.canon [⟨r5_0, k5_pay1 (View.ld xc r5_1) (View.ld xb r5_0) (View.ld xa r5_0) (View.ld xd r5_2) (View.ld xe r5_2) (View.ld xh r5_2) (View.ld xg r5_2) (View.ld xf r5_2) (View.ld xi r5_0)⟩]

-- Pipeline 5 runs the kernel of pipeline 3: the two have the same skeleton.
theorem cc5_eq_cc3 : cc5__combine_kernel_resid (F := F) = cc3__combine_kernel_resid (F := F) :=
  cc5__combine_kernel_resid_eq_skeleton.trans (cc3__combine_kernel_resid_eq_skeleton.trans rfl).symm

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (w : Fin cfg5.W) : (dat5 V c).A w = V c (Pipeline.arrRef spec5 w) := rfl
theorem share5 (w : Fin cfg5.W) : (dat5 V c).q w = fullShare := rfl
theorem owed5 (t : Fin (cfg5.N + 1)) : (dat5 V c).owed t = 0 := rfl
theorem Phi5 (t : Fin (cfg5.N + 1)) : (dat5 V c).Φ t = Pipeline.ΦA spec5 c := rfl
theorem after5_9 (t : Fin cfg5.N) :
    (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

-- The body returns every input as it found it, so at each point an input holds its block of the array.
theorem before5 : ∀ w : Fin cfg5.W, w.1 ≠ 9 → ∀ t d, (dat5 V c).before w t d = (dat5 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d => by
    refine (dat5 V c).before_in_eq_fetched _ ?_ ?_ ?_ ?_ t d <;> intros <;> rfl
  | ⟨9, _⟩, h, _, _ => absurd rfl h

-- At every point the inputs hold their blocks, so the triple of pipeline 3's body applies; the invariant and what is owed pass through unchanged.
theorem body_obligation5 : BodyObligation (dat5 (F := F) V c) (defs₀ (F := F)) Variants.none () Set.univ := fun t => by
  rw [bigSep_W5, bigSep_W5]
  simp (disch := decide) only [before5 V c]
  rw [Phi5, Phi5, show (dat5 V c).owesAt () t.succ = (dat5 V c).owesAt () t.castSucc from rfl, after5_9]
  show _ ⊢ wp _ _ _ (bodyAt5 t) _
  unfold bodyAt5; rw [cc5_eq_cc3]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
  iapply sound_kernel3
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  iexists _; iexact Hj

end Cert.Kernel.Frm

end
-- ==== Proof.Kernel.RegPool6.lean ====
import proofs.«415159_j89687507076125_2_alg».proof.Proof.Gen.Kernel.Launch
import proofs.«415159_j89687507076125_2_alg».proof.Proof.Gen.Kernel.Skeleton
import proofs.«415159_j89687507076125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

theorem hcond6 : ∀ t : Fin cfg6.N, (cond6_0 (grid6.coords t) ↔ t.val = 0) ∧ (cond6_1 (grid6.coords t) ↔ t.val = 24) :=
  (by decide +kernel : ∀ t : Fin grid6.N, (cond6_0 (grid6.coords t) ↔ t.val = 0) ∧ (cond6_1 (grid6.coords t) ↔ t.val = 24))

theorem live6 : ∀ (t : Fin cfg6.N) (w : Fin cfg6.W), w.val ≠ 7 ∨ t.val = 24 → cfg6.idle w (grid6.coords t) = false := by decide +kernel
theorem idle6_7 : ∀ t : Fin cfg6.N, t.val ≠ 24 → cfg6.idle 7 (grid6.coords t) = true ∧ (cfg6.win 7).flush t = false := by decide +kernel

abbrev r6_x : Rect S2000x256 := Rect.unit (s := S2000x256) ![0, 0] S2000x256.size inb_S2000x256_S2000x256_0_0
abbrev r6_b : Rect S2000x1 := Rect.unit (s := S2000x1) ![0, 0] S2000x1.size inb_S2000x1_S2000x1_0_0
abbrev r6_n : Rect S512x1 := Rect.unit (s := S512x1) ![0, 0] S512x1.size inb_S512x1_S512x1_0_0
abbrev r6_w1 : Rect S256x256 := Rect.unit (s := S256x256) ![0, 0] S256x256.size inb_S256x256_S256x256_0_0
abbrev r6_b1 : Rect S1x256 := Rect.unit (s := S1x256) ![0, 0] S1x256.size inb_S1x256_S1x256_0_0
abbrev r6_w2 : Rect S256x1 := Rect.unit (s := S256x1) ![0, 0] S256x1.size inb_S256x1_S256x1_0_0
abbrev r6_b2 : Rect S1x1 := Rect.unit (s := S1x1) ![0, 0] S1x1.size inb_S1x1_S1x1_0_0
abbrev r6_s : Rect S512x256 := Rect.unit (s := S512x256) ![0, 0] S512x256.size inb_S512x256_S512x256_0_0

def zero6 : Vec F S512x256 .f32 := View.canon [⟨r6_s, k6_pay1 (F := F)⟩]

def acc6 (x : Vec F S2000x256 .f32) (b : Vec F S2000x1 .i32) (s : Vec F S512x256 .f32) : Vec F S512x256 .f32 :=
  View.canon [⟨r6_s, k6_pay2 (View.ld x r6_x) (View.ld b r6_b) (View.ld s r6_s)⟩]

def out6_7 (n : Vec F S512x1 .f32) (s : Vec F S512x256 .f32) (w1 : Vec F S256x256 .f32) (b1 : Vec F S1x256 .f32)
    (w2 : Vec F S256x1 .f32) (b2 : Vec F S1x1 .f32) : Vec F S512x1 .f32 :=
  View.canon [⟨r6_n, k6_pay3 (View.ld n r6_n) (View.ld s r6_s) (View.ld w1 r6_w1) (View.ld b1 r6_b1) (View.ld w2 r6_w2) (View.ld b2 r6_b2)⟩]

theorem cover6_s (p : Vec F S512x256 .f32) (y : S512x256.Idx) :
    ∃ pc ∈ ([⟨r6_s, p⟩] : List (View.Piece (Elt F) S512x256 .f32)), y ∈ pc.1.set :=
  View.cover_of_tiled [⟨r6_s, p⟩] S512x256.size (by rfl) y

-- a whole-shape store hides every earlier write; its third operand is a load of contents s
theorem acc6_eq {κ : Kind} {sp : Space} (v : View sig κ sp S512x256 .f32) (f : v.ty.Contents (Elt F)) (x : Vec F S2000x256 .f32) (b : Vec F S2000x1 .i32)
    (s p : Vec F S512x256 .f32) (L : List (View.Piece (Elt F) S512x256 .f32)) (hp : p = View.ld s r6_s) :
    v.read (Elt F) (v.writes (Elt F) f (⟨r6_s, k6_pay2 (View.ld x r6_x) (View.ld b r6_b) p⟩ :: L)) = acc6 x b s := by
  subst hp; exact View.read_writes_eq_canon v (v.writes (Elt F) f L) [_] (cover6_s _)

theorem out6_7_eq {κ : Kind} {sp : Space} (v : View sig κ sp S512x1 .f32) (f : v.ty.Contents (Elt F)) (n : Vec F S512x1 .f32) (s p : Vec F S512x256 .f32)
    (w1 : Vec F S256x256 .f32) (b1 : Vec F S1x256 .f32) (w2 : Vec F S256x1 .f32) (b2 : Vec F S1x1 .f32) (hp : p = View.ld s r6_s) :
    v.read (Elt F) (v.writes (Elt F) f [⟨r6_n, k6_pay3 (View.ld n r6_n) p (View.ld w1 r6_w1) (View.ld b1 r6_b1) (View.ld w2 r6_w2) (View.ld b2 r6_b2)⟩]) = out6_7 n s w1 b1 w2 b2 := by
  subst hp; exact View.read_writes_eq_canon _ _ _ (View.cover_of_tiled _ S512x1.size (by rfl))

-- one triple for every point: the scratch is zeroed first at the first point, the output is written at the last only
theorem sound_kernel6 (E : Set ℕ) (i : grid6.Coords)
    (arg1 : Memref sig .tc .vmem S2000x256 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x1 .f32) (harg6 : arg6.IsWhole)
    (arg7 : Memref sig .tc .vmem S1x1 .f32) (harg7 : arg7.IsWhole) (arg8 : Memref sig .tc .vmem S512x1 .f32) (harg8 : arg8.IsWhole)
    (arg9 : Memref sig .tc .vmem S512x256 .f32) (harg9 : arg9.IsWhole) (h01 : cond6_0 i → ¬cond6_1 i)
    (x0 : Vec F S2000x256 .f32) (x1 : Vec F S2000x1 .i32) (x2 : Vec F S512x1 .f32) (x3 : Vec F S256x256 .f32) (x4 : Vec F S1x256 .f32)
    (x5 : Vec F S256x1 .f32) (x6 : Vec F S1x1 .f32) (x7 : Vec F S512x1 .f32) (xs : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare x7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (if cond6_1 i then out6_7 x2 (acc6 x0 x1 (if cond6_0 i then zero6 else xs)) x3 x4 x5 x6 else x7)
            ∗ owns (c : Thread nD τ) arg9 fullShare (acc6 x0 x1 (if cond6_0 i then zero6 else xs))) -∗ K ⟨⟩))
      ⊢ wp frame (wpE (defs₀ (F := F)) Variants.none c none) E (cc6__pool_kernel i arg1 harg1 arg2 harg2 arg3 harg3 arg4 harg4 arg5 harg5 arg6 harg6 arg7 harg7 arg8 harg8 arg9 harg9) K := by
  by_cases hc0 : cond6_0 i <;> by_cases hc1 : cond6_1 i
  · exact absurd hc1 (h01 hc0)
  all_goals
    first | rw [if_pos hc1] | rw [if_neg hc1]
    first | rw [if_pos hc0] | rw [if_neg hc0]
    simp only [cc6__pool_kernel_eq_skeleton]; unfold cc6__pool_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    subst hf0 hf1 hf2 hf3 hf4 hf5 hf6 hf7 hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      first
      | (have _ : cond6_1 i := hc1; exact out6_7_eq _ _ _ _ _ _ _ _ _ (View.readCov_eq_canon_ld arg9.view _ r6_s (cover6_s (F := F) _)))
      | rfl
    iexists _; isplitr
    swap; · iexact HS
    ipureintro
    first
    | (have _ : cond6_0 i := hc0; exact acc6_eq _ _ (arg1.view.read (Elt F) f0) (arg2.view.read (Elt F) f1) _ _ _ (View.readCov_eq_canon_ld arg9.view _ r6_s (cover6_s (F := F) _)))
    | exact acc6_eq _ _ (arg1.view.read (Elt F) f0) (arg2.view.read (Elt F) f1) _ _ _ rfl

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

theorem N6_pos : 0 < cfg6.N := by decide

def sAt6 : ℕ → Vec F S512x256 .f32
  | 0 => acc6 (iblk6 V c 0 ⟨0, N6_pos⟩) (iblk6 V c 1 ⟨0, N6_pos⟩) zero6
  | n + 1 => if h : n + 1 < cfg6.N then acc6 (iblk6 V c 0 ⟨n + 1, h⟩) (iblk6 V c 1 ⟨n + 1, h⟩) (sAt6 n) else sAt6 n

-- one step of the accumulation, from the zeroed scratch at the first point and from the point before's otherwise
theorem sAt6_step (t : Fin cfg6.N) (d : Vec F S512x256 .f32) (hd : t.val ≠ 0 → d = sAt6 V c (t.val - 1)) :
    acc6 (iblk6 V c 0 t) (iblk6 V c 1 t) (if cond6_0 (grid6.coords t) then zero6 else d) = sAt6 V c t.val := by
  obtain ⟨n, hn⟩ := t
  cases n with
  | zero => rw [if_pos ((hcond6 _).1.mpr rfl)]; rfl
  | succ n =>
    rw [if_neg (fun h => Nat.succ_ne_zero n ((hcond6 _).1.mp h)), hd (Nat.succ_ne_zero n)]
    symm; exact (dif_pos hn).trans rfl

abbrev scM6 : Memref sig .tc .vmem S512x256 .f32 := Memref.whole cc6_scratch0

abbrev rest6 : sProp 𝕄 :=
  Pipeline.scopedRestBut (Ix := Unit) (Name := ℕ) (U := UR sig nD τ) (Lvl := ℕ) (Val := Elt F) spec6 c [cc6_scratch0]

theorem PhiA6_eq :
    (Pipeline.ΦA spec6 c : sProp 𝕄)
      = iprop(iprop(iprop((∃ d, owns (c : Thread nD τ) scM6 fullShare d)) ∗ rest6 (F := F) c) ∗ (∃ r, prngReg c r)) := by
  unfold Pipeline.ΦA; rw [scopedRest6_split]; simp only [scM6, owns_whole]; try rfl

-- before position n the scratch holds what the point before left; before the first point, anything
def PhiS6 (n : ℕ) (_ : n ≤ cfg6.N) : sProp 𝕄 :=
  iprop(iprop(iprop((∃ d, ⌜n ≠ 0 → d = sAt6 V c (n - 1)⌝ ∗ owns (c : Thread nD τ) scM6 fullShare d)) ∗ rest6 (F := F) c) ∗ (∃ r, prngReg c r))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 2 t) (sAt6 V c t.val) (iblk6 V c 3 t) (iblk6 V c 4 t) (iblk6 V c 5 t) (iblk6 V c 6 t)
  Φ t := PhiS6 V c t.val (Nat.le_of_lt_succ t.isLt)
  q _ := fullShare
  owed _ := 0

theorem A_eq6 (w : Fin cfg6.W) : (dat6 V c).A w = V c (Pipeline.arrRef spec6 w) := rfl
theorem share6 (w : Fin cfg6.W) : (dat6 V c).q w = fullShare := rfl
theorem owed6 (t : Fin (cfg6.N + 1)) : (dat6 V c).owed t = 0 := rfl
theorem after6_7 (t : Fin cfg6.N) :
    (dat6 V c).after 7 t = out6_7 (iblk6 V c 2 t) (sAt6 V c t.val) (iblk6 V c 3 t) (iblk6 V c 4 t) (iblk6 V c 5 t) (iblk6 V c 6 t) := rfl

theorem before6 (t : Fin cfg6.N) :
    (∀ d, (dat6 V c).before 0 t d = iblk6 V c 0 t) ∧ (∀ d, (dat6 V c).before 1 t d = iblk6 V c 1 t) ∧ (∀ d, (dat6 V c).before 2 t d = iblk6 V c 2 t) ∧ (∀ d, (dat6 V c).before 3 t d = iblk6 V c 3 t) ∧ (∀ d, (dat6 V c).before 4 t d = iblk6 V c 4 t) ∧ (∀ d, (dat6 V c).before 5 t d = iblk6 V c 5 t) ∧ (∀ d, (dat6 V c).before 6 t d = iblk6 V c 6 t) := by
  refine ⟨?_, ?_, ?_, ?_, ?_, ?_, ?_⟩ <;>
    exact fun d => ((dat6 V c).before_in_eq_fetched _ rfl (fun _ => rfl) (fun _ _ _ => rfl) (fun _ => rfl) t d).trans rfl

theorem leaves6 (t : Fin cfg6.N) (w : Fin cfg6.W) (h : w.val ≠ 7 ∨ t.val = 24) :
    (dat6 V c).leavesExact w t = owns (c : Thread nD τ) ((cfg6.win w).stage (cfg6.slots t w)) fullShare ((dat6 V c).after w t) := by
  unfold Dat.leavesExact; rw [live6 t w h]

theorem sound_body6 (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d))
      ∗ (∃ d, owns (c : Thread nD τ) (st6_6 t) fullShare ((dat6 V c).before 6 t d))
      ∗ (∃ d, owns (c : Thread nD τ) (st6_7 t) fullShare ((dat6 V c).before 7 t d)))
    ⊢ wp frame (wpE (defs₀ (F := F)) Variants.none c none) Set.univ (bodyAt6 t) fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t ∗ (dat6 V c).leavesExact 4 t ∗ (dat6 V c).leavesExact 5 t ∗ (dat6 V c).leavesExact 6 t ∗ (dat6 V c).leavesExact 7 t) := by
  obtain ⟨b0, b1, b2, b3, b4, b5, b6⟩ := before6 V c t
  simp only [b0, b1, b2, b3, b4, b5, b6]
  rw [leaves6 V c t 0 (.inl (by decide)), leaves6 V c t 1 (.inl (by decide)), leaves6 V c t 2 (.inl (by decide)), leaves6 V c t 3 (.inl (by decide)), leaves6 V c t 4 (.inl (by decide)), leaves6 V c t 5 (.inl (by decide)), leaves6 V c t 6 (.inl (by decide))]
  rw [show (dat6 V c).owesAt () t.succ = (dat6 V c).owesAt () t.castSucc from rfl,
    show (dat6 V c).Φ t.castSucc = PhiS6 V c t.val (Nat.le_of_lt t.isLt) from rfl,
    show (dat6 V c).Φ t.succ = PhiS6 V c (t.val + 1) t.isLt from rfl]
  unfold PhiS6
  iintro ⟨⟨⟨⟨%d, %hd, HS⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ _ _
    (fun h0 h1 => by have a := (hcond6 t).1.mp h0; have b := (hcond6 t).2.mp h1; omega)
    (iblk6 V c 0 t) (iblk6 V c 1 t) (iblk6 V c 2 t) (iblk6 V c 3 t) (iblk6 V c 4 t) (iblk6 V c 5 t) (iblk6 V c 6 t) ((dat6 V c).before 7 t d7) d _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  rw [sAt6_step V c t d hd]
  isplitl [HS Hrest Hg]
  · isplitl [HS Hrest]
    · isplitl [HS]
      · iexists (sAt6 V c t.val); isplitr; · ipureintro; exact fun _ => rfl
        iexact HS
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h1 : t.val = 24
  · rw [if_pos ((hcond6 t).2.mpr h1), leaves6 V c t 7 (.inr h1), after6_7]
    iexact H7
  · rw [if_neg (mt (hcond6 t).2.mp h1), Dat.leavesExact_idle (dat6 V c) 7 t (idle6_7 t h1).1 (idle6_7 t h1).2]
    iexists d7; iexact H7

theorem body_obligation6 : BodyObligation (dat6 (F := F) V c) (defs₀ (F := F)) Variants.none () Set.univ := fun t => by
  rw [bigSep_W6, bigSep_W6]
  exact sound_body6 V c t

theorem hin6 : (Pipeline.ΦA spec6 c : sProp 𝕄) ⊢ (dat6 V c).Φ 0 := by
  rw [show (dat6 V c).Φ 0 = PhiS6 V c 0 (Nat.zero_le _) from rfl, PhiA6_eq]; unfold PhiS6
  refine sep_mono_left (sep_mono_left ?_)
  iintro ⟨%d, HS⟩
  iexists d; isplitr; · ipureintro; exact fun h => absurd rfl h
  iexact HS

theorem hout6 : (dat6 V c).Φ (Fin.last cfg6.N) ⊢ (Pipeline.ΦA spec6 c : sProp 𝕄) := by
  rw [show (dat6 V c).Φ (Fin.last cfg6.N) = PhiS6 V c cfg6.N (Nat.le_refl _) from rfl, PhiA6_eq]; unfold PhiS6
  refine sep_mono_left (sep_mono_left ?_)
  iintro ⟨%d, -, HS⟩
  iexists d; iexact HS

end Cert.Kernel.Frm

end
-- ==== Proof.Kernel.Records.lean ====
import proofs.«415159_j89687507076125_2_alg».proof.Proof.Kernel.RunAll
import proofs.«415159_j89687507076125_2_alg».proof.Proof.Kernel.RegMM0
import proofs.«415159_j89687507076125_2_alg».proof.Proof.Kernel.RegCB1
import proofs.«415159_j89687507076125_2_alg».proof.Proof.Kernel.RegMM2
import proofs.«415159_j89687507076125_2_alg».proof.Proof.Kernel.RegCB3
import proofs.«415159_j89687507076125_2_alg».proof.Proof.Kernel.RegMM4
import proofs.«415159_j89687507076125_2_alg».proof.Proof.Kernel.RegCB5
import proofs.«415159_j89687507076125_2_alg».proof.Proof.Kernel.RegPool6

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Upd

variable {α : Type*} [DecidableEq α] {β : α → Type*} {f g : ∀ a, β a} {a b : α}

-- reading an update back at its own point and updating there again changes nothing
theorem upd1 (hg : g = f) (x : β a) : Function.update g a (Function.update f a x a) = Function.update f a x := by
  rw [Function.update_self, hg]
theorem upd2 (hg : g = f) (h : a ≠ b) (x : β a) (y : β b) :
    Function.update (Function.update g a (Function.update (Function.update f a x) b y a)) b (Function.update (Function.update f a x) b y b)
      = Function.update (Function.update f a x) b y := by
  rw [Function.update_self, Function.update_of_ne h, Function.update_self, hg]

variable {cfg : Cfg sig Λ₀} {c : Dev nD} (dat : Dat τ (Elt F) Unit ℕ (UR sig nD τ) ℕ cfg c) (W : Valuation τ sig (Elt F))

-- `W'` is `W` with each window's array replaced by its final contents
structure Exit (W' : Valuation τ sig (Elt F)) : Prop where
  arr : ∀ w, dat.arrAt w cfg.N = W' (Pipeline.arrRef cfg.spec w)
  rest : ∀ b : Ref sig .tc, b ∉ Finset.univ.image (Pipeline.arrRef cfg.spec) → W' b = W b

variable (hinj : Function.Injective (Pipeline.arrRef cfg.spec)) (hA : ∀ w, dat.A w = W (Pipeline.arrRef cfg.spec w))
include hinj hA

-- off the output windows the final array is the entry array, so a valuation right on `O` and equal to `W` off it is right at every window
theorem exit_of (W' : Valuation τ sig (Elt F)) (O : Fin cfg.W → Prop) (hO : ∀ w, ¬ O w → (cfg.win w).isOut = false)
    (hout : ∀ w, O w → dat.arrAt w cfg.N = W' (Pipeline.arrRef cfg.spec w))
    (hkeep : ∀ b : Ref sig .tc, (∀ w, O w → b ≠ Pipeline.arrRef cfg.spec w) → W' b = W b) : Exit dat W W' :=
  ⟨fun w => by
    by_cases h : O w
    · exact hout w h
    · exact ((dat.arrAt_in w (hO w h) _).trans (hA w)).trans
        (hkeep (Pipeline.arrRef cfg.spec w) fun w' h' e => h (hinj e ▸ h')).symm,
   fun b hb => hkeep b fun w _ e => hb (Finset.mem_image.mpr ⟨w, Finset.mem_univ _, e.symm⟩)⟩

theorem exit1 (o : Fin cfg.W) (hO : ∀ w, w ≠ o → (cfg.win w).isOut = false) :
    Exit dat W (Function.update W (Pipeline.arrRef cfg.spec o) (dat.arrAt o cfg.N)) :=
  exit_of dat W hinj hA _ (· = o) hO (fun w h => by cases h; rw [Function.update_self])
    fun b h => Function.update_of_ne (StableHlo.devRef_ne_of_ne (τ := τ) (h o rfl)) ..

theorem exit2 (o₁ o₂ : Fin cfg.W) (h12 : o₁ ≠ o₂) (hO : ∀ w, ¬ (w = o₁ ∨ w = o₂) → (cfg.win w).isOut = false) :
    Exit dat W (Function.update (Function.update W (Pipeline.arrRef cfg.spec o₁) (dat.arrAt o₁ cfg.N))
      (Pipeline.arrRef cfg.spec o₂) (dat.arrAt o₂ cfg.N)) :=
  exit_of dat W hinj hA _ (fun w => w = o₁ ∨ w = o₂) hO
    (fun w h => by
      rcases h with rfl | rfl
      · rw [Function.update_of_ne (StableHlo.devRef_ne_of_ne (τ := τ) (hinj.ne h12)), Function.update_self]
      · rw [Function.update_self])
    fun b h => by
      rw [Function.update_of_ne (StableHlo.devRef_ne_of_ne (τ := τ) (h o₂ (.inr rfl))),
        Function.update_of_ne (StableHlo.devRef_ne_of_ne (τ := τ) (h o₁ (.inl rfl)))]

end Upd

variable (m : (ℓ : Loc nD τ sig) → Buf (Elt F) ℓ)

abbrev U1 (c : Dev nD) : Valuation τ sig (Elt F) := V1 m c
abbrev T1 (c : Dev nD) (b : Ref sig .tc) : Buf (Elt F) ((c : Thread nD τ).loc b) := U1 m c b
def U2 (c : Dev nD) : Valuation τ sig (Elt F) :=
  Function.update (Function.update (U1 m c) main_v12_0 ((dat0 (T1 m) c).arrAt 3 cfg0.N)) main_v12_1 ((dat0 (T1 m) c).arrAt 4 cfg0.N)
abbrev U3 (c : Dev nD) : Valuation τ sig (Elt F) := StableHlo.after hostOps1 (U2 m c)
abbrev T3 (c : Dev nD) (b : Ref sig .tc) : Buf (Elt F) ((c : Thread nD τ).loc b) := U3 m c b
def U4 (c : Dev nD) : Valuation τ sig (Elt F) :=
  Function.update (U3 m c) main_v29 ((dat1 (T3 m) c).arrAt 8 cfg1.N)
abbrev T4 (c : Dev nD) (b : Ref sig .tc) : Buf (Elt F) ((c : Thread nD τ).loc b) := U4 m c b
def U5 (c : Dev nD) : Valuation τ sig (Elt F) :=
  Function.update (Function.update (U4 m c) main_v30_0 ((dat2 (T4 m) c).arrAt 3 cfg2.N)) main_v30_1 ((dat2 (T4 m) c).arrAt 4 cfg2.N)
abbrev U6 (c : Dev nD) : Valuation τ sig (Elt F) := StableHlo.after hostOps3 (U5 m c)
abbrev T6 (c : Dev nD) (b : Ref sig .tc) : Buf (Elt F) ((c : Thread nD τ).loc b) := U6 m c b
def U7 (c : Dev nD) : Valuation τ sig (Elt F) :=
  Function.update (U6 m c) main_v47 ((dat3 (T6 m) c).arrAt 9 cfg3.N)
abbrev T7 (c : Dev nD) (b : Ref sig .tc) : Buf (Elt F) ((c : Thread nD τ).loc b) := U7 m c b
def U8 (c : Dev nD) : Valuation τ sig (Elt F) :=
  Function.update (Function.update (U7 m c) main_v48_0 ((dat4 (T7 m) c).arrAt 3 cfg4.N)) main_v48_1 ((dat4 (T7 m) c).arrAt 4 cfg4.N)
abbrev U9 (c : Dev nD) : Valuation τ sig (Elt F) := StableHlo.after hostOps5 (U8 m c)
abbrev T9 (c : Dev nD) (b : Ref sig .tc) : Buf (Elt F) ((c : Thread nD τ).loc b) := U9 m c b
def U10 (c : Dev nD) : Valuation τ sig (Elt F) :=
  Function.update (U9 m c) main_v65 ((dat5 (T9 m) c).arrAt 9 cfg5.N)
abbrev U11 (c : Dev nD) : Valuation τ sig (Elt F) := StableHlo.after hostOps6 (U10 m c)
abbrev U12 (c : Dev nD) : Valuation τ sig (Elt F) := StableHlo.after hostOps6_1 (U11 m c)
abbrev U13 (c : Dev nD) : Valuation τ sig (Elt F) := StableHlo.after hostOps6_2 (U12 m c)
abbrev T13 (c : Dev nD) (b : Ref sig .tc) : Buf (Elt F) ((c : Thread nD τ).loc b) := U13 m c b
def U14 (c : Dev nD) : Valuation τ sig (Elt F) :=
  Function.update (U13 m c) main_v75 ((dat6 (T13 m) c).arrAt 7 cfg6.N)

def outs : Outs (F := F) := fun J r c => match J with
  | 2 => U2 m c r | 4 => U4 m c r | 5 => U5 m c r | 7 => U7 m c r | 8 => U8 m c r | 10 => U10 m c r | 14 => U14 m c r
  | _ => U1 m c r

theorem V2_eq (c : Dev nD) : V2 m (outs m) c = U2 m c := upd2 rfl (StableHlo.devRef_ne_of_ne (τ := τ) (show (main_v12_0 : Ref sig .tc) ≠ main_v12_1 by decide)) ..
theorem V3_eq (c : Dev nD) : V3 m (outs m) c = U3 m c := congrArg (StableHlo.after hostOps1) (V2_eq m c)
theorem V4_eq (c : Dev nD) : V4 m (outs m) c = U4 m c := upd1 (V3_eq m c) _
theorem V5_eq (c : Dev nD) : V5 m (outs m) c = U5 m c := upd2 (V4_eq m c) (StableHlo.devRef_ne_of_ne (τ := τ) (show (main_v30_0 : Ref sig .tc) ≠ main_v30_1 by decide)) ..
theorem V6_eq (c : Dev nD) : V6 m (outs m) c = U6 m c := congrArg (StableHlo.after hostOps3) (V5_eq m c)
theorem V7_eq (c : Dev nD) : V7 m (outs m) c = U7 m c := upd1 (V6_eq m c) _
theorem V8_eq (c : Dev nD) : V8 m (outs m) c = U8 m c := upd2 (V7_eq m c) (StableHlo.devRef_ne_of_ne (τ := τ) (show (main_v48_0 : Ref sig .tc) ≠ main_v48_1 by decide)) ..
theorem V9_eq (c : Dev nD) : V9 m (outs m) c = U9 m c := congrArg (StableHlo.after hostOps5) (V8_eq m c)
theorem V10_eq (c : Dev nD) : V10 m (outs m) c = U10 m c := upd1 (V9_eq m c) _
theorem V13_eq (c : Dev nD) : V13 m (outs m) c = U13 m c := congrArg (fun V => StableHlo.after hostOps6_2 (StableHlo.after hostOps6_1 (StableHlo.after hostOps6 V))) (V10_eq m c)
theorem V14_eq (c : Dev nD) : V14 m (outs m) c = U14 m c := upd1 (V13_eq m c) _
theorem ex0 (c : Dev nD) : Exit (dat0 (T1 m) c) (U1 m c) (U2 m c) :=
  exit2 (dat0 (T1 m) c) (U1 m c) launch0.win.arr_inj (A_eq0 (T1 m) c) 3 4 (by decide) (by decide)
theorem ex1 (c : Dev nD) : Exit (dat1 (T3 m) c) (U3 m c) (U4 m c) :=
  exit1 (dat1 (T3 m) c) (U3 m c) launch1.win.arr_inj (A_eq1 (T3 m) c) 8 (by decide)
theorem ex2 (c : Dev nD) : Exit (dat2 (T4 m) c) (U4 m c) (U5 m c) :=
  exit2 (dat2 (T4 m) c) (U4 m c) launch2.win.arr_inj (A_eq2 (T4 m) c) 3 4 (by decide) (by decide)
theorem ex3 (c : Dev nD) : Exit (dat3 (T6 m) c) (U6 m c) (U7 m c) :=
  exit1 (dat3 (T6 m) c) (U6 m c) launch3.win.arr_inj (A_eq3 (T6 m) c) 9 (by decide)
theorem ex4 (c : Dev nD) : Exit (dat4 (T7 m) c) (U7 m c) (U8 m c) :=
  exit2 (dat4 (T7 m) c) (U7 m c) launch4.win.arr_inj (A_eq4 (T7 m) c) 3 4 (by decide) (by decide)
theorem ex5 (c : Dev nD) : Exit (dat5 (T9 m) c) (U9 m c) (U10 m c) :=
  exit1 (dat5 (T9 m) c) (U9 m c) launch5.win.arr_inj (A_eq5 (T9 m) c) 9 (by decide)
theorem ex6 (c : Dev nD) : Exit (dat6 (T13 m) c) (U13 m c) (U14 m c) :=
  exit1 (dat6 (T13 m) c) (U13 m c) launch6.win.arr_inj (A_eq6 (T13 m) c) 7 (by decide)
theorem hF0_3 (c : Dev nD) : (dat0 (T1 m) c).arrAt 3 cfg0.N = U2 m c main_v12_0 := (ex0 m c).arr 3
theorem hF0_4 (c : Dev nD) : (dat0 (T1 m) c).arrAt 4 cfg0.N = U2 m c main_v12_1 := (ex0 m c).arr 4
theorem hF1_8 (c : Dev nD) : (dat1 (T3 m) c).arrAt 8 cfg1.N = U4 m c main_v29 := (ex1 m c).arr 8
theorem hF2_3 (c : Dev nD) : (dat2 (T4 m) c).arrAt 3 cfg2.N = U5 m c main_v30_0 := (ex2 m c).arr 3
theorem hF2_4 (c : Dev nD) : (dat2 (T4 m) c).arrAt 4 cfg2.N = U5 m c main_v30_1 := (ex2 m c).arr 4
theorem hF3_9 (c : Dev nD) : (dat3 (T6 m) c).arrAt 9 cfg3.N = U7 m c main_v47 := (ex3 m c).arr 9
theorem hF4_3 (c : Dev nD) : (dat4 (T7 m) c).arrAt 3 cfg4.N = U8 m c main_v48_0 := (ex4 m c).arr 3
theorem hF4_4 (c : Dev nD) : (dat4 (T7 m) c).arrAt 4 cfg4.N = U8 m c main_v48_1 := (ex4 m c).arr 4
theorem hF5_9 (c : Dev nD) : (dat5 (T9 m) c).arrAt 9 cfg5.N = U10 m c main_v65 := (ex5 m c).arr 9

def pdats : (p : Fin 7) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T4 m) c
  | ⟨3, _⟩ => fun c => dat3 (T6 m) c
  | ⟨4, _⟩ => fun c => dat4 (T7 m) c
  | ⟨5, _⟩ => fun c => dat5 (T9 m) c
  | ⟨6, _⟩ => fun c => dat6 (T13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the region's record between valuations `V` and `V'`, where `V'` is `V` with each window's array at its final contents
def regOf (p : Fin 7) (lf : Pipeline.LaunchFacts (nD := nD) (τ := τ) cfgs p) (V V' : Dev nD → Valuation τ sig (Elt F))
    (hb : ∀ c, BodyObligation (pdats m p c) (defs₀ (F := F)) 𝒱₀ () Set.univ)
    (howed : ∀ c t, (pdats m p c).owed t = 0) (hrec : ∀ c, (pdats m p c).recorded 0 = Set.univ) (hq : ∀ c w, (pdats m p c).q w = fullShare)
    (hA : ∀ c w, (pdats m p c).A w = V c (Pipeline.arrRef (cfgs p).spec w))
    (hx : ∀ c, Exit (pdats m p c) (V c) (V' c))
    (hΦ₀ : ∀ c, (Pipeline.ΦA (cfgs p).spec c : sProp 𝕄) ⊢ (pdats m p c).Φ 0)
    (hΦₙ : ∀ c, (pdats m p c).Φ (Fin.last _) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    refine BIBase.Entails.trans ?_ (hΦ₀ c)
    unfold Pipeline.ΦA
    iintro ⟨Hp, -, Hr⟩
    isplitl [Hr]; · iexact Hr
    iexact Hp
  hout c := by
    rw [Pipeline.ownSems0_none]
    refine BIBase.Entails.trans (hΦₙ c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (hx c).arr (hx c).rest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (U1 m) (U2 m) (body_obligation0 (T1 m)) (owed0 (T1 m)) (fun _ => rfl) (share0 (T1 m)) (A_eq0 (T1 m)) (ex0 m)
  (fun c => .of_eq (Phi0 (T1 m) c 0).symm) fun c => .of_eq (Phi0 (T1 m) c _)
def reg1 := regOf m 1 launch1 (U3 m) (U4 m) (body_obligation1 (T3 m)) (owed1 (T3 m)) (fun _ => rfl) (share1 (T3 m)) (A_eq1 (T3 m)) (ex1 m)
  (fun c => .of_eq (Phi1 (T3 m) c 0).symm) fun c => .of_eq (Phi1 (T3 m) c _)
def reg2 := regOf m 2 launch2 (U4 m) (U5 m) (body_obligation2 (T4 m)) (owed2 (T4 m)) (fun _ => rfl) (share2 (T4 m)) (A_eq2 (T4 m)) (ex2 m)
  (fun c => .of_eq (Phi2 (T4 m) c 0).symm) fun c => .of_eq (Phi2 (T4 m) c _)
def reg3 := regOf m 3 launch3 (U6 m) (U7 m) (body_obligation3 (T6 m)) (owed3 (T6 m)) (fun _ => rfl) (share3 (T6 m)) (A_eq3 (T6 m)) (ex3 m)
  (fun c => .of_eq (Phi3 (T6 m) c 0).symm) fun c => .of_eq (Phi3 (T6 m) c _)
def reg4 := regOf m 4 launch4 (U7 m) (U8 m) (body_obligation4 (T7 m)) (owed4 (T7 m)) (fun _ => rfl) (share4 (T7 m)) (A_eq4 (T7 m)) (ex4 m)
  (fun c => .of_eq (Phi4 (T7 m) c 0).symm) fun c => .of_eq (Phi4 (T7 m) c _)
def reg5 := regOf m 5 launch5 (U9 m) (U10 m) (body_obligation5 (T9 m)) (owed5 (T9 m)) (fun _ => rfl) (share5 (T9 m)) (A_eq5 (T9 m)) (ex5 m)
  (fun c => .of_eq (Phi5 (T9 m) c 0).symm) fun c => .of_eq (Phi5 (T9 m) c _)
def reg6 := regOf m 6 launch6 (U13 m) (U14 m) (body_obligation6 (T13 m)) (owed6 (T13 m)) (fun _ => rfl) (share6 (T13 m)) (A_eq6 (T13 m)) (ex6 m)
  (hin6 (T13 m)) (hout6 (T13 m))

theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) :=
  run_cond m (emb₁ : Emb (URounds (GSem nD τ sig) Unit) 𝕄) () 𝒱₀ L lv (fun _ _ => rfl) ρ (outs m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V13_eq]; exact .rfl) (fun c => by rw [V14_eq]; exact .rfl)

def allOf : List Prop → Prop
  | [] => True
  | [p] => p
  | p :: ps => p ∧ allOf ps
theorem allOf_map {α : Type*} {P : α → Prop} : ∀ {l : List α}, (∀ b ∈ l, P b) → allOf (l.map P)
  | [], _ => trivial
  | [_], h => h _ List.mem_cons_self
  | _ :: _ :: _, h => And.intro (h _ List.mem_cons_self) (allOf_map fun x hx => h x (List.mem_cons_of_mem _ hx))
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]
-- no host stretch and no region writes an argument
theorem V14_arg (c : Dev nD) (b : Ref sig .tc) (hb : b ∈ args) : V14 m (outs m) c b = m ((c : Thread nD τ).loc b) :=
  (V14_of m _ c b (by decide +revert)).trans <|
    (V13_of m _ c b (by decide +revert)).trans <|
    (V12_of m _ c b (by decide +revert)).trans <|
    (V11_of m _ c b (by decide +revert)).trans <|
    (V10_of m _ c b (by decide +revert)).trans <|
    (V9_of m _ c b (by decide +revert)).trans <|
    (V8_of m _ c b (by decide +revert)).trans <|
    (V7_of m _ c b (by decide +revert)).trans <|
    (V6_of m _ c b (by decide +revert)).trans <|
    (V5_of m _ c b (by decide +revert)).trans <|
    (V4_of m _ c b (by decide +revert)).trans <|
    (V3_of m _ c b (by decide +revert)).trans <|
    (V2_of m _ c b (by decide +revert)).trans <|
    (V1_of m c b (by decide +revert)).trans rfl

theorem frame (ρ : Dev nD → PrngReg) :
    θ_run defs (onTc (τ := τ) (main (F := F))) ⟨m, fun _ => 0, ρ⟩ (fun r => ∀ c : Dev nD,
      allOf (args.map fun b => r.2.mem ((c.tc : Thread nD τ).loc b) = m ((c.tc : Thread nD τ).loc b))) :=
  (θ_run defs _ _).mono (fun r h c => allOf_map fun b hb =>
    (h c _ (mem_uc b (by decide +revert))).trans (V14_arg m c b hb)) (run_main m ρ)

theorem result_eq (c : Dev nD) : V14 m (outs m) c main_v75 = (dat6 (T13 m) c).arrAt 7 cfg6.N :=
  (congrFun (V14_eq m c) _).trans ((ex6 m c).arr 7).symm

end Cert.Kernel.Frm

end
-- ==== Proof.KernelIdeal.RegMMCommon.lean ====
import proofs.«415159_j89687507076125_2_alg».proof.Proof.Gen.KernelIdeal.Launch
import proofs.«415159_j89687507076125_2_alg».proof.Proof.Gen.KernelIdeal.Skeleton
import proofs.«415159_j89687507076125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

-- A body's triple on five whole memrefs: the first three are left at their contents, the last two, whatever they held, end at the given contents.
def Triple5 (c : Dev nD) {s0 s1 s2 s3 s4 : Shape} {e0 e1 e2 e3 e4 : EltTy}
    (m0 : Memref sig .tc .vmem s0 e0) (m1 : Memref sig .tc .vmem s1 e1) (m2 : Memref sig .tc .vmem s2 e2)
    (m3 : Memref sig .tc .vmem s3 e3) (m4 : Memref sig .tc .vmem s4 e4) {α3 α4 : Type} (b3 : α3 → Vec F s3 e3) (b4 : α4 → Vec F s4 e4)
    (X : Vec F s0 e0) (W : Vec F s1 e1) (D : Vec F s2 e2) (H : Vec F s3 e3) (S : Vec F s4 e4)
    (e : Prog (TpuEff nD τ sig (Elt F) Λ₀ .tc) PUnit) : Prop :=
  ∀ K : PUnit → sProp 𝕄,
    iprop(owns (c : Thread nD τ) m0 fullShare X ∗ owns (c : Thread nD τ) m1 fullShare W ∗ owns (c : Thread nD τ) m2 fullShare D
        ∗ (∃ d, owns (c : Thread nD τ) m3 fullShare (b3 d)) ∗ (∃ d, owns (c : Thread nD τ) m4 fullShare (b4 d))
        ∗ (iprop(owns (c : Thread nD τ) m0 fullShare X ∗ owns (c : Thread nD τ) m1 fullShare W ∗ owns (c : Thread nD τ) m2 fullShare D
            ∗ owns (c : Thread nD τ) m3 fullShare H ∗ owns (c : Thread nD τ) m4 fullShare S) -∗ K ⟨⟩))
      ⊢ wp frame (wpE (defs₀ (F := F)) Variants.none c none) Set.univ e K

-- Framing: a triple on five memrefs' contents extends by any two further resources; each input may be given as a family that is constantly its contents, each output's result up to equality.
theorem body_of_kernel {c : Dev nD} {s0 s1 s2 s3 s4 : Shape} {e0 e1 e2 e3 e4 : EltTy}
    {m0 : Memref sig .tc .vmem s0 e0} {m1 : Memref sig .tc .vmem s1 e1} {m2 : Memref sig .tc .vmem s2 e2}
    {m3 : Memref sig .tc .vmem s3 e3} {m4 : Memref sig .tc .vmem s4 e4} {Φ O : sProp 𝕄} {α0 α1 α2 α3 α4 : Type}
    {b0 : α0 → Vec F s0 e0} {b1 : α1 → Vec F s1 e1} {b2 : α2 → Vec F s2 e2} {b3 : α3 → Vec F s3 e3} {b4 : α4 → Vec F s4 e4}
    {X : Vec F s0 e0} {W : Vec F s1 e1} {D : Vec F s2 e2} {H H' : Vec F s3 e3} {S S' : Vec F s4 e4}
    {e : Prog (TpuEff nD τ sig (Elt F) Λ₀ .tc) PUnit}
    (hX : ∀ d, b0 d = X) (hW : ∀ d, b1 d = W) (hD : ∀ d, b2 d = D) (hH : H = H') (hS : S = S')
    (hk : Triple5 c m0 m1 m2 m3 m4 b3 b4 X W D H' S' e) :
    iprop(Φ ∗ O ∗ (∃ d, owns (c : Thread nD τ) m0 fullShare (b0 d)) ∗ (∃ d, owns (c : Thread nD τ) m1 fullShare (b1 d))
        ∗ (∃ d, owns (c : Thread nD τ) m2 fullShare (b2 d)) ∗ (∃ d, owns (c : Thread nD τ) m3 fullShare (b3 d))
        ∗ (∃ d, owns (c : Thread nD τ) m4 fullShare (b4 d)))
      ⊢ wp frame (wpE (defs₀ (F := F)) Variants.none c none) Set.univ e fun _ =>
        iprop(Φ ∗ O ∗ owns (c : Thread nD τ) m0 fullShare X ∗ owns (c : Thread nD τ) m1 fullShare W ∗ owns (c : Thread nD τ) m2 fullShare D
          ∗ owns (c : Thread nD τ) m3 fullShare H ∗ owns (c : Thread nD τ) m4 fullShare S) := by
  subst hH hS
  simp only [hX, hW, hD]
  iintro ⟨HΦ, Ho, ⟨%dX, HX⟩, ⟨%dW, HW⟩, ⟨%dD, HD⟩, HH, HS⟩
  iapply (hk _)
  isplitl [HX]; · iexact HX
  isplitl [HW]; · iexact HW
  isplitl [HD]; · iexact HD
  isplitl [HH]; · iexact HH
  isplitl [HS]; · iexact HS
  iintro ⟨HX, HW, HD, HH, HS⟩
  isplitl [HΦ]; · iexact HΦ
  isplitl [Ho]; · iexact Ho
  isplitl [HX]; · iexact HX
  isplitl [HW]; · iexact HW
  isplitl [HD]; · iexact HD
  isplitl [HH]; · iexact HH
  iexact HS

end Cert.KernelIdeal.Frm

end
-- ==== Proof.KernelIdeal.RegMM0.lean ====
import proofs.«415159_j89687507076125_2_alg».proof.Proof.KernelIdeal.RegMMCommon

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]
variable (V : (c : Dev nD) → (b : Ref sig .tc) → Buf (Elt F) ((c : Thread nD τ).loc b)) (c : Dev nD)

local notation "𝕄" => MT nD τ sig Unit (Elt F) ℕ (UR sig nD τ) ℕ

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x1 := Rect.unit (s := S2000x1) ![0, 0] S2000x1.size inb_S2000x1_S2000x1_0_0
abbrev r0_3 : Rect S2000x256 := Rect.unit (s := S2000x256) ![0, 0] S2000x256.size inb_S2000x256_S2000x256_0_0

def out0_3 (xX : Vec F S2000x128 .f32) (xW : Vec F S128x256 .f32) : Vec F S2000x256 .f32 :=
  View.canon [⟨r0_3, k0_pay1 (View.ld xX r0_0) (View.ld xW r0_1)⟩]

def out0_4 (xX : Vec F S2000x128 .f32) (xW : Vec F S128x256 .f32) (xD : Vec F S2000x1 .f32) : Vec F S2000x256 .bf16 :=
  View.canon [⟨r0_3, k0_pay2 (View.ld xX r0_0) (View.ld xW r0_1) (View.ld xD r0_2)⟩]

set_option maxHeartbeats 1000000 in
-- The inputs are only read; each output is overwritten by one store over its whole index set, so afterwards it reads the stored value.
theorem sound_kernel0 {i : grid0.Coords}
    {mX : Memref sig .tc .vmem S2000x128 .f32} {hmX : mX.IsWhole} {mW : Memref sig .tc .vmem S128x256 .f32} {hmW : mW.IsWhole}
    {mD : Memref sig .tc .vmem S2000x1 .f32} {hmD : mD.IsWhole} {mH : Memref sig .tc .vmem S2000x256 .f32} {hmH : mH.IsWhole}
    {mS : Memref sig .tc .vmem S2000x256 .bf16} {hmS : mS.IsWhole} {αH αS : Type} {gH : αH → Vec F S2000x256 .f32} {gS : αS → Vec F S2000x256 .bf16}
    (xX : Vec F S2000x128 .f32) (xW : Vec F S128x256 .f32) (xD : Vec F S2000x1 .f32) :
    Triple5 c mX mW mD mH mS gH gS xX xW xD (out0_3 xX xW) (out0_4 xX xW xD) (cc0__matmul_scaled_kernel i mX hmX mW hmW mD hmD mH hmH mS hmS) := by
  intro K
  simp only [cc0__matmul_scaled_kernel_eq_skeleton]; unfold cc0__matmul_scaled_kernel_skel
  unfold owns
  iintro ⟨⟨%fX, %hfX, HX⟩, ⟨%fW, %hfW, HW⟩, ⟨%fD, %hfD, HD⟩, ⟨%dH, %fH, -, HH⟩, ⟨%dS, %fS, -, HS⟩, Hk⟩
  subst hfX; subst hfW; subst hfD
  sl_exec
  sl_step
  iapply Hk
  isplitl [HX]
  · iexists fX; isplitr; · ipureintro; rfl
    iexact HX
  isplitl [HW]
  · iexists fW; isplitr; · ipureintro; rfl
    iexact HW
  isplitl [HD]
  · iexists fD; isplitr; · ipureintro; rfl
    iexact HD
  isplitl [HH]
  · iexists _; isplitr
    swap; · iexact HH
    ipureintro
    exact View.read_writes_eq_canon _ _ _ (View.cover_of_tiled _ S2000x256.size (by rfl))
  iexists _; isplitr
  swap; · iexact HS
  ipureintro
  exact View.read_writes_eq_canon _ _ _ (View.cover_of_tiled _ S2000x256.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl
theorem share0 (w : Fin cfg0.W) : (dat0 V c).q w = fullShare := rfl
theorem owed0 (t : Fin (cfg0.N + 1)) : (dat0 V c).owed t = 0 := rfl
theorem Phi0 (t : Fin (cfg0.N + 1)) : (dat0 V c).Φ t = Pipeline.ΦA spec0 c := rfl
theorem after0_3 (t : Fin cfg0.N) : (dat0 V c).after 3 t = out0_3 (iblk0 V c 0 t) (iblk0 V c 1 t) := by dsimp only [dat0]
theorem after0_4 (t : Fin cfg0.N) : (dat0 V c).after 4 t = out0_4 (iblk0 V c 0 t) (iblk0 V c 1 t) (iblk0 V c 2 t) := by dsimp only [dat0]

-- What the body finds in an input window at a point is the window's block there.
theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl

theorem body_obligation0 : BodyObligation (dat0 (F := F) V c) (defs₀ (F := F)) Variants.none () Set.univ := fun t => by
  rw [bigSep_W0, bigSep_W0]
  exact body_of_kernel (e := bodyAt0 t) (before0_0 V c t) (before0_1 V c t) (before0_2 V c t) (after0_3 V c t) (after0_4 V c t) <|
    sound_kernel0 c (iblk0 V c 0 t) (iblk0 V c 1 t) (iblk0 V c 2 t)

end Cert.KernelIdeal.Frm

end
-- ==== Proof.KernelIdeal.RegCB1.lean ====
import proofs.«415159_j89687507076125_2_alg».proof.Proof.Gen.KernelIdeal.Launch
import proofs.«415159_j89687507076125_2_alg».proof.Proof.Gen.KernelIdeal.Skeleton
import proofs.«415159_j89687507076125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev r1_a : Rect S2000x256 := Rect.unit (s := S2000x256) ![0, 0] S2000x256.size inb_S2000x256_S2000x256_0_0
abbrev r1_b : Rect S2000x1 := Rect.unit (s := S2000x1) ![0, 0] S2000x1.size inb_S2000x1_S2000x1_0_0
abbrev r1_c : Rect S1x256 := Rect.unit (s := S1x256) ![0, 0] S1x256.size inb_S1x256_S1x256_0_0

def out1_8 (x0 : Vec F S2000x256 .f32) (x1 : Vec F S2000x256 .f32) (x2 : Vec F S2000x1 .f32) (x3 : Vec F S1x256 .f32) (x4 : Vec F S1x256 .f32)
    (x5 : Vec F S1x256 .f32) (x6 : Vec F S1x256 .f32) (x7 : Vec F S1x256 .f32) : Vec F S2000x256 .f32 :=
  View.canon [⟨r1_a, k1_pay1 (View.ld x2 r1_b) (View.ld x1 r1_a) (View.ld x0 r1_a) (View.ld x3 r1_c) (View.ld x4 r1_c) (View.ld x7 r1_c) (View.ld x6 r1_c) (View.ld x5 r1_c)⟩]

set_option maxHeartbeats 1000000 in
-- The body reads its inputs and writes one block that covers the whole output, so the output ends at the canonical contents of that one write.
theorem sound_kernel1 {c : Dev nD} {E : Set ℕ} {i : grid1.Coords} {arg1 arg2 arg9 : Memref sig .tc .vmem S2000x256 .f32} {arg3 : Memref sig .tc .vmem S2000x1 .f32}
    {arg4 arg5 arg6 arg7 arg8 : Memref sig .tc .vmem S1x256 .f32} {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole} {harg9 : arg9.IsWhole}
    {x0 x1 : Vec F S2000x256 .f32} {x2 : Vec F S2000x1 .f32} {x3 x4 x5 x6 x7 : Vec F S1x256 .f32} {P Q : sProp 𝕄} :
    iprop(P ∗ Q ∗ owns c arg1 fullShare x0 ∗ owns c arg2 fullShare x1 ∗ owns c arg3 fullShare x2 ∗ owns c arg4 fullShare x3 ∗ owns c arg5 fullShare x4
        ∗ owns c arg6 fullShare x5 ∗ owns c arg7 fullShare x6 ∗ owns c arg8 fullShare x7 ∗ (∃ d, owns c arg9 fullShare d))
      ⊢ wp frame (wpE (defs₀ (F := F)) Variants.none c none) E (cc1__combine_kernel_noresid i arg1 harg1 arg2 harg2 arg3 harg3 arg4 harg4 arg5 harg5 arg6 harg6 arg7 harg7 arg8 harg8 arg9 harg9) fun _ =>
        iprop(P ∗ Q ∗ owns c arg1 fullShare x0 ∗ owns c arg2 fullShare x1 ∗ owns c arg3 fullShare x2 ∗ owns c arg4 fullShare x3 ∗ owns c arg5 fullShare x4
          ∗ owns c arg6 fullShare x5 ∗ owns c arg7 fullShare x6 ∗ owns c arg8 fullShare x7 ∗ owns c arg9 fullShare (out1_8 x0 x1 x2 x3 x4 x5 x6 x7)) := by
  simp only [cc1__combine_kernel_noresid_eq_skeleton]; unfold cc1__combine_kernel_noresid_skel owns
  iintro ⟨HP, HQ, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩⟩
  subst h0 h1 h2 h3 h4 h5 h6 h7
  sl_exec
  sl_step
  isplitl [HP]; · iexact HP
  isplitl [HQ]; · iexact HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (w : Fin cfg1.W) : (dat1 V c).A w = V c (Pipeline.arrRef spec1 w) := rfl
theorem share1 (w : Fin cfg1.W) : (dat1 V c).q w = fullShare := rfl
theorem owed1 (t : Fin (cfg1.N + 1)) : (dat1 V c).owed t = 0 := rfl
theorem Phi1 (t : Fin (cfg1.N + 1)) : (dat1 V c).Φ t = Pipeline.ΦA spec1 c := rfl
theorem after1_8 (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

-- The body returns every input as it found it, so at each point an input holds its block of the array.
theorem before1 : ∀ w : Fin cfg1.W, w.1 ≠ 8 → ∀ t d, (dat1 V c).before w t d = (dat1 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d => by
    refine (dat1 V c).before_in_eq_fetched _ ?_ ?_ ?_ ?_ t d <;> intros <;> rfl
  | ⟨8, _⟩, h, _, _ => absurd rfl h

-- At every point the inputs hold their blocks, so the body's triple applies; the invariant and what is owed pass through unchanged.
theorem body_obligation1 : BodyObligation (dat1 (F := F) V c) (defs₀ (F := F)) Variants.none () Set.univ := fun t => by
  rw [bigSep_W1, bigSep_W1]
  simp (disch := decide) only [before1 V c]
  rw [Phi1, Phi1, show (dat1 V c).owesAt () t.succ = (dat1 V c).owesAt () t.castSucc from rfl, after1_8]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_kernel1
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

end Cert.KernelIdeal.Frm

end
-- ==== Proof.KernelIdeal.RegMM2.lean ====
import proofs.«415159_j89687507076125_2_alg».proof.Proof.KernelIdeal.RegMMCommon

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]
variable (V : (c : Dev nD) → (b : Ref sig .tc) → Buf (Elt F) ((c : Thread nD τ).loc b)) (c : Dev nD)

local notation "𝕄" => MT nD τ sig Unit (Elt F) ℕ (UR sig nD τ) ℕ

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x1 := Rect.unit (s := S2000x1) ![0, 0] S2000x1.size inb_S2000x1_S2000x1_0_0
abbrev r2_3 : Rect S2000x256 := Rect.unit (s := S2000x256) ![0, 0] S2000x256.size inb_S2000x256_S2000x256_0_0

def out2_3 (xX : Vec F S2000x256 .f32) (xW : Vec F S256x256 .f32) : Vec F S2000x256 .f32 :=
  View.canon [⟨r2_3, k2_pay1 (View.ld xX r2_0) (View.ld xW r2_1)⟩]

def out2_4 (xX : Vec F S2000x256 .f32) (xW : Vec F S256x256 .f32) (xD : Vec F S2000x1 .f32) : Vec F S2000x256 .bf16 :=
  View.canon [⟨r2_3, k2_pay2 (View.ld xX r2_0) (View.ld xW r2_1) (View.ld xD r2_2)⟩]

set_option maxHeartbeats 1000000 in
-- The inputs are only read; each output is overwritten by one store over its whole index set, so afterwards it reads the stored value.
theorem sound_kernel2 {i : grid2.Coords}
    {mX : Memref sig .tc .vmem S2000x256 .f32} {hmX : mX.IsWhole} {mW : Memref sig .tc .vmem S256x256 .f32} {hmW : mW.IsWhole}
    {mD : Memref sig .tc .vmem S2000x1 .f32} {hmD : mD.IsWhole} {mH : Memref sig .tc .vmem S2000x256 .f32} {hmH : mH.IsWhole}
    {mS : Memref sig .tc .vmem S2000x256 .bf16} {hmS : mS.IsWhole} {αH αS : Type} {gH : αH → Vec F S2000x256 .f32} {gS : αS → Vec F S2000x256 .bf16}
    (xX : Vec F S2000x256 .f32) (xW : Vec F S256x256 .f32) (xD : Vec F S2000x1 .f32) :
    Triple5 c mX mW mD mH mS gH gS xX xW xD (out2_3 xX xW) (out2_4 xX xW xD) (cc2__matmul_scaled_kernel i mX hmX mW hmW mD hmD mH hmH mS hmS) := by
  intro K
  simp only [cc2__matmul_scaled_kernel_eq_skeleton]; unfold cc2__matmul_scaled_kernel_skel
  unfold owns
  iintro ⟨⟨%fX, %hfX, HX⟩, ⟨%fW, %hfW, HW⟩, ⟨%fD, %hfD, HD⟩, ⟨%dH, %fH, -, HH⟩, ⟨%dS, %fS, -, HS⟩, Hk⟩
  subst hfX; subst hfW; subst hfD
  sl_exec
  sl_step
  iapply Hk
  isplitl [HX]
  · iexists fX; isplitr; · ipureintro; rfl
    iexact HX
  isplitl [HW]
  · iexists fW; isplitr; · ipureintro; rfl
    iexact HW
  isplitl [HD]
  · iexists fD; isplitr; · ipureintro; rfl
    iexact HD
  isplitl [HH]
  · iexists _; isplitr
    swap; · iexact HH
    ipureintro
    exact View.read_writes_eq_canon _ _ _ (View.cover_of_tiled _ S2000x256.size (by rfl))
  iexists _; isplitr
  swap; · iexact HS
  ipureintro
  exact View.read_writes_eq_canon _ _ _ (View.cover_of_tiled _ S2000x256.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (w : Fin cfg2.W) : (dat2 V c).A w = V c (Pipeline.arrRef spec2 w) := rfl
theorem share2 (w : Fin cfg2.W) : (dat2 V c).q w = fullShare := rfl
theorem owed2 (t : Fin (cfg2.N + 1)) : (dat2 V c).owed t = 0 := rfl
theorem Phi2 (t : Fin (cfg2.N + 1)) : (dat2 V c).Φ t = Pipeline.ΦA spec2 c := rfl
theorem after2_3 (t : Fin cfg2.N) : (dat2 V c).after 3 t = out2_3 (iblk2 V c 0 t) (iblk2 V c 1 t) := by dsimp only [dat2]
theorem after2_4 (t : Fin cfg2.N) : (dat2 V c).after 4 t = out2_4 (iblk2 V c 0 t) (iblk2 V c 1 t) (iblk2 V c 2 t) := by dsimp only [dat2]

-- What the body finds in an input window at a point is the window's block there.
theorem before2_0 (t : Fin cfg2.N) (d) : (dat2 V c).before 0 t d = iblk2 V c 0 t :=
  ((dat2 V c).before_in_eq_fetched 0 rfl (fun _ => rfl) (fun _ _ _ => rfl) (fun _ => rfl) t d).trans rfl
theorem before2_1 (t : Fin cfg2.N) (d) : (dat2 V c).before 1 t d = iblk2 V c 1 t :=
  ((dat2 V c).before_in_eq_fetched 1 rfl (fun _ => rfl) (fun _ _ _ => rfl) (fun _ => rfl) t d).trans rfl
theorem before2_2 (t : Fin cfg2.N) (d) : (dat2 V c).before 2 t d = iblk2 V c 2 t :=
  ((dat2 V c).before_in_eq_fetched 2 rfl (fun _ => rfl) (fun _ _ _ => rfl) (fun _ => rfl) t d).trans rfl

theorem body_obligation2 : BodyObligation (dat2 (F := F) V c) (defs₀ (F := F)) Variants.none () Set.univ := fun t => by
  rw [bigSep_W2, bigSep_W2]
  exact body_of_kernel (e := bodyAt2 t) (before2_0 V c t) (before2_1 V c t) (before2_2 V c t) (after2_3 V c t) (after2_4 V c t) <|
    sound_kernel2 c (iblk2 V c 0 t) (iblk2 V c 1 t) (iblk2 V c 2 t)

end Cert.KernelIdeal.Frm

end
-- ==== Proof.KernelIdeal.RegCB3.lean ====
import proofs.«415159_j89687507076125_2_alg».proof.Proof.Gen.KernelIdeal.Launch
import proofs.«415159_j89687507076125_2_alg».proof.Proof.Gen.KernelIdeal.Skeleton
import proofs.«415159_j89687507076125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev r3_0 : Rect S2000x256 := Rect.unit (s := S2000x256) ![0, 0] S2000x256.size inb_S2000x256_S2000x256_0_0
abbrev r3_1 : Rect S2000x1 := Rect.unit (s := S2000x1) ![0, 0] S2000x1.size inb_S2000x1_S2000x1_0_0
abbrev r3_2 : Rect S1x256 := Rect.unit (s := S1x256) ![0, 0] S1x256.size inb_S1x256_S1x256_0_0

def out3_9 (xa : Vec F S2000x256 .f32) (xb : Vec F S2000x256 .f32) (xc : Vec F S2000x1 .f32) (xd : Vec F S1x256 .f32) (xe : Vec F S1x256 .f32) (xf : Vec F S1x256 .f32) (xg : Vec F S1x256 .f32) (xh : Vec F S1x256 .f32) (xi : Vec F S2000x256 .f32) : Vec F S2000x256 .f32 :=
  View.canon [⟨r3_0, k3_pay1 (View.ld xc r3_1) (View.ld xb r3_0) (View.ld xa r3_0) (View.ld xd r3_2) (View.ld xe r3_2) (View.ld xh r3_2) (View.ld xg r3_2) (View.ld xf r3_2) (View.ld xi r3_0)⟩]

set_option maxHeartbeats 1000000 in
-- The body reads its inputs and writes one block that covers the whole output, so the output ends at the canonical contents of that one write.
theorem sound_kernel3 {c : Dev nD} {E : Set ℕ} {i : grid3.Coords} {ma mb mi mj : Memref sig .tc .vmem S2000x256 .f32} {mc : Memref sig .tc .vmem S2000x1 .f32}
    {md me mf mg mh : Memref sig .tc .vmem S1x256 .f32} {hma : ma.IsWhole} {hmb : mb.IsWhole} {hmc : mc.IsWhole} {hmd : md.IsWhole} {hme : me.IsWhole}
    {hmf : mf.IsWhole} {hmg : mg.IsWhole} {hmh : mh.IsWhole} {hmi : mi.IsWhole} {hmj : mj.IsWhole}
    {xa xb xi : Vec F S2000x256 .f32} {xc : Vec F S2000x1 .f32} {xd xe xf xg xh : Vec F S1x256 .f32} {P Q : sProp 𝕄} :
    iprop(P ∗ Q ∗ owns c ma fullShare xa ∗ owns c mb fullShare xb ∗ owns c mc fullShare xc ∗ owns c md fullShare xd ∗ owns c me fullShare xe
        ∗ owns c mf fullShare xf ∗ owns c mg fullShare xg ∗ owns c mh fullShare xh ∗ owns c mi fullShare xi ∗ (∃ d, owns c mj fullShare d))
      ⊢ wp frame (wpE (defs₀ (F := F)) Variants.none c none) E (cc3__combine_kernel_resid i ma hma mb hmb mc hmc md hmd me hme mf hmf mg hmg mh hmh mi hmi mj hmj) fun _ =>
        iprop(P ∗ Q ∗ owns c ma fullShare xa ∗ owns c mb fullShare xb ∗ owns c mc fullShare xc ∗ owns c md fullShare xd ∗ owns c me fullShare xe
          ∗ owns c mf fullShare xf ∗ owns c mg fullShare xg ∗ owns c mh fullShare xh ∗ owns c mi fullShare xi ∗ owns c mj fullShare (out3_9 xa xb xc xd xe xf xg xh xi)) := by
  simp only [cc3__combine_kernel_resid_eq_skeleton]; unfold cc3__combine_kernel_resid_skel owns
  iintro ⟨HP, HQ, ⟨%fa, %ha, Ha⟩, ⟨%fb, %hb, Hb⟩, ⟨%fc, %hc, Hc⟩, ⟨%fd, %hd, Hd⟩, ⟨%fe, %he, He⟩, ⟨%ff, %hf, Hf⟩, ⟨%fg, %hg, Hg⟩, ⟨%fh, %hh, Hh⟩, ⟨%fi, %hi, Hi⟩, ⟨%dj, %fj, -, Hj⟩⟩
  subst ha hb hc hd he hf hg hh hi
  sl_exec
  sl_step
  isplitl [HP]; · iexact HP
  isplitl [HQ]; · iexact HQ
  isplitl [Ha]; · iexists fa; isplitr; · ipureintro; rfl
                  iexact Ha
  isplitl [Hb]; · iexists fb; isplitr; · ipureintro; rfl
                  iexact Hb
  isplitl [Hc]; · iexists fc; isplitr; · ipureintro; rfl
                  iexact Hc
  isplitl [Hd]; · iexists fd; isplitr; · ipureintro; rfl
                  iexact Hd
  isplitl [He]; · iexists fe; isplitr; · ipureintro; rfl
                  iexact He
  isplitl [Hf]; · iexists ff; isplitr; · ipureintro; rfl
                  iexact Hf
  isplitl [Hg]; · iexists fg; isplitr; · ipureintro; rfl
                  iexact Hg
  isplitl [Hh]; · iexists fh; isplitr; · ipureintro; rfl
                  iexact Hh
  isplitl [Hi]; · iexists fi; isplitr; · ipureintro; rfl
                  iexact Hi
  iexists _; isplitr
  swap; · iexact Hj
  ipureintro
  exact View.read_writes_eq_canon _ _ _ (View.cover_of_tiled _ S2000x256.size (by rfl))

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (w : Fin cfg3.W) : (dat3 V c).A w = V c (Pipeline.arrRef spec3 w) := rfl
theorem share3 (w : Fin cfg3.W) : (dat3 V c).q w = fullShare := rfl
theorem owed3 (t : Fin (cfg3.N + 1)) : (dat3 V c).owed t = 0 := rfl
theorem Phi3 (t : Fin (cfg3.N + 1)) : (dat3 V c).Φ t = Pipeline.ΦA spec3 c := rfl
theorem after3_9 (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

-- The body returns every input as it found it, so at each point an input holds its block of the array.
theorem before3 : ∀ w : Fin cfg3.W, w.1 ≠ 9 → ∀ t d, (dat3 V c).before w t d = (dat3 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d => by
    refine (dat3 V c).before_in_eq_fetched _ ?_ ?_ ?_ ?_ t d <;> intros <;> rfl
  | ⟨9, _⟩, h, _, _ => absurd rfl h

-- At every point the inputs hold their blocks, so the body's triple applies; the invariant and what is owed pass through unchanged.
theorem body_obligation3 : BodyObligation (dat3 (F := F) V c) (defs₀ (F := F)) Variants.none () Set.univ := fun t => by
  rw [bigSep_W3, bigSep_W3]
  simp (disch := decide) only [before3 V c]
  rw [Phi3, Phi3, show (dat3 V c).owesAt () t.succ = (dat3 V c).owesAt () t.castSucc from rfl, after3_9]
  show _ ⊢ wp _ _ _ (bodyAt3 t) _
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
  iapply sound_kernel3
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  iexists _; iexact Hj

end Cert.KernelIdeal.Frm

end
-- ==== Proof.KernelIdeal.RegMM4.lean ====
import proofs.«415159_j89687507076125_2_alg».proof.Proof.KernelIdeal.RegMM2

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]
variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x256 := Rect.unit (s := S2000x256) ![0, 0] S2000x256.size inb_S2000x256_S2000x256_0_0
abbrev r4_1 : Rect S256x256 := Rect.unit (s := S256x256) ![0, 0] S256x256.size inb_S256x256_S256x256_0_0
abbrev r4_2 : Rect S2000x1 := Rect.unit (s := S2000x1) ![0, 0] S2000x1.size inb_S2000x1_S2000x1_0_0
abbrev r4_3 : Rect S2000x256 := Rect.unit (s := S2000x256) ![0, 0] S2000x256.size inb_S2000x256_S2000x256_0_0

def out4_3 (xX : Vec F S2000x256 .f32) (xW : Vec F S256x256 .f32) : Vec F S2000x256 .f32 :=
  View.canon [⟨r4_3, k4_pay1 (View.ld xX r4_0) (View.ld xW r4_1)⟩]

def out4_4 (xX : Vec F S2000x256 .f32) (xW : Vec F S256x256 .f32) (xD : Vec F S2000x1 .f32) : Vec F S2000x256 .bf16 :=
  View.canon [⟨r4_3, k4_pay2 (View.ld xX r4_0) (View.ld xW r4_1) (View.ld xD r4_2)⟩]

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 1 t) (iblk4 V c 2 t)
  Φ _ := Pipeline.ΦA spec4 c
  q _ := fullShare
  owed _ := 0

theorem A_eq4 (w : Fin cfg4.W) : (dat4 V c).A w = V c (Pipeline.arrRef spec4 w) := rfl
theorem share4 (w : Fin cfg4.W) : (dat4 V c).q w = fullShare := rfl
theorem owed4 (t : Fin (cfg4.N + 1)) : (dat4 V c).owed t = 0 := rfl
theorem Phi4 (t : Fin (cfg4.N + 1)) : (dat4 V c).Φ t = Pipeline.ΦA spec4 c := rfl
theorem after4_3 (t : Fin cfg4.N) : (dat4 V c).after 3 t = out4_3 (iblk4 V c 0 t) (iblk4 V c 1 t) := by dsimp only [dat4]
theorem after4_4 (t : Fin cfg4.N) : (dat4 V c).after 4 t = out4_4 (iblk4 V c 0 t) (iblk4 V c 1 t) (iblk4 V c 2 t) := by dsimp only [dat4]

-- What the body finds in an input window at a point is the window's block there.
theorem before4_0 (t : Fin cfg4.N) (d) : (dat4 V c).before 0 t d = iblk4 V c 0 t :=
  ((dat4 V c).before_in_eq_fetched 0 rfl (fun _ => rfl) (fun _ _ _ => rfl) (fun _ => rfl) t d).trans rfl
theorem before4_1 (t : Fin cfg4.N) (d) : (dat4 V c).before 1 t d = iblk4 V c 1 t :=
  ((dat4 V c).before_in_eq_fetched 1 rfl (fun _ => rfl) (fun _ _ _ => rfl) (fun _ => rfl) t d).trans rfl
theorem before4_2 (t : Fin cfg4.N) (d) : (dat4 V c).before 2 t d = iblk4 V c 2 t :=
  ((dat4 V c).before_in_eq_fetched 2 rfl (fun _ => rfl) (fun _ _ _ => rfl) (fun _ => rfl) t d).trans rfl

-- This pipeline's kernel is the kernel of pipeline 2, term for term.
theorem body_obligation4 : BodyObligation (dat4 (F := F) V c) (defs₀ (F := F)) Variants.none () Set.univ := fun t => by
  rw [bigSep_W4, bigSep_W4]
  exact body_of_kernel (e := bodyAt4 t) (before4_0 V c t) (before4_1 V c t) (before4_2 V c t) (after4_3 V c t) (after4_4 V c t) <| by
    unfold bodyAt4
    rw [show cc4__matmul_scaled_kernel (F := F) = cc2__matmul_scaled_kernel from rfl]
    exact sound_kernel2 c (iblk4 V c 0 t) (iblk4 V c 1 t) (iblk4 V c 2 t)

end Cert.KernelIdeal.Frm

end
-- ==== Proof.KernelIdeal.RegCB5.lean ====
import proofs.«415159_j89687507076125_2_alg».proof.Proof.KernelIdeal.RegCB3

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

abbrev r5_0 : Rect S2000x256 := Rect.unit (s := S2000x256) ![0, 0] S2000x256.size inb_S2000x256_S2000x256_0_0
abbrev r5_1 : Rect S2000x1 := Rect.unit (s := S2000x1) ![0, 0] S2000x1.size inb_S2000x1_S2000x1_0_0
abbrev r5_2 : Rect S1x256 := Rect.unit (s := S1x256) ![0, 0] S1x256.size inb_S1x256_S1x256_0_0

def out5_9 (xa : Vec F S2000x256 .f32) (xb : Vec F S2000x256 .f32) (xc : Vec F S2000x1 .f32) (xd : Vec F S1x256 .f32) (xe : Vec F S1x256 .f32) (xf : Vec F S1x256 .f32) (xg : Vec F S1x256 .f32) (xh : Vec F S1x256 .f32) (xi : Vec F S2000x256 .f32) : Vec F S2000x256 .f32 :=
  View.canon [⟨r5_0, k5_pay1 (View.ld xc r5_1) (View.ld xb r5_0) (View.ld xa r5_0) (View.ld xd r5_2) (View.ld xe r5_2) (View.ld xh r5_2) (View.ld xg r5_2) (View.ld xf r5_2) (View.ld xi r5_0)⟩]

-- Pipeline 5 runs the kernel of pipeline 3: the two have the same skeleton.
theorem cc5_eq_cc3 : cc5__combine_kernel_resid (F := F) = cc3__combine_kernel_resid (F := F) :=
  cc5__combine_kernel_resid_eq_skeleton.trans (cc3__combine_kernel_resid_eq_skeleton.trans rfl).symm

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (w : Fin cfg5.W) : (dat5 V c).A w = V c (Pipeline.arrRef spec5 w) := rfl
theorem share5 (w : Fin cfg5.W) : (dat5 V c).q w = fullShare := rfl
theorem owed5 (t : Fin (cfg5.N + 1)) : (dat5 V c).owed t = 0 := rfl
theorem Phi5 (t : Fin (cfg5.N + 1)) : (dat5 V c).Φ t = Pipeline.ΦA spec5 c := rfl
theorem after5_9 (t : Fin cfg5.N) :
    (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

-- The body returns every input as it found it, so at each point an input holds its block of the array.
theorem before5 : ∀ w : Fin cfg5.W, w.1 ≠ 9 → ∀ t d, (dat5 V c).before w t d = (dat5 V c).after w t
  | ⟨0, _⟩, _, t, d | ⟨1, _⟩, _, t, d | ⟨2, _⟩, _, t, d | ⟨3, _⟩, _, t, d | ⟨4, _⟩, _, t, d | ⟨5, _⟩, _, t, d | ⟨6, _⟩, _, t, d | ⟨7, _⟩, _, t, d | ⟨8, _⟩, _, t, d => by
    refine (dat5 V c).before_in_eq_fetched _ ?_ ?_ ?_ ?_ t d <;> intros <;> rfl
  | ⟨9, _⟩, h, _, _ => absurd rfl h

-- At every point the inputs hold their blocks, so the triple of pipeline 3's body applies; the invariant and what is owed pass through unchanged.
theorem body_obligation5 : BodyObligation (dat5 (F := F) V c) (defs₀ (F := F)) Variants.none () Set.univ := fun t => by
  rw [bigSep_W5, bigSep_W5]
  simp (disch := decide) only [before5 V c]
  rw [Phi5, Phi5, show (dat5 V c).owesAt () t.succ = (dat5 V c).owesAt () t.castSucc from rfl, after5_9]
  show _ ⊢ wp _ _ _ (bodyAt5 t) _
  unfold bodyAt5; rw [cc5_eq_cc3]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
  iapply sound_kernel3
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [Hi]; · iexact Hi
  iexists _; iexact Hj

end Cert.KernelIdeal.Frm

end
-- ==== Proof.KernelIdeal.RegPool6.lean ====
import proofs.«415159_j89687507076125_2_alg».proof.Proof.Gen.KernelIdeal.Launch
import proofs.«415159_j89687507076125_2_alg».proof.Proof.Gen.KernelIdeal.Skeleton
import proofs.«415159_j89687507076125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

abbrev cond6_0 (i : grid6.Coords) : Prop := (Scalar.cmpi .ne (Scalar.extui (Scalar.cmpi .eq (BitVec.ofNat 32 (i 0).val) 0#32)) 0#32) = 1#1
abbrev cond6_1 (i : grid6.Coords) : Prop := k6_cond2 i = 1#1

theorem hcond6 : ∀ t : Fin cfg6.N, (cond6_0 (grid6.coords t) ↔ t.val = 0) ∧ (cond6_1 (grid6.coords t) ↔ t.val = 24) :=
  (by decide +kernel : ∀ t : Fin grid6.N, (cond6_0 (grid6.coords t) ↔ t.val = 0) ∧ (cond6_1 (grid6.coords t) ↔ t.val = 24))

theorem live6 : ∀ (t : Fin cfg6.N) (w : Fin cfg6.W), w.val ≠ 7 ∨ t.val = 24 → cfg6.idle w (grid6.coords t) = false := by decide +kernel
theorem idle6_7 : ∀ t : Fin cfg6.N, t.val ≠ 24 → cfg6.idle 7 (grid6.coords t) = true ∧ (cfg6.win 7).flush t = false := by decide +kernel

abbrev r6_x : Rect S2000x256 := Rect.unit (s := S2000x256) ![0, 0] S2000x256.size inb_S2000x256_S2000x256_0_0
abbrev r6_b : Rect S2000x1 := Rect.unit (s := S2000x1) ![0, 0] S2000x1.size inb_S2000x1_S2000x1_0_0
abbrev r6_n : Rect S512x1 := Rect.unit (s := S512x1) ![0, 0] S512x1.size inb_S512x1_S512x1_0_0
abbrev r6_w1 : Rect S256x256 := Rect.unit (s := S256x256) ![0, 0] S256x256.size inb_S256x256_S256x256_0_0
abbrev r6_b1 : Rect S1x256 := Rect.unit (s := S1x256) ![0, 0] S1x256.size inb_S1x256_S1x256_0_0
abbrev r6_w2 : Rect S256x1 := Rect.unit (s := S256x1) ![0, 0] S256x1.size inb_S256x1_S256x1_0_0
abbrev r6_b2 : Rect S1x1 := Rect.unit (s := S1x1) ![0, 0] S1x1.size inb_S1x1_S1x1_0_0
abbrev r6_s : Rect S512x256 := Rect.unit (s := S512x256) ![0, 0] S512x256.size inb_S512x256_S512x256_0_0

def zero6 : Vec F S512x256 .f32 := View.canon [⟨r6_s, k6_pay1 (F := F)⟩]

def acc6 (x : Vec F S2000x256 .f32) (b : Vec F S2000x1 .i32) (s : Vec F S512x256 .f32) : Vec F S512x256 .f32 :=
  View.canon [⟨r6_s, k6_pay2 (View.ld x r6_x) (View.ld b r6_b) (View.ld s r6_s)⟩]

def out6_7 (n : Vec F S512x1 .f32) (s : Vec F S512x256 .f32) (w1 : Vec F S256x256 .f32) (b1 : Vec F S1x256 .f32)
    (w2 : Vec F S256x1 .f32) (b2 : Vec F S1x1 .f32) : Vec F S512x1 .f32 :=
  View.canon [⟨r6_n, k6_pay3 (View.ld n r6_n) (View.ld s r6_s) (View.ld w1 r6_w1) (View.ld b1 r6_b1) (View.ld w2 r6_w2) (View.ld b2 r6_b2)⟩]

theorem cover6_s (p : Vec F S512x256 .f32) (y : S512x256.Idx) :
    ∃ pc ∈ ([⟨r6_s, p⟩] : List (View.Piece (Elt F) S512x256 .f32)), y ∈ pc.1.set :=
  View.cover_of_tiled [⟨r6_s, p⟩] S512x256.size (by rfl) y

-- a whole-shape store hides every earlier write; its third operand is a load of contents s
theorem acc6_eq {κ : Kind} {sp : Space} (v : View sig κ sp S512x256 .f32) (f : v.ty.Contents (Elt F)) (x : Vec F S2000x256 .f32) (b : Vec F S2000x1 .i32)
    (s p : Vec F S512x256 .f32) (L : List (View.Piece (Elt F) S512x256 .f32)) (hp : p = View.ld s r6_s) :
    v.read (Elt F) (v.writes (Elt F) f (⟨r6_s, k6_pay2 (View.ld x r6_x) (View.ld b r6_b) p⟩ :: L)) = acc6 x b s := by
  subst hp; exact View.read_writes_eq_canon v (v.writes (Elt F) f L) [_] (cover6_s _)

theorem out6_7_eq {κ : Kind} {sp : Space} (v : View sig κ sp S512x1 .f32) (f : v.ty.Contents (Elt F)) (n : Vec F S512x1 .f32) (s p : Vec F S512x256 .f32)
    (w1 : Vec F S256x256 .f32) (b1 : Vec F S1x256 .f32) (w2 : Vec F S256x1 .f32) (b2 : Vec F S1x1 .f32) (hp : p = View.ld s r6_s) :
    v.read (Elt F) (v.writes (Elt F) f [⟨r6_n, k6_pay3 (View.ld n r6_n) p (View.ld w1 r6_w1) (View.ld b1 r6_b1) (View.ld w2 r6_w2) (View.ld b2 r6_b2)⟩]) = out6_7 n s w1 b1 w2 b2 := by
  subst hp; exact View.read_writes_eq_canon _ _ _ (View.cover_of_tiled _ S512x1.size (by rfl))

-- one triple for every point: the scratch is zeroed first at the first point, the output is written at the last only
theorem sound_kernel6 (E : Set ℕ) (i : grid6.Coords)
    (arg1 : Memref sig .tc .vmem S2000x256 .f32) (harg1 : arg1.IsWhole) (arg2 : Memref sig .tc .vmem S2000x1 .i32) (harg2 : arg2.IsWhole)
    (arg3 : Memref sig .tc .vmem S512x1 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x1 .f32) (harg6 : arg6.IsWhole)
    (arg7 : Memref sig .tc .vmem S1x1 .f32) (harg7 : arg7.IsWhole) (arg8 : Memref sig .tc .vmem S512x1 .f32) (harg8 : arg8.IsWhole)
    (arg9 : Memref sig .tc .vmem S512x256 .f32) (harg9 : arg9.IsWhole) (h01 : cond6_0 i → ¬cond6_1 i)
    (x0 : Vec F S2000x256 .f32) (x1 : Vec F S2000x1 .i32) (x2 : Vec F S512x1 .f32) (x3 : Vec F S256x256 .f32) (x4 : Vec F S1x256 .f32)
    (x5 : Vec F S256x1 .f32) (x6 : Vec F S1x1 .f32) (x7 : Vec F S512x1 .f32) (xs : Vec F S512x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ owns (c : Thread nD τ) arg8 fullShare x7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (if cond6_1 i then out6_7 x2 (acc6 x0 x1 (if cond6_0 i then zero6 else xs)) x3 x4 x5 x6 else x7)
            ∗ owns (c : Thread nD τ) arg9 fullShare (acc6 x0 x1 (if cond6_0 i then zero6 else xs))) -∗ K ⟨⟩))
      ⊢ wp frame (wpE (defs₀ (F := F)) Variants.none c none) E (cc6__pool_kernel i arg1 harg1 arg2 harg2 arg3 harg3 arg4 harg4 arg5 harg5 arg6 harg6 arg7 harg7 arg8 harg8 arg9 harg9) K := by
  by_cases hc0 : cond6_0 i <;> by_cases hc1 : cond6_1 i
  · exact absurd hc1 (h01 hc0)
  all_goals
    first | rw [if_pos hc1] | rw [if_neg hc1]
    first | rw [if_pos hc0] | rw [if_neg hc0]
    simp only [cc6__pool_kernel_eq_skeleton]; unfold cc6__pool_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    subst hf0 hf1 hf2 hf3 hf4 hf5 hf6 hf7 hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      first
      | (have _ : cond6_1 i := hc1; exact out6_7_eq _ _ _ _ _ _ _ _ _ (View.readCov_eq_canon_ld arg9.view _ r6_s (cover6_s (F := F) _)))
      | rfl
    iexists _; isplitr
    swap; · iexact HS
    ipureintro
    first
    | (have _ : cond6_0 i := hc0; exact acc6_eq _ _ (arg1.view.read (Elt F) f0) (arg2.view.read (Elt F) f1) _ _ _ (View.readCov_eq_canon_ld arg9.view _ r6_s (cover6_s (F := F) _)))
    | exact acc6_eq _ _ (arg1.view.read (Elt F) f0) (arg2.view.read (Elt F) f1) _ _ _ rfl

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

theorem N6_pos : 0 < cfg6.N := by decide

def sAt6 : ℕ → Vec F S512x256 .f32
  | 0 => acc6 (iblk6 V c 0 ⟨0, N6_pos⟩) (iblk6 V c 1 ⟨0, N6_pos⟩) zero6
  | n + 1 => if h : n + 1 < cfg6.N then acc6 (iblk6 V c 0 ⟨n + 1, h⟩) (iblk6 V c 1 ⟨n + 1, h⟩) (sAt6 n) else sAt6 n

-- one step of the accumulation, from the zeroed scratch at the first point and from the point before's otherwise
theorem sAt6_step (t : Fin cfg6.N) (d : Vec F S512x256 .f32) (hd : t.val ≠ 0 → d = sAt6 V c (t.val - 1)) :
    acc6 (iblk6 V c 0 t) (iblk6 V c 1 t) (if cond6_0 (grid6.coords t) then zero6 else d) = sAt6 V c t.val := by
  obtain ⟨n, hn⟩ := t
  cases n with
  | zero => rw [if_pos ((hcond6 _).1.mpr rfl)]; rfl
  | succ n =>
    rw [if_neg (fun h => Nat.succ_ne_zero n ((hcond6 _).1.mp h)), hd (Nat.succ_ne_zero n)]
    symm; exact (dif_pos hn).trans rfl

abbrev scM6 : Memref sig .tc .vmem S512x256 .f32 := Memref.whole cc6_scratch0

abbrev rest6 : sProp 𝕄 :=
  Pipeline.scopedRestBut (Ix := Unit) (Name := ℕ) (U := UR sig nD τ) (Lvl := ℕ) (Val := Elt F) spec6 c [cc6_scratch0]

theorem PhiA6_eq :
    (Pipeline.ΦA spec6 c : sProp 𝕄)
      = iprop(iprop(iprop((∃ d, owns (c : Thread nD τ) scM6 fullShare d)) ∗ rest6 (F := F) c) ∗ (∃ r, prngReg c r)) := by
  unfold Pipeline.ΦA; rw [scopedRest6_split]; simp only [scM6, owns_whole]; try rfl

-- before position n the scratch holds what the point before left; before the first point, anything
def PhiS6 (n : ℕ) (_ : n ≤ cfg6.N) : sProp 𝕄 :=
  iprop(iprop(iprop((∃ d, ⌜n ≠ 0 → d = sAt6 V c (n - 1)⌝ ∗ owns (c : Thread nD τ) scM6 fullShare d)) ∗ rest6 (F := F) c) ∗ (∃ r, prngReg c r))

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 2 t) (sAt6 V c t.val) (iblk6 V c 3 t) (iblk6 V c 4 t) (iblk6 V c 5 t) (iblk6 V c 6 t)
  Φ t := PhiS6 V c t.val (Nat.le_of_lt_succ t.isLt)
  q _ := fullShare
  owed _ := 0

theorem A_eq6 (w : Fin cfg6.W) : (dat6 V c).A w = V c (Pipeline.arrRef spec6 w) := rfl
theorem share6 (w : Fin cfg6.W) : (dat6 V c).q w = fullShare := rfl
theorem owed6 (t : Fin (cfg6.N + 1)) : (dat6 V c).owed t = 0 := rfl
theorem after6_7 (t : Fin cfg6.N) :
    (dat6 V c).after 7 t = out6_7 (iblk6 V c 2 t) (sAt6 V c t.val) (iblk6 V c 3 t) (iblk6 V c 4 t) (iblk6 V c 5 t) (iblk6 V c 6 t) := rfl

theorem before6 (t : Fin cfg6.N) :
    (∀ d, (dat6 V c).before 0 t d = iblk6 V c 0 t) ∧ (∀ d, (dat6 V c).before 1 t d = iblk6 V c 1 t) ∧ (∀ d, (dat6 V c).before 2 t d = iblk6 V c 2 t) ∧ (∀ d, (dat6 V c).before 3 t d = iblk6 V c 3 t) ∧ (∀ d, (dat6 V c).before 4 t d = iblk6 V c 4 t) ∧ (∀ d, (dat6 V c).before 5 t d = iblk6 V c 5 t) ∧ (∀ d, (dat6 V c).before 6 t d = iblk6 V c 6 t) := by
  refine ⟨?_, ?_, ?_, ?_, ?_, ?_, ?_⟩ <;>
    exact fun d => ((dat6 V c).before_in_eq_fetched _ rfl (fun _ => rfl) (fun _ _ _ => rfl) (fun _ => rfl) t d).trans rfl

theorem leaves6 (t : Fin cfg6.N) (w : Fin cfg6.W) (h : w.val ≠ 7 ∨ t.val = 24) :
    (dat6 V c).leavesExact w t = owns (c : Thread nD τ) ((cfg6.win w).stage (cfg6.slots t w)) fullShare ((dat6 V c).after w t) := by
  unfold Dat.leavesExact; rw [live6 t w h]

theorem sound_body6 (t : Fin cfg6.N) :
    iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d))
      ∗ (∃ d, owns (c : Thread nD τ) (st6_3 t) fullShare ((dat6 V c).before 3 t d))
      ∗ (∃ d, owns (c : Thread nD τ) (st6_4 t) fullShare ((dat6 V c).before 4 t d))
      ∗ (∃ d, owns (c : Thread nD τ) (st6_5 t) fullShare ((dat6 V c).before 5 t d))
      ∗ (∃ d, owns (c : Thread nD τ) (st6_6 t) fullShare ((dat6 V c).before 6 t d))
      ∗ (∃ d, owns (c : Thread nD τ) (st6_7 t) fullShare ((dat6 V c).before 7 t d)))
    ⊢ wp frame (wpE (defs₀ (F := F)) Variants.none c none) Set.univ (bodyAt6 t) fun _ =>
      iprop((dat6 V c).Φ t.succ ∗ (dat6 V c).owesAt () t.succ
        ∗ (dat6 V c).leavesExact 0 t ∗ (dat6 V c).leavesExact 1 t ∗ (dat6 V c).leavesExact 2 t ∗ (dat6 V c).leavesExact 3 t ∗ (dat6 V c).leavesExact 4 t ∗ (dat6 V c).leavesExact 5 t ∗ (dat6 V c).leavesExact 6 t ∗ (dat6 V c).leavesExact 7 t) := by
  obtain ⟨b0, b1, b2, b3, b4, b5, b6⟩ := before6 V c t
  simp only [b0, b1, b2, b3, b4, b5, b6]
  rw [leaves6 V c t 0 (.inl (by decide)), leaves6 V c t 1 (.inl (by decide)), leaves6 V c t 2 (.inl (by decide)), leaves6 V c t 3 (.inl (by decide)), leaves6 V c t 4 (.inl (by decide)), leaves6 V c t 5 (.inl (by decide)), leaves6 V c t 6 (.inl (by decide))]
  rw [show (dat6 V c).owesAt () t.succ = (dat6 V c).owesAt () t.castSucc from rfl,
    show (dat6 V c).Φ t.castSucc = PhiS6 V c t.val (Nat.le_of_lt t.isLt) from rfl,
    show (dat6 V c).Φ t.succ = PhiS6 V c (t.val + 1) t.isLt from rfl]
  unfold PhiS6
  iintro ⟨⟨⟨⟨%d, %hd, HS⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ _ _
    (fun h0 h1 => by have a := (hcond6 t).1.mp h0; have b := (hcond6 t).2.mp h1; omega)
    (iblk6 V c 0 t) (iblk6 V c 1 t) (iblk6 V c 2 t) (iblk6 V c 3 t) (iblk6 V c 4 t) (iblk6 V c 5 t) (iblk6 V c 6 t) ((dat6 V c).before 7 t d7) d _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  rw [sAt6_step V c t d hd]
  isplitl [HS Hrest Hg]
  · isplitl [HS Hrest]
    · isplitl [HS]
      · iexists (sAt6 V c t.val); isplitr; · ipureintro; exact fun _ => rfl
        iexact HS
      iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases h1 : t.val = 24
  · rw [if_pos ((hcond6 t).2.mpr h1), leaves6 V c t 7 (.inr h1), after6_7]
    iexact H7
  · rw [if_neg (mt (hcond6 t).2.mp h1), Dat.leavesExact_idle (dat6 V c) 7 t (idle6_7 t h1).1 (idle6_7 t h1).2]
    iexists d7; iexact H7

theorem body_obligation6 : BodyObligation (dat6 (F := F) V c) (defs₀ (F := F)) Variants.none () Set.univ := fun t => by
  rw [bigSep_W6, bigSep_W6]
  exact sound_body6 V c t

theorem hin6 : (Pipeline.ΦA spec6 c : sProp 𝕄) ⊢ (dat6 V c).Φ 0 := by
  rw [show (dat6 V c).Φ 0 = PhiS6 V c 0 (Nat.zero_le _) from rfl, PhiA6_eq]; unfold PhiS6
  refine sep_mono_left (sep_mono_left ?_)
  iintro ⟨%d, HS⟩
  iexists d; isplitr; · ipureintro; exact fun h => absurd rfl h
  iexact HS

theorem hout6 : (dat6 V c).Φ (Fin.last cfg6.N) ⊢ (Pipeline.ΦA spec6 c : sProp 𝕄) := by
  rw [show (dat6 V c).Φ (Fin.last cfg6.N) = PhiS6 V c cfg6.N (Nat.le_refl _) from rfl, PhiA6_eq]; unfold PhiS6
  refine sep_mono_left (sep_mono_left ?_)
  iintro ⟨%d, -, HS⟩
  iexists d; iexact HS

end Cert.KernelIdeal.Frm

end
-- ==== Proof.KernelIdeal.Records.lean ====
import proofs.«415159_j89687507076125_2_alg».proof.Proof.KernelIdeal.RunAll
import proofs.«415159_j89687507076125_2_alg».proof.Proof.KernelIdeal.RegMM0
import proofs.«415159_j89687507076125_2_alg».proof.Proof.KernelIdeal.RegCB1
import proofs.«415159_j89687507076125_2_alg».proof.Proof.KernelIdeal.RegMM2
import proofs.«415159_j89687507076125_2_alg».proof.Proof.KernelIdeal.RegCB3
import proofs.«415159_j89687507076125_2_alg».proof.Proof.KernelIdeal.RegMM4
import proofs.«415159_j89687507076125_2_alg».proof.Proof.KernelIdeal.RegCB5
import proofs.«415159_j89687507076125_2_alg».proof.Proof.KernelIdeal.RegPool6

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Upd

variable {α : Type*} [DecidableEq α] {β : α → Type*} {f g : ∀ a, β a} {a b : α}

-- reading an update back at its own point and updating there again changes nothing
theorem upd1 (hg : g = f) (x : β a) : Function.update g a (Function.update f a x a) = Function.update f a x := by
  rw [Function.update_self, hg]
theorem upd2 (hg : g = f) (h : a ≠ b) (x : β a) (y : β b) :
    Function.update (Function.update g a (Function.update (Function.update f a x) b y a)) b (Function.update (Function.update f a x) b y b)
      = Function.update (Function.update f a x) b y := by
  rw [Function.update_self, Function.update_of_ne h, Function.update_self, hg]

variable {cfg : Cfg sig Λ₀} {c : Dev nD} (dat : Dat τ (Elt F) Unit ℕ (UR sig nD τ) ℕ cfg c) (W : Valuation τ sig (Elt F))

-- `W'` is `W` with each window's array replaced by its final contents
structure Exit (W' : Valuation τ sig (Elt F)) : Prop where
  arr : ∀ w, dat.arrAt w cfg.N = W' (Pipeline.arrRef cfg.spec w)
  rest : ∀ b : Ref sig .tc, b ∉ Finset.univ.image (Pipeline.arrRef cfg.spec) → W' b = W b

variable (hinj : Function.Injective (Pipeline.arrRef cfg.spec)) (hA : ∀ w, dat.A w = W (Pipeline.arrRef cfg.spec w))
include hinj hA

-- off the output windows the final array is the entry array, so a valuation right on `O` and equal to `W` off it is right at every window
theorem exit_of (W' : Valuation τ sig (Elt F)) (O : Fin cfg.W → Prop) (hO : ∀ w, ¬ O w → (cfg.win w).isOut = false)
    (hout : ∀ w, O w → dat.arrAt w cfg.N = W' (Pipeline.arrRef cfg.spec w))
    (hkeep : ∀ b : Ref sig .tc, (∀ w, O w → b ≠ Pipeline.arrRef cfg.spec w) → W' b = W b) : Exit dat W W' :=
  ⟨fun w => by
    by_cases h : O w
    · exact hout w h
    · exact ((dat.arrAt_in w (hO w h) _).trans (hA w)).trans
        (hkeep (Pipeline.arrRef cfg.spec w) fun w' h' e => h (hinj e ▸ h')).symm,
   fun b hb => hkeep b fun w _ e => hb (Finset.mem_image.mpr ⟨w, Finset.mem_univ _, e.symm⟩)⟩

theorem exit1 (o : Fin cfg.W) (hO : ∀ w, w ≠ o → (cfg.win w).isOut = false) :
    Exit dat W (Function.update W (Pipeline.arrRef cfg.spec o) (dat.arrAt o cfg.N)) :=
  exit_of dat W hinj hA _ (· = o) hO (fun w h => by cases h; rw [Function.update_self])
    fun b h => Function.update_of_ne (StableHlo.devRef_ne_of_ne (τ := τ) (h o rfl)) ..

theorem exit2 (o₁ o₂ : Fin cfg.W) (h12 : o₁ ≠ o₂) (hO : ∀ w, ¬ (w = o₁ ∨ w = o₂) → (cfg.win w).isOut = false) :
    Exit dat W (Function.update (Function.update W (Pipeline.arrRef cfg.spec o₁) (dat.arrAt o₁ cfg.N))
      (Pipeline.arrRef cfg.spec o₂) (dat.arrAt o₂ cfg.N)) :=
  exit_of dat W hinj hA _ (fun w => w = o₁ ∨ w = o₂) hO
    (fun w h => by
      rcases h with rfl | rfl
      · rw [Function.update_of_ne (StableHlo.devRef_ne_of_ne (τ := τ) (hinj.ne h12)), Function.update_self]
      · rw [Function.update_self])
    fun b h => by
      rw [Function.update_of_ne (StableHlo.devRef_ne_of_ne (τ := τ) (h o₂ (.inr rfl))),
        Function.update_of_ne (StableHlo.devRef_ne_of_ne (τ := τ) (h o₁ (.inl rfl)))]

end Upd

variable (m : (ℓ : Loc nD τ sig) → Buf (Elt F) ℓ)

abbrev U1 (c : Dev nD) : Valuation τ sig (Elt F) := V1 m c
abbrev T1 (c : Dev nD) (b : Ref sig .tc) : Buf (Elt F) ((c : Thread nD τ).loc b) := U1 m c b
def U2 (c : Dev nD) : Valuation τ sig (Elt F) :=
  Function.update (Function.update (U1 m c) main_v12_0 ((dat0 (T1 m) c).arrAt 3 cfg0.N)) main_v12_1 ((dat0 (T1 m) c).arrAt 4 cfg0.N)
abbrev U3 (c : Dev nD) : Valuation τ sig (Elt F) := StableHlo.after hostOps1 (U2 m c)
abbrev T3 (c : Dev nD) (b : Ref sig .tc) : Buf (Elt F) ((c : Thread nD τ).loc b) := U3 m c b
def U4 (c : Dev nD) : Valuation τ sig (Elt F) :=
  Function.update (U3 m c) main_v29 ((dat1 (T3 m) c).arrAt 8 cfg1.N)
abbrev T4 (c : Dev nD) (b : Ref sig .tc) : Buf (Elt F) ((c : Thread nD τ).loc b) := U4 m c b
def U5 (c : Dev nD) : Valuation τ sig (Elt F) :=
  Function.update (Function.update (U4 m c) main_v30_0 ((dat2 (T4 m) c).arrAt 3 cfg2.N)) main_v30_1 ((dat2 (T4 m) c).arrAt 4 cfg2.N)
abbrev U6 (c : Dev nD) : Valuation τ sig (Elt F) := StableHlo.after hostOps3 (U5 m c)
abbrev T6 (c : Dev nD) (b : Ref sig .tc) : Buf (Elt F) ((c : Thread nD τ).loc b) := U6 m c b
def U7 (c : Dev nD) : Valuation τ sig (Elt F) :=
  Function.update (U6 m c) main_v47 ((dat3 (T6 m) c).arrAt 9 cfg3.N)
abbrev T7 (c : Dev nD) (b : Ref sig .tc) : Buf (Elt F) ((c : Thread nD τ).loc b) := U7 m c b
def U8 (c : Dev nD) : Valuation τ sig (Elt F) :=
  Function.update (Function.update (U7 m c) main_v48_0 ((dat4 (T7 m) c).arrAt 3 cfg4.N)) main_v48_1 ((dat4 (T7 m) c).arrAt 4 cfg4.N)
abbrev U9 (c : Dev nD) : Valuation τ sig (Elt F) := StableHlo.after hostOps5 (U8 m c)
abbrev T9 (c : Dev nD) (b : Ref sig .tc) : Buf (Elt F) ((c : Thread nD τ).loc b) := U9 m c b
def U10 (c : Dev nD) : Valuation τ sig (Elt F) :=
  Function.update (U9 m c) main_v65 ((dat5 (T9 m) c).arrAt 9 cfg5.N)
abbrev U11 (c : Dev nD) : Valuation τ sig (Elt F) := StableHlo.after hostOps6 (U10 m c)
abbrev U12 (c : Dev nD) : Valuation τ sig (Elt F) := StableHlo.after hostOps6_1 (U11 m c)
abbrev U13 (c : Dev nD) : Valuation τ sig (Elt F) := StableHlo.after hostOps6_2 (U12 m c)
abbrev T13 (c : Dev nD) (b : Ref sig .tc) : Buf (Elt F) ((c : Thread nD τ).loc b) := U13 m c b
def U14 (c : Dev nD) : Valuation τ sig (Elt F) :=
  Function.update (U13 m c) main_v75 ((dat6 (T13 m) c).arrAt 7 cfg6.N)

def outs : Outs (F := F) := fun J r c => match J with
  | 2 => U2 m c r | 4 => U4 m c r | 5 => U5 m c r | 7 => U7 m c r | 8 => U8 m c r | 10 => U10 m c r | 14 => U14 m c r
  | _ => U1 m c r

theorem V2_eq (c : Dev nD) : V2 m (outs m) c = U2 m c := upd2 rfl (StableHlo.devRef_ne_of_ne (τ := τ) (show (main_v12_0 : Ref sig .tc) ≠ main_v12_1 by decide)) ..
theorem V3_eq (c : Dev nD) : V3 m (outs m) c = U3 m c := congrArg (StableHlo.after hostOps1) (V2_eq m c)
theorem V4_eq (c : Dev nD) : V4 m (outs m) c = U4 m c := upd1 (V3_eq m c) _
theorem V5_eq (c : Dev nD) : V5 m (outs m) c = U5 m c := upd2 (V4_eq m c) (StableHlo.devRef_ne_of_ne (τ := τ) (show (main_v30_0 : Ref sig .tc) ≠ main_v30_1 by decide)) ..
theorem V6_eq (c : Dev nD) : V6 m (outs m) c = U6 m c := congrArg (StableHlo.after hostOps3) (V5_eq m c)
theorem V7_eq (c : Dev nD) : V7 m (outs m) c = U7 m c := upd1 (V6_eq m c) _
theorem V8_eq (c : Dev nD) : V8 m (outs m) c = U8 m c := upd2 (V7_eq m c) (StableHlo.devRef_ne_of_ne (τ := τ) (show (main_v48_0 : Ref sig .tc) ≠ main_v48_1 by decide)) ..
theorem V9_eq (c : Dev nD) : V9 m (outs m) c = U9 m c := congrArg (StableHlo.after hostOps5) (V8_eq m c)
theorem V10_eq (c : Dev nD) : V10 m (outs m) c = U10 m c := upd1 (V9_eq m c) _
theorem V13_eq (c : Dev nD) : V13 m (outs m) c = U13 m c := congrArg (fun V => StableHlo.after hostOps6_2 (StableHlo.after hostOps6_1 (StableHlo.after hostOps6 V))) (V10_eq m c)
theorem V14_eq (c : Dev nD) : V14 m (outs m) c = U14 m c := upd1 (V13_eq m c) _
theorem ex0 (c : Dev nD) : Exit (dat0 (T1 m) c) (U1 m c) (U2 m c) :=
  exit2 (dat0 (T1 m) c) (U1 m c) launch0.win.arr_inj (A_eq0 (T1 m) c) 3 4 (by decide) (by decide)
theorem ex1 (c : Dev nD) : Exit (dat1 (T3 m) c) (U3 m c) (U4 m c) :=
  exit1 (dat1 (T3 m) c) (U3 m c) launch1.win.arr_inj (A_eq1 (T3 m) c) 8 (by decide)
theorem ex2 (c : Dev nD) : Exit (dat2 (T4 m) c) (U4 m c) (U5 m c) :=
  exit2 (dat2 (T4 m) c) (U4 m c) launch2.win.arr_inj (A_eq2 (T4 m) c) 3 4 (by decide) (by decide)
theorem ex3 (c : Dev nD) : Exit (dat3 (T6 m) c) (U6 m c) (U7 m c) :=
  exit1 (dat3 (T6 m) c) (U6 m c) launch3.win.arr_inj (A_eq3 (T6 m) c) 9 (by decide)
theorem ex4 (c : Dev nD) : Exit (dat4 (T7 m) c) (U7 m c) (U8 m c) :=
  exit2 (dat4 (T7 m) c) (U7 m c) launch4.win.arr_inj (A_eq4 (T7 m) c) 3 4 (by decide) (by decide)
theorem ex5 (c : Dev nD) : Exit (dat5 (T9 m) c) (U9 m c) (U10 m c) :=
  exit1 (dat5 (T9 m) c) (U9 m c) launch5.win.arr_inj (A_eq5 (T9 m) c) 9 (by decide)
theorem ex6 (c : Dev nD) : Exit (dat6 (T13 m) c) (U13 m c) (U14 m c) :=
  exit1 (dat6 (T13 m) c) (U13 m c) launch6.win.arr_inj (A_eq6 (T13 m) c) 7 (by decide)
theorem hF0_3 (c : Dev nD) : (dat0 (T1 m) c).arrAt 3 cfg0.N = U2 m c main_v12_0 := (ex0 m c).arr 3
theorem hF0_4 (c : Dev nD) : (dat0 (T1 m) c).arrAt 4 cfg0.N = U2 m c main_v12_1 := (ex0 m c).arr 4
theorem hF1_8 (c : Dev nD) : (dat1 (T3 m) c).arrAt 8 cfg1.N = U4 m c main_v29 := (ex1 m c).arr 8
theorem hF2_3 (c : Dev nD) : (dat2 (T4 m) c).arrAt 3 cfg2.N = U5 m c main_v30_0 := (ex2 m c).arr 3
theorem hF2_4 (c : Dev nD) : (dat2 (T4 m) c).arrAt 4 cfg2.N = U5 m c main_v30_1 := (ex2 m c).arr 4
theorem hF3_9 (c : Dev nD) : (dat3 (T6 m) c).arrAt 9 cfg3.N = U7 m c main_v47 := (ex3 m c).arr 9
theorem hF4_3 (c : Dev nD) : (dat4 (T7 m) c).arrAt 3 cfg4.N = U8 m c main_v48_0 := (ex4 m c).arr 3
theorem hF4_4 (c : Dev nD) : (dat4 (T7 m) c).arrAt 4 cfg4.N = U8 m c main_v48_1 := (ex4 m c).arr 4
theorem hF5_9 (c : Dev nD) : (dat5 (T9 m) c).arrAt 9 cfg5.N = U10 m c main_v65 := (ex5 m c).arr 9

def pdats : (p : Fin 7) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T4 m) c
  | ⟨3, _⟩ => fun c => dat3 (T6 m) c
  | ⟨4, _⟩ => fun c => dat4 (T7 m) c
  | ⟨5, _⟩ => fun c => dat5 (T9 m) c
  | ⟨6, _⟩ => fun c => dat6 (T13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the region's record between valuations `V` and `V'`, where `V'` is `V` with each window's array at its final contents
def regOf (p : Fin 7) (lf : Pipeline.LaunchFacts (nD := nD) (τ := τ) cfgs p) (V V' : Dev nD → Valuation τ sig (Elt F))
    (hb : ∀ c, BodyObligation (pdats m p c) (defs₀ (F := F)) 𝒱₀ () Set.univ)
    (howed : ∀ c t, (pdats m p c).owed t = 0) (hrec : ∀ c, (pdats m p c).recorded 0 = Set.univ) (hq : ∀ c w, (pdats m p c).q w = fullShare)
    (hA : ∀ c w, (pdats m p c).A w = V c (Pipeline.arrRef (cfgs p).spec w))
    (hx : ∀ c, Exit (pdats m p c) (V c) (V' c))
    (hΦ₀ : ∀ c, (Pipeline.ΦA (cfgs p).spec c : sProp 𝕄) ⊢ (pdats m p c).Φ 0)
    (hΦₙ : ∀ c, (pdats m p c).Φ (Fin.last _) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    refine BIBase.Entails.trans ?_ (hΦ₀ c)
    unfold Pipeline.ΦA
    iintro ⟨Hp, -, Hr⟩
    isplitl [Hr]; · iexact Hr
    iexact Hp
  hout c := by
    rw [Pipeline.ownSems0_none]
    refine BIBase.Entails.trans (hΦₙ c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (hx c).arr (hx c).rest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := regOf m 0 launch0 (U1 m) (U2 m) (body_obligation0 (T1 m)) (owed0 (T1 m)) (fun _ => rfl) (share0 (T1 m)) (A_eq0 (T1 m)) (ex0 m)
  (fun c => .of_eq (Phi0 (T1 m) c 0).symm) fun c => .of_eq (Phi0 (T1 m) c _)
def reg1 := regOf m 1 launch1 (U3 m) (U4 m) (body_obligation1 (T3 m)) (owed1 (T3 m)) (fun _ => rfl) (share1 (T3 m)) (A_eq1 (T3 m)) (ex1 m)
  (fun c => .of_eq (Phi1 (T3 m) c 0).symm) fun c => .of_eq (Phi1 (T3 m) c _)
def reg2 := regOf m 2 launch2 (U4 m) (U5 m) (body_obligation2 (T4 m)) (owed2 (T4 m)) (fun _ => rfl) (share2 (T4 m)) (A_eq2 (T4 m)) (ex2 m)
  (fun c => .of_eq (Phi2 (T4 m) c 0).symm) fun c => .of_eq (Phi2 (T4 m) c _)
def reg3 := regOf m 3 launch3 (U6 m) (U7 m) (body_obligation3 (T6 m)) (owed3 (T6 m)) (fun _ => rfl) (share3 (T6 m)) (A_eq3 (T6 m)) (ex3 m)
  (fun c => .of_eq (Phi3 (T6 m) c 0).symm) fun c => .of_eq (Phi3 (T6 m) c _)
def reg4 := regOf m 4 launch4 (U7 m) (U8 m) (body_obligation4 (T7 m)) (owed4 (T7 m)) (fun _ => rfl) (share4 (T7 m)) (A_eq4 (T7 m)) (ex4 m)
  (fun c => .of_eq (Phi4 (T7 m) c 0).symm) fun c => .of_eq (Phi4 (T7 m) c _)
def reg5 := regOf m 5 launch5 (U9 m) (U10 m) (body_obligation5 (T9 m)) (owed5 (T9 m)) (fun _ => rfl) (share5 (T9 m)) (A_eq5 (T9 m)) (ex5 m)
  (fun c => .of_eq (Phi5 (T9 m) c 0).symm) fun c => .of_eq (Phi5 (T9 m) c _)
def reg6 := regOf m 6 launch6 (U13 m) (U14 m) (body_obligation6 (T13 m)) (owed6 (T13 m)) (fun _ => rfl) (share6 (T13 m)) (A_eq6 (T13 m)) (ex6 m)
  (hin6 (T13 m)) (hout6 (T13 m))

theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) :=
  run_cond m (emb₁ : Emb (URounds (GSem nD τ sig) Unit) 𝕄) () 𝒱₀ L lv (fun _ _ => rfl) ρ (outs m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V13_eq]; exact .rfl) (fun c => by rw [V14_eq]; exact .rfl)

def allOf : List Prop → Prop
  | [] => True
  | [p] => p
  | p :: ps => p ∧ allOf ps
theorem allOf_map {α : Type*} {P : α → Prop} : ∀ {l : List α}, (∀ b ∈ l, P b) → allOf (l.map P)
  | [], _ => trivial
  | [_], h => h _ List.mem_cons_self
  | _ :: _ :: _, h => And.intro (h _ List.mem_cons_self) (allOf_map fun x hx => h x (List.mem_cons_of_mem _ hx))
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]
-- no host stretch and no region writes an argument
theorem V14_arg (c : Dev nD) (b : Ref sig .tc) (hb : b ∈ args) : V14 m (outs m) c b = m ((c : Thread nD τ).loc b) :=
  (V14_of m _ c b (by decide +revert)).trans <|
    (V13_of m _ c b (by decide +revert)).trans <|
    (V12_of m _ c b (by decide +revert)).trans <|
    (V11_of m _ c b (by decide +revert)).trans <|
    (V10_of m _ c b (by decide +revert)).trans <|
    (V9_of m _ c b (by decide +revert)).trans <|
    (V8_of m _ c b (by decide +revert)).trans <|
    (V7_of m _ c b (by decide +revert)).trans <|
    (V6_of m _ c b (by decide +revert)).trans <|
    (V5_of m _ c b (by decide +revert)).trans <|
    (V4_of m _ c b (by decide +revert)).trans <|
    (V3_of m _ c b (by decide +revert)).trans <|
    (V2_of m _ c b (by decide +revert)).trans <|
    (V1_of m c b (by decide +revert)).trans rfl

theorem frame (ρ : Dev nD → PrngReg) :
    θ_run defs (onTc (τ := τ) (main (F := F))) ⟨m, fun _ => 0, ρ⟩ (fun r => ∀ c : Dev nD,
      allOf (args.map fun b => r.2.mem ((c.tc : Thread nD τ).loc b) = m ((c.tc : Thread nD τ).loc b))) :=
  (θ_run defs _ _).mono (fun r h c => allOf_map fun b hb =>
    (h c _ (mem_uc b (by decide +revert))).trans (V14_arg m c b hb)) (run_main m ρ)

theorem result_eq (c : Dev nD) : V14 m (outs m) c main_v75 = (dat6 (T13 m) c).arrAt 7 cfg6.N :=
  (congrFun (V14_eq m c) _).trans ((ex6 m c).arr 7).symm

end Cert.KernelIdeal.Frm

end
-- ==== Proof.KernelIdeal.ValMMPay.lean ====
import proofs.«415159_j89687507076125_2_alg».proof.Proof.Gen.KernelIdeal.Skeleton
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.Val

open Cert.KernelIdeal Cert.KernelIdeal.Gen Idealize.ShloMosaic Idealize.ShloMosaic.ValueIdx Idealize.SL.Sem

theorem mm_hz : (![0, 0] : Fin 2 → Nat) = fun _ => 0 := funext fun a => by fin_cases a <;> rfl

-- A column broadcast along the rows' second axis reads, at any column, the column's entry of the row.
theorem bcol_apply (d : Vec Ideal S2000x1 .f32) (p : Fin 2000) (q : Fin 256) :
    broadcastTo S2000x256 d broadcasts_S2000x1_S2000x256 (ix2 p q) = d (ix2 p 0) :=
  broadcastTo_apply d broadcasts_S2000x1_S2000x256 (ix2 p q) (ix2 p 0) (fun a => by
    match a with
    | ⟨0, _⟩ => rfl
    | ⟨1, _⟩ => rfl)

-- With one contracted axis and no batch axis, a product onto a zero accumulator is the textbook contraction.
theorem mm_apply {M K N : Nat} {D : DotDims ⟨2, ![M, K]⟩ ⟨2, ![K, N]⟩ ⟨2, ![M, N]⟩} (hD : D = DotDims.plain M K N)
    (a : FVec Ideal ⟨2, ![M, K]⟩ .bf16) (b : FVec Ideal ⟨2, ![K, N]⟩ .bf16) (p : Fin M) (q : Fin N) :
    matmul D none a b (constant ⟨2, ![M, N]⟩ .f32 0x00000000#32) (ix2 p q) = ∑ k : Fin K, a (ix2 p k) * b (ix2 k q) := by
  subst hD
  exact (Ideal.matmul_constant_zero_apply _ none a b _).trans
    ((Ideal.dotGeneral_apply _ none .single a b _).symm.trans (StackMember.dotGeneral_plain_apply none a b p q))

theorem k0_pay1_apply (v0 : Vec Ideal S2000x128 .f32) (v2 : Vec Ideal S128x256 .f32) (p : Fin 2000) (q : Fin 256) :
    k0_pay1 (F := Ideal) v0 v2 (ix2 p q) = ∑ k : Fin 128, v0 (ix2 p k) * v2 (ix2 k q) := by
  unfold k0_pay1
  exact mm_apply rfl _ _ p q

theorem k0_pay2_apply (v0 : Vec Ideal S2000x128 .f32) (v2 : Vec Ideal S128x256 .f32) (v6 : Vec Ideal S2000x1 .f32) (p : Fin 2000) (q : Fin 256) :
    k0_pay2 (F := Ideal) v0 v2 v6 (ix2 p q) = (∑ k : Fin 128, v0 (ix2 p k) * v2 (ix2 k q)) * v6 (ix2 p 0) := by
  unfold k0_pay2
  show k0_pay1 (F := Ideal) v0 v2 (ix2 p q) * broadcastTo S2000x256 (shapeCast S2000x1 v6 shapeCasts_S2000x1_S2000x1) broadcasts_S2000x1_S2000x256 (ix2 p q) = _
  rw [k0_pay1_apply, shapeCast_self, bcol_apply]

theorem k2_pay1_apply (v0 : Vec Ideal S2000x256 .f32) (v3 : Vec Ideal S256x256 .f32) (p : Fin 2000) (q : Fin 256) :
    k2_pay1 (F := Ideal) v0 v3 (ix2 p q) = ∑ k : Fin 256, v0 (ix2 p k) * v3 (ix2 k q) := by
  unfold k2_pay1
  simp only [shapeCast_self]
  exact mm_apply rfl _ _ p q

theorem k2_pay2_apply (v0 : Vec Ideal S2000x256 .f32) (v3 : Vec Ideal S256x256 .f32) (v7 : Vec Ideal S2000x1 .f32) (p : Fin 2000) (q : Fin 256) :
    k2_pay2 (F := Ideal) v0 v3 v7 (ix2 p q) = (∑ k : Fin 256, v0 (ix2 p k) * v3 (ix2 k q)) * v7 (ix2 p 0) := by
  unfold k2_pay2
  show k2_pay1 (F := Ideal) v0 v3 (ix2 p q) * broadcastTo S2000x256 (shapeCast S2000x1 v7 shapeCasts_S2000x1_S2000x1) broadcasts_S2000x1_S2000x256 (ix2 p q) = _
  rw [k2_pay1_apply, shapeCast_self, bcol_apply]

-- The two output arrays as functions of the factors: row `n` against column `j`, and that times the scaling column's entry of row `n`.
def mmOut {K : Nat} (x : (⟨2, ![50000, K]⟩ : Shape).Idx → EReal) (w : (⟨2, ![K, 256]⟩ : Shape).Idx → EReal) : S50000x256.Idx → EReal :=
  fun i => ∑ k : Fin K, x (ix2 (i 0) k) * w (ix2 k (i 1))

def mmOutS {K : Nat} (x : (⟨2, ![50000, K]⟩ : Shape).Idx → EReal) (w : (⟨2, ![K, 256]⟩ : Shape).Idx → EReal) (d : S50000x1.Idx → EReal) :
    S50000x256.Idx → EReal :=
  fun i => mmOut x w i * d (ix2 (i 0) 0)

theorem mmOut_apply {K : Nat} (x : (⟨2, ![50000, K]⟩ : Shape).Idx → EReal) (w : (⟨2, ![K, 256]⟩ : Shape).Idx → EReal) (n : Fin 50000) (j : Fin 256) :
    mmOut x w (ix2 n j) = ∑ k : Fin K, x (ix2 n k) * w (ix2 k j) := rfl

theorem mmOutS_apply {K : Nat} (x : (⟨2, ![50000, K]⟩ : Shape).Idx → EReal) (w : (⟨2, ![K, 256]⟩ : Shape).Idx → EReal) (d : S50000x1.Idx → EReal)
    (n : Fin 50000) (j : Fin 256) : mmOutS x w d (ix2 n j) = (∑ k : Fin K, x (ix2 n k) * w (ix2 k j)) * d (ix2 n 0) := rfl

-- An entry under block `t` of an output ends as `G`'s there, when every block of the output is its block of `G`.
theorem arrAt_of_emb {nD : Nat} {τ : Topo} {sig : RefSig} {Val : EltTy → Type} {Ix : Type} [DecidableEq Ix] {Name : Type} [DecidableEq Name]
    {U : Type} [Idealize.SL.RA.URA U] {Lvl : Type} {Λ₀ : Labels} {cfg : Pipeline.Cfg sig Λ₀} {c : Dev nD}
    (dat : Pipeline.Dat τ Val Ix Name U Lvl cfg c) (w : Fin cfg.W) (G : Buf Val ((cfg.win w).arr.view.loc (c.tc : Thread nD τ)))
    (hG : ∀ t, dat.flushed w t = ((cfg.win w).blk t).view.read Val G) (hf : ∀ t, (cfg.win w).flush t = true)
    (t : Fin cfg.N) (y : ((cfg.win w).xblock (cfg.grid.coords t)).Idx) {i : ((cfg.win w).arr.view.loc (c.tc : Thread nD τ)).2.ty.Idx}
    (e : ((cfg.win w).blk t).view.emb y = i) : dat.arrAt w cfg.N i = G i := by
  subst e
  exact dat.arrAt_apply_of_mem w G (fun t _ => hG t) cfg.N t _ t.isLt (hf t) (((cfg.win w).blk t).view.emb_mem_set y)

-- 25 tiles of 2000 rows: every row is a row of one tile, and every row of a tile is a row.
theorem tile_rows {N : Nat} (hN : N = 25) (n : Fin 50000) : ∃ (t : Fin N) (p : Fin 2000), n.val = t.val * 2000 + p.val := by
  subst hN
  have := n.isLt
  exact ⟨⟨n.val / 2000, by omega⟩, ⟨n.val % 2000, by omega⟩, by show n.val = n.val / 2000 * 2000 + n.val % 2000; omega⟩

theorem tile_row {N : Nat} (hN : N = 25) (t : Fin N) (p : Fin 2000) : ∃ n : Fin 50000, n.val = t.val * 2000 + p.val := by
  subst hN
  exact ⟨⟨t.val * 2000 + p.val, by have := t.isLt; have := p.isLt; omega⟩, rfl⟩

end Cert.KernelIdeal.Val

end
-- ==== Proof.KernelIdeal.ValMM0.lean ====
import proofs.«415159_j89687507076125_2_alg».proof.Proof.KernelIdeal.RegMM0
import proofs.«415159_j89687507076125_2_alg».proof.Proof.KernelIdeal.ValMMPay
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b)) (c : Dev nD)

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

-- Block `t` of a row-tiled input is rows `2000 t` onwards of its array.
theorem iblk0_0_apply (t : Fin cfg0.N) (p : Fin 2000) (k : Fin 128) (n : Fin 50000) (hn : n.val = t.val * 2000 + p.val) :
    (iblk0 (F := Ideal) V c 0 t : S2000x128.Idx → EReal) (ix2 p k) = (V c main_arg0 : S50000x128.Idx → EReal) (ix2 n k) := by
  obtain ⟨e0, e1, -⟩ := idx_facts0 t
  unfold iblk0
  rw [View.read_apply]
  show (V c main_arg0 : S50000x128.Idx → EReal) _ = _
  refine congrArg _ (funext fun a => Fin.ext ?_)
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

theorem iblk0_1_apply (t : Fin cfg0.N) (k : Fin 128) (q : Fin 256) :
    (iblk0 (F := Ideal) V c 1 t : S128x256.Idx → EReal) (ix2 k q) = (V c main_arg3 : S128x256.Idx → EReal) (ix2 k q) := by
  obtain ⟨-, -, e0, e1, -⟩ := idx_facts0 t
  unfold iblk0
  rw [View.read_apply]
  show (V c main_arg3 : S128x256.Idx → EReal) _ = _
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 256 + 1 * q.val = q.val; rw [e1]; omega

theorem iblk0_2_apply (t : Fin cfg0.N) (p : Fin 2000) (n : Fin 50000) (hn : n.val = t.val * 2000 + p.val) :
    (iblk0 (F := Ideal) V c 2 t : S2000x1.Idx → EReal) (ix2 p 0) = (V c main_v11 : S50000x1.Idx → EReal) (ix2 n 0) := by
  obtain ⟨-, -, -, -, e0, e1, -⟩ := idx_facts0 t
  unfold iblk0
  rw [View.read_apply]
  show (V c main_v11 : S50000x1.Idx → EReal) _ = _
  refine congrArg _ (funext fun a => Fin.ext ?_)
  match a with
  | ⟨0, _⟩ => show win0_2.index t (0 : Fin 2) * 2000 + 1 * p.val = n.val; rw [e0, hn]; omega
  | ⟨1, _⟩ => show win0_2.index t (1 : Fin 2) * 1 + 1 * 0 = 0; rw [e1]

-- Element `(p, q)` of either output's block `t` is the array's element `(2000 t + p, q)`.
theorem emb0 (t : Fin cfg0.N) (p : Fin 2000) (q : Fin 256) (n : Fin 50000) (hn : n.val = t.val * 2000 + p.val) :
    (((cfg0.win 3).blk t).view.emb (ix2 p q) : S50000x256.Idx) = ix2 n q
    ∧ (((cfg0.win 4).blk t).view.emb (ix2 p q) : S50000x256.Idx) = ix2 n q := by
  obtain ⟨-, -, -, -, -, -, e0, e1, e2, e3⟩ := idx_facts0 t
  refine ⟨Shape.idx_ext₂ ?_ ?_, Shape.idx_ext₂ ?_ ?_⟩
  · show win0_3.index t (0 : Fin 2) * 2000 + 1 * p.val = n.val; rw [e0, hn]; omega
  · show win0_3.index t (1 : Fin 2) * 256 + 1 * q.val = q.val; rw [e1]; omega
  · show win0_4.index t (0 : Fin 2) * 2000 + 1 * p.val = n.val; rw [e2, hn]; omega
  · show win0_4.index t (1 : Fin 2) * 256 + 1 * q.val = q.val; rw [e3]; omega

-- Block `t` of each output is block `t` of the contraction of the region-entry factors, entry by entry.
theorem flushed0_3_eq (t : Fin cfg0.N) :
    (dat0 (F := Ideal) V c).flushed 3 t = ((cfg0.win 3).blk t).view.read (Elt Ideal) (mmOut (K := 128) (V c main_arg0) (V c main_arg3)) := by
  show (cfg0.win 3).cut (grid0.coords t) ((dat0 V c).after 3 t) = _
  rw [after0_3]
  unfold out0_3
  rw [View.canon_unit_zero mm_hz]
  simp only [View.ld_unit_zero (S := S2000x128) mm_hz, View.ld_unit_zero (S := S128x256) mm_hz]
  funext y
  obtain ⟨p, q, rfl⟩ : ∃ (p : Fin 2000) (q : Fin 256), y = ix2 p q := ⟨y 0, y 1, eq_ix2 y⟩
  rw [View.read_apply]
  show k0_pay1 (F := Ideal) (iblk0 V c 0 t) (iblk0 V c 1 t) (ix2 p q) = mmOut (K := 128) (V c main_arg0) (V c main_arg3) (((cfg0.win 3).blk t).view.emb (ix2 p q))
  refine (k0_pay1_apply _ _ p q).trans ?_
  obtain ⟨n, hn⟩ := tile_row N_0 t p
  rw [(emb0 t p q n hn).1, mmOut_apply]
  refine Finset.sum_congr rfl fun k _ => ?_
  rw [iblk0_0_apply V c t p k n hn, iblk0_1_apply V c t k q]

theorem flushed0_4_eq (t : Fin cfg0.N) :
    (dat0 (F := Ideal) V c).flushed 4 t = ((cfg0.win 4).blk t).view.read (Elt Ideal) (mmOutS (K := 128) (V c main_arg0) (V c main_arg3) (V c main_v11)) := by
  show (cfg0.win 4).cut (grid0.coords t) ((dat0 V c).after 4 t) = _
  rw [after0_4]
  unfold out0_4
  rw [View.canon_unit_zero mm_hz]
  simp only [View.ld_unit_zero (S := S2000x128) mm_hz, View.ld_unit_zero (S := S128x256) mm_hz, View.ld_unit_zero (S := S2000x1) mm_hz]
  funext y
  obtain ⟨p, q, rfl⟩ : ∃ (p : Fin 2000) (q : Fin 256), y = ix2 p q := ⟨y 0, y 1, eq_ix2 y⟩
  rw [View.read_apply]
  show k0_pay2 (F := Ideal) (iblk0 V c 0 t) (iblk0 V c 1 t) (iblk0 V c 2 t) (ix2 p q) = mmOutS (K := 128) (V c main_arg0) (V c main_arg3) (V c main_v11) (((cfg0.win 4).blk t).view.emb (ix2 p q))
  refine (k0_pay2_apply _ _ _ p q).trans ?_
  obtain ⟨n, hn⟩ := tile_row N_0 t p
  rw [(emb0 t p q n hn).2, mmOutS_apply, iblk0_2_apply V c t p n hn]
  refine congrArg (· * _) (Finset.sum_congr rfl fun k _ => ?_)
  rw [iblk0_0_apply V c t p k n hn, iblk0_1_apply V c t k q]

-- Row `n` lies in block `n / 2000`, whose entries are those of the contraction.
theorem val0_h {x : S50000x128.Idx → EReal} {w : S128x256.Idx → EReal}
    (hx : (V c main_arg0 : S50000x128.Idx → EReal) = x) (hw : (V c main_arg3 : S128x256.Idx → EReal) = w)
    (n : Fin 50000) (j : Fin 256) :
    (dat0 (F := Ideal) V c).arrAt 3 cfg0.N (ix2 n j) = ∑ k : Fin 128, x (ix2 n k) * w (ix2 k j) := by
  subst hx; subst hw
  obtain ⟨t, p, hn⟩ := tile_rows N_0 n
  exact arrAt_of_emb (dat0 (F := Ideal) V c) 3 _ (flushed0_3_eq V c) flush0_3 t (ix2 p j) (emb0 t p j n hn).1

theorem val0_hs {x : S50000x128.Idx → EReal} {w : S128x256.Idx → EReal} {d : S50000x1.Idx → EReal}
    (hx : (V c main_arg0 : S50000x128.Idx → EReal) = x) (hw : (V c main_arg3 : S128x256.Idx → EReal) = w)
    (hd : (V c main_v11 : S50000x1.Idx → EReal) = d) (n : Fin 50000) (j : Fin 256) :
    (dat0 (F := Ideal) V c).arrAt 4 cfg0.N (ix2 n j) = (∑ k : Fin 128, x (ix2 n k) * w (ix2 k j)) * d (ix2 n 0) := by
  subst hx; subst hw; subst hd
  obtain ⟨t, p, hn⟩ := tile_rows N_0 n
  exact arrAt_of_emb (dat0 (F := Ideal) V c) 4 _ (flushed0_4_eq V c) flush0_4 t (ix2 p j) (emb0 t p j n hn).2

end Cert.KernelIdeal.Val

end
-- ==== Proof.Spec.lean ====
import Idealize.ShloMosaic.PureOps.Ideal
import Idealize.ShloMosaic.Lib.ValueIdx

open scoped BigOperators

noncomputable section

namespace Cert.Spec

open Idealize.ShloMosaic Idealize.ShloMosaic.ValueIdx

abbrev EdgeCol := IVec ⟨2, ![800000, 1]⟩ 32

abbrev NodeCol := IVec ⟨2, ![50000, 1]⟩ 32

def rowOf (s : BitVec 32) : Fin 50000 := ⟨min s.toInt.toNat (50000 - 1), by omega⟩

def hits (tgt : EdgeCol) (n : Fin 50000) : Finset (Fin 800000) :=
  Finset.univ.filter fun e : Fin 800000 => (tgt (ix2 e 0)).toInt = (n.val : Int)

def bhits (batch : NodeCol) (g : Fin 512) : Finset (Fin 50000) :=
  Finset.univ.filter fun i : Fin 50000 => (batch (ix2 i 0)).toInt = (g.val : Int)

def eps : EReal := Ideal.ofBits .f32 0x3727C5AC#32

def mm {K : Nat} (x : Fin 50000 → Fin K → EReal) (W : Fin K → Fin 256 → EReal) : Fin 50000 → Fin 256 → EReal :=
  fun n j => ∑ k : Fin K, x n k * W k j

def agg (src tgt : EdgeCol) (dinv : Fin 50000 → EReal) (h : Fin 50000 → Fin 256 → EReal) : Fin 50000 → Fin 256 → EReal :=
  fun n j => ∑ e ∈ hits tgt n, h (rowOf (src (ix2 e 0))) j * dinv (rowOf (src (ix2 e 0)))

def conv (src tgt : EdgeCol) (dinv : Fin 50000 → EReal) (h : Fin 50000 → Fin 256 → EReal) (b : Fin 256 → EReal) :
    Fin 50000 → Fin 256 → EReal :=
  fun n j => agg src tgt dinv h n j * dinv n + h n j * (dinv n * dinv n) + b j

def bn (y : Fin 50000 → Fin 256 → EReal) (g be mu v : Fin 256 → EReal) : Fin 50000 → Fin 256 → EReal :=
  fun n j => (max (y n j) 0 - mu j) * (g j * Ideal.rsqrt (v j + eps)) + be j

def layer1 (src tgt : EdgeCol) (dinv : Fin 50000 → EReal) (x : Fin 50000 → Fin 128 → EReal) (W : Fin 128 → Fin 256 → EReal)
    (b g be mu v : Fin 256 → EReal) : Fin 50000 → Fin 256 → EReal :=
  bn (conv src tgt dinv (mm x W) b) g be mu v

def layerR (src tgt : EdgeCol) (dinv : Fin 50000 → EReal) (xin : Fin 50000 → Fin 256 → EReal) (W : Fin 256 → Fin 256 → EReal)
    (b g be mu v : Fin 256 → EReal) : Fin 50000 → Fin 256 → EReal :=
  fun n j => bn (conv src tgt dinv (mm xin W) b) g be mu v n j + xin n j

def psum (batch : NodeCol) (x3 : Fin 50000 → Fin 256 → EReal) : Fin 512 → Fin 256 → EReal :=
  fun g j => ∑ i ∈ bhits batch g, x3 i j

def pooled (batch : NodeCol) (cnt : Fin 512 → EReal) (x3 : Fin 50000 → Fin 256 → EReal) : Fin 512 → Fin 256 → EReal :=
  fun g j => Ideal.div (psum batch x3 g j) (max (cnt g) 1)

def head (p : Fin 512 → Fin 256 → EReal) (lw1 : Fin 256 → Fin 256 → EReal) (lb1 : Fin 256 → EReal) (lw2 : Fin 256 → EReal)
    (lb2 : EReal) : Fin 512 → EReal :=
  fun g => (∑ k : Fin 256, max ((∑ k' : Fin 256, p g k' * lw1 k' k) + lb1 k) 0 * lw2 k) + lb2

def out (src tgt : EdgeCol) (dinv : Fin 50000 → EReal) (batch : NodeCol) (cnt : Fin 512 → EReal)
    (x : Fin 50000 → Fin 128 → EReal) (W1 : Fin 128 → Fin 256 → EReal) (b1 g1 be1 m1 v1 : Fin 256 → EReal)
    (W2 : Fin 256 → Fin 256 → EReal) (b2 g2 be2 m2 v2 : Fin 256 → EReal)
    (W3 : Fin 256 → Fin 256 → EReal) (b3 g3 be3 m3 v3 : Fin 256 → EReal)
    (lw1 : Fin 256 → Fin 256 → EReal) (lb1 : Fin 256 → EReal) (lw2 : Fin 256 → EReal) (lb2 : EReal) : Fin 512 → EReal :=
  head (pooled batch cnt
    (layerR src tgt dinv (layerR src tgt dinv (layer1 src tgt dinv x W1 b1 g1 be1 m1 v1) W2 b2 g2 be2 m2 v2) W3 b3 g3 be3 m3 v3))
    lw1 lb1 lw2 lb2

end Cert.Spec

end
-- ==== Proof.KernelIdeal.ValCBPay.lean ====
import proofs.«415159_j89687507076125_2_alg».proof.Proof.Gen.KernelIdeal.Skeleton
import proofs.«415159_j89687507076125_2_alg».proof.Proof.Spec
import Idealize.ShloMosaic.Lib.ValueLayout
import Idealize.ShloMosaic.PureOps.Ideal.Laws

noncomputable section

namespace Cert.KernelIdeal.Val

open Idealize.ShloMosaic Idealize.ShloMosaic.ValueIdx Cert.KernelIdeal

-- A column spread along the features reads, at `(p, c)`, its entry of row `p`.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem hz : (![0, 0] : Fin 2 → Nat) = fun _ => 0 := funext fun a => by match a with | ⟨0, _⟩ => rfl | ⟨1, _⟩ => rfl

theorem rsqrt_apply {s : Shape} {φ : FTy} (a : FVec Ideal s φ) (i : s.Idx) : rsqrt a i = Ideal.rsqrt (a i) := rfl

theorem eps_word : Scalar.ofBits (F := Ideal) .f32 0x3727C5AC#32 = Cert.Spec.eps := rfl

theorem zero_word : Scalar.ofBits (F := Ideal) .f32 0x00000000#32 = (0 : EReal) := Ideal.ofBits_zero_f32

def comb1 (agg h : S50000x256.Idx → EReal) (dinv : S50000x1.Idx → EReal) (b g be m v : S1x256.Idx → EReal)
    (n : Fin 50000) (j : Fin 256) : EReal :=
  (max (agg (ix2 n j) * dinv (ix2 n 0) + h (ix2 n j) * (dinv (ix2 n 0) * dinv (ix2 n 0)) + b (ix2 0 j)) 0
      - m (ix2 0 j)) * (g (ix2 0 j) * Ideal.rsqrt (v (ix2 0 j) + Cert.Spec.eps)) + be (ix2 0 j)

def comb3 (agg h : S50000x256.Idx → EReal) (dinv : S50000x1.Idx → EReal) (b g be m v : S1x256.Idx → EReal)
    (xin : S50000x256.Idx → EReal)
    (n : Fin 50000) (j : Fin 256) : EReal :=
  (max (agg (ix2 n j) * dinv (ix2 n 0) + h (ix2 n j) * (dinv (ix2 n 0) * dinv (ix2 n 0)) + b (ix2 0 j)) 0
      - m (ix2 0 j)) * (g (ix2 0 j) * Ideal.rsqrt (v (ix2 0 j) + Cert.Spec.eps)) + be (ix2 0 j)
    + xin (ix2 n j)

def comb5 (agg h : S50000x256.Idx → EReal) (dinv : S50000x1.Idx → EReal) (b g be m v : S1x256.Idx → EReal)
    (xin : S50000x256.Idx → EReal)
    (n : Fin 50000) (j : Fin 256) : EReal :=
  (max (agg (ix2 n j) * dinv (ix2 n 0) + h (ix2 n j) * (dinv (ix2 n 0) * dinv (ix2 n 0)) + b (ix2 0 j)) 0
      - m (ix2 0 j)) * (g (ix2 0 j) * Ideal.rsqrt (v (ix2 0 j) + Cert.Spec.eps)) + be (ix2 0 j)
    + xin (ix2 n j)

-- Every operation of the payload is pointwise; where each block entry is its array's entry at node `n` (a parameter row's at feature `j`), it is the formula there.
theorem k1_blocks {x0 x1 : Vec Ideal S2000x256 .f32} {x2 : Vec Ideal S2000x1 .f32} {x3 x4 x5 x6 x7 : Vec Ideal S1x256 .f32}
    {agg h : S50000x256.Idx → EReal} {dinv : S50000x1.Idx → EReal} {b g be m v : S1x256.Idx → EReal}
    {y : S2000x256.Idx} {p : Fin 2000} {q : Fin 256} {n : Fin 50000} {j : Fin 256} (hy : y = ix2 p q)
    (h0 : x0 (ix2 p q) = h (ix2 n j)) (h1 : x1 (ix2 p q) = agg (ix2 n j)) (h2 : x2 (ix2 p 0) = dinv (ix2 n 0))
    (h3 : x3 (ix2 0 q) = b (ix2 0 j)) (h4 : x4 (ix2 0 q) = g (ix2 0 j)) (h5 : x5 (ix2 0 q) = be (ix2 0 j))
    (h6 : x6 (ix2 0 q) = m (ix2 0 j)) (h7 : x7 (ix2 0 q) = v (ix2 0 j)) :
    Gen.k1_pay1 x2 x1 x0 x3 x4 x7 x6 x5 y = comb1 agg h dinv b g be m v n j := by
  rw [hy]
  unfold Gen.k1_pay1
  simp only [shapeCast_self]
  simp only [addf_apply, mulf_apply, subf_apply, maximumf_apply, rsqrt_apply, broadcast_apply,
    broadcastTo_a1_ab_apply, broadcastTo_1b_ab_apply, eps_word, zero_word]
  rw [h0, h1, h2, h3, h4, h5, h6, h7]; rfl

-- The payload with residual is the one without, plus the block of the layer's input.
theorem k3_blocks {x0 x1 x8 : Vec Ideal S2000x256 .f32} {x2 : Vec Ideal S2000x1 .f32} {x3 x4 x5 x6 x7 : Vec Ideal S1x256 .f32}
    {agg h xin : S50000x256.Idx → EReal} {dinv : S50000x1.Idx → EReal} {b g be m v : S1x256.Idx → EReal}
    {y : S2000x256.Idx} {p : Fin 2000} {q : Fin 256} {n : Fin 50000} {j : Fin 256} (hy : y = ix2 p q)
    (h0 : x0 (ix2 p q) = h (ix2 n j)) (h1 : x1 (ix2 p q) = agg (ix2 n j)) (h2 : x2 (ix2 p 0) = dinv (ix2 n 0))
    (h3 : x3 (ix2 0 q) = b (ix2 0 j)) (h4 : x4 (ix2 0 q) = g (ix2 0 j)) (h5 : x5 (ix2 0 q) = be (ix2 0 j))
    (h6 : x6 (ix2 0 q) = m (ix2 0 j)) (h7 : x7 (ix2 0 q) = v (ix2 0 j)) (h8 : x8 (ix2 p q) = xin (ix2 n j)) :
    Gen.k3_pay1 x2 x1 x0 x3 x4 x7 x6 x5 x8 y = comb3 agg h dinv b g be m v xin n j := by
  show Gen.k1_pay1 x2 x1 x0 x3 x4 x7 x6 x5 y + shapeCast S2000x256 x8 _ y = _
  rw [shapeCast_self, k1_blocks hy h0 h1 h2 h3 h4 h5 h6 h7, hy, h8]; rfl

-- A node lies in the block of 2000 rows, all features, that starts at the multiple of 2000 below it.
theorem mem_rows (i : S50000x256.Idx) {off : Fin 2 → ℕ} {inb}
    (e0 : off 0 = (i 0).val / 2000 * 2000) (e1 : off 1 = 0) :
    i ∈ (Rect.unit (s := S50000x256) off S2000x256.size inb).set := by
  rw [Rect.mem_set_unit]
  intro a
  have h0 : (i 0).val < 50000 := (i 0).isLt
  have h1 : (i 1).val < 256 := (i 1).isLt
  match a with
  | ⟨0, _⟩ => show off 0 ≤ (i 0).val ∧ (i 0).val < off 0 + 2000; omega
  | ⟨1, _⟩ => show off 1 ≤ (i 1).val ∧ (i 1).val < off 1 + 256; omega

-- A row-tiled window's block index is the point on the rows and zero on the features (every such window has this index map).
theorem idx1 : ∀ t : Fin grid1.N, win1_8.index t (0 : Fin 2) = t.val ∧ win1_8.index t (1 : Fin 2) = 0 := by
  decide +kernel

end Cert.KernelIdeal.Val

end
-- ==== Proof.KernelIdeal.ValCB1.lean ====
import proofs.«415159_j89687507076125_2_alg».proof.Proof.KernelIdeal.RegCB1
import proofs.«415159_j89687507076125_2_alg».proof.Proof.KernelIdeal.ValCBPay
import Idealize.ShloMosaic.Lib.Pipeline.Value

noncomputable section

namespace Cert.KernelIdeal.Val

open Idealize.ShloMosaic Idealize.ShloMosaic.TcCoe Idealize.ShloMosaic.ValueIdx
open Cert.KernelIdeal Cert.KernelIdeal.Gen Cert.KernelIdeal.Frm

variable (V : (c : Dev nD) → (b : Ref sig .tc) → Buf (Elt Ideal) ((c : Thread nD τ).loc b)) (c : Dev nD)

-- The block the body writes is the payload of the blocks it reads.
theorem out1_8_eq (x0 x1 : Vec Ideal S2000x256 .f32) (x2 : Vec Ideal S2000x1 .f32) (x3 x4 x5 x6 x7 : Vec Ideal S1x256 .f32) :
    out1_8 x0 x1 x2 x3 x4 x5 x6 x7 = Gen.k1_pay1 x2 x1 x0 x3 x4 x7 x6 x5 := by
  unfold out1_8
  rw [View.canon_unit_zero hz]
  simp only [View.ld_unit_zero (S := S2000x256) hz, View.ld_unit_zero (S := S2000x1) hz,
    View.ld_unit_zero (S := S1x256) hz]

-- Each window's block sits at the output block's rows (a parameter row's block is the row), so the payload is the formula there.
theorem flushed1 (t : Fin cfg1.N) :
    (dat1 (F := Ideal) V c).flushed 8 t = ((cfg1.win 8).blk t).view.read (Elt Ideal) fun i : S50000x256.Idx =>
      comb1 (V c main_v23) (V c main_v12_0) (V c main_v11) (V c main_v24) (V c main_v25) (V c main_v26)
      (V c main_v27) (V c main_v28) (i 0) (i 1) := by
  show (cfg1.win 8).cut (grid1.coords t) ((dat1 V c).after 8 t) = _
  rw [after1_8, out1_8_eq]
  funext y
  rw [View.read_apply]
  exact k1_blocks (eq_ix2 y) (congrArg (V c main_v12_0) (Shape.idx_ext₂ rfl rfl))
    (congrArg (V c main_v23) (Shape.idx_ext₂ rfl rfl))
    (congrArg (V c main_v11) (Shape.idx_ext₂ rfl rfl))
    (congrArg (V c main_v24) (Shape.idx_ext₂ rfl rfl))
    (congrArg (V c main_v25) (Shape.idx_ext₂ rfl rfl))
    (congrArg (V c main_v26) (Shape.idx_ext₂ rfl rfl))
    (congrArg (V c main_v27) (Shape.idx_ext₂ rfl rfl))
    (congrArg (V c main_v28) (Shape.idx_ext₂ rfl rfl))

-- Node `n` lies in the block of the point `n / 2000`.
theorem cover1 (i : S50000x256.Idx) :
    ∃ t : Fin cfg1.N, (cfg1.win 8).flush t = true ∧ i ∈ ((cfg1.win 8).blk t).view.set := by
  have hlt : (i 0).val / 2000 < cfg1.N := Nat.div_lt_of_lt_mul (i 0).isLt
  refine ⟨⟨_, hlt⟩, flush1_8 _, ?_⟩
  show i ∈ ((View.whole main_v29).slice (win1_8.rect ⟨_, hlt⟩)).set
  rw [View.set_slice_whole]
  exact mem_rows i (congrArg (· * 2000) (idx1 _).1) (congrArg (· * 256) (idx1 _).2)

theorem val1 (n : Fin 50000) (j : Fin 256) :
    (dat1 (F := Ideal) V c).arrAt 8 cfg1.N (ix2 n j)
      = comb1 (V c main_v23) (V c main_v12_0) (V c main_v11) (V c main_v24) (V c main_v25) (V c main_v26)
          (V c main_v27) (V c main_v28) n j := by
  have h := (dat1 V c).arrAt_eq_of_cover 8 _ (fun t _ => flushed1 V c t) cover1
  exact congrFun h (ix2 n j)

end Cert.KernelIdeal.Val

end
-- ==== Proof.KernelIdeal.GlueDefs.lean ====
import proofs.«415159_j89687507076125_2_alg».proof.Proof.Gen.KernelIdeal.Launch
import proofs.«415159_j89687507076125_2_alg».proof.Proof.Spec
import Idealize.ShloMosaic.PureOps.Ideal.Laws
import Idealize.ShloMosaic.Lib.ValueIdx
import Idealize.ShloMosaic.Lib.ValueLayout

noncomputable section

namespace Cert.KernelIdeal.Glue

open Idealize.ShloMosaic Idealize.ShloMosaic.TcCoe Idealize.ShloMosaic.ValueIdx
open Cert.KernelIdeal Cert.KernelIdeal.Gen

-- the row-major position of `(i, 0)` in `[a, 1]` is `i`
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- along axis 0 the column's index `i` is the vector's, unless the vector has one entry, and then `i = 0`
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

def srcRow (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

def tgtRow (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

def normCol (s : (⟨S800000, .i32⟩ : BufTy).Contents (Elt Ideal)) : Cert.Spec.EdgeCol :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def asCol (t : (⟨S800000, .i32⟩ : BufTy).Contents (Elt Ideal)) : Cert.Spec.EdgeCol :=
  broadcastInDim S800000x1 ![0] bcast_S800000_S800000x1_0 t

def srcCol (ei : (⟨S2x800000, .i32⟩ : BufTy).Contents (Elt Ideal)) : Cert.Spec.EdgeCol := normCol (srcRow ei)

def tgtCol (ei : (⟨S2x800000, .i32⟩ : BufTy).Contents (Elt Ideal)) : Cert.Spec.EdgeCol := asCol (tgtRow ei)

def dinvV (ei : (⟨S2x800000, .i32⟩ : BufTy).Contents (Elt Ideal)) : (⟨S50000, .f32⟩ : BufTy).Contents (Elt Ideal) :=
  Host.rsqrt (F := Ideal)
    (addf (F := Ideal)
      (Host.scatterAdd (F := Ideal) scatter_S50000_S800000x1_S800000_n_0_0_1
        (broadcastInDim S50000 ![] bcast_S_S50000 (constant (F := Ideal) S_ .f32 0x00000000#32))
        (tgtCol ei)
        (broadcastInDim S800000 ![] bcast_S_S800000 (constant (F := Ideal) S_ .f32 0x3F800000#32)))
      (broadcastInDim S50000 ![] bcast_S_S50000 (constant (F := Ideal) S_ .f32 0x3F800000#32)))

def batchClip (b : (⟨S50000, .i32⟩ : BufTy).Contents (Elt Ideal)) : (⟨S50000, .i32⟩ : BufTy).Contents (Elt Ideal) :=
  minsi (broadcastInDim S50000 ![] bcast_S_S50000 (constantI S_ 32 511#32))
    (maxsi (broadcastInDim S50000 ![] bcast_S_S50000 (constantI S_ 32 0#32)) b)

def batchCol (b : (⟨S50000, .i32⟩ : BufTy).Contents (Elt Ideal)) : Cert.Spec.NodeCol :=
  shapeCast S50000x1 (batchClip b) shapeCasts_S50000_S50000x1

def cntV (b : (⟨S50000, .i32⟩ : BufTy).Contents (Elt Ideal)) : (⟨S512, .f32⟩ : BufTy).Contents (Elt Ideal) :=
  Host.scatterAdd (F := Ideal) scatter_S512_S50000x1_S50000_n_0_0_1
    (broadcastInDim S512 ![] bcast_S_S512 (constant (F := Ideal) S_ .f32 0x00000000#32))
    (broadcastInDim S50000x1 ![0] bcast_S50000_S50000x1_0 (batchClip b))
    (broadcastInDim S50000 ![] bcast_S_S50000 (constant (F := Ideal) S_ .f32 0x3F800000#32))

theorem batchClip_apply (b : (⟨S50000, .i32⟩ : BufTy).Contents (Elt Ideal)) (i : Fin 50000) :
    batchClip b (ix1 i) = IntOp.minsi 511#32 (IntOp.maxsi 0#32 (b (ix1 i))) := rfl

-- read signed, `x` is neither below `0` nor above `511`, so neither comparison fires
theorem clip_of_inRange (x : BitVec 32) (h0 : 0 ≤ x.toInt) (h1 : x.toInt < 512) :
    IntOp.minsi 511#32 (IntOp.maxsi 0#32 x) = x := by
  have a : (0#32 : BitVec 32).toInt = 0 := by decide
  have b : (511#32 : BitVec 32).toInt = 511 := by decide
  have hmax : IntOp.maxsi 0#32 x = x := if_neg (by rw [BitVec.slt_iff_toInt_lt]; omega)
  rw [hmax]
  exact if_neg (by rw [BitVec.slt_iff_toInt_lt]; omega)

theorem batchCol_of_inRange (b : (⟨S50000, .i32⟩ : BufTy).Contents (Elt Ideal))
    (hb : ∀ i : Fin 50000, 0 ≤ (b (ix1 i)).toInt ∧ (b (ix1 i)).toInt < 512) (i : Fin 50000) :
    batchCol b (ix2 i 0) = b (ix1 i) := by
  unfold batchCol
  rw [shapeCast_a_a1_apply]
  exact clip_of_inRange _ (hb i).1 (hb i).2

end Cert.KernelIdeal.Glue

end
-- ==== Proof.KernelIdeal.Glue0.lean ====
import proofs.«415159_j89687507076125_2_alg».proof.Proof.Gen.KernelIdeal.Regions
import proofs.«415159_j89687507076125_2_alg».proof.Proof.KernelIdeal.GlueDefs
import Idealize.ShloMosaic.Lib.StableHlo.Run

noncomputable section

namespace Cert.KernelIdeal.Glue

open Idealize.ShloMosaic Idealize.ShloMosaic.TcCoe Idealize.ShloMosaic.ValueIdx Idealize.ShloMosaic.StableHlo
open Cert.KernelIdeal Cert.KernelIdeal.Gen

theorem hostOps0_v1 (W : Valuation τ sig (Elt Ideal)) :
    (StableHlo.after (hostOps0 (F := Ideal)) W main_v1 : (⟨S800000, .i32⟩ : BufTy).Contents (Elt Ideal)) = srcRow (W main_arg1) := by
  after_results_simp
  rfl

theorem hostOps0_v3 (W : Valuation τ sig (Elt Ideal)) :
    (StableHlo.after (hostOps0 (F := Ideal)) W main_v3 : (⟨S800000, .i32⟩ : BufTy).Contents (Elt Ideal)) = tgtRow (W main_arg1) := by
  after_results_simp
  rfl

-- the stretch's last operation lays the inverse square-root degree vector out as a column
theorem hostOps0_v11 (W : Valuation τ sig (Elt Ideal)) (n : Fin 50000) :
    (StableHlo.after (hostOps0 (F := Ideal)) W main_v11 : (⟨S50000x1, .f32⟩ : BufTy).Contents (Elt Ideal)) (ix2 n 0)
      = dinvV (W main_arg1) (ix1 n) := by
  after_results_simp
  exact shapeCast_a_a1_apply (dinvV (W main_arg1)) _ n 0

end Cert.KernelIdeal.Glue

end
-- ==== Proof.LibGatherScatter.lean ====
import Idealize.ShloMosaic.PureOps.Ideal
import Idealize.ShloMosaic.Lib.ValueIdx

open scoped BigOperators

namespace Cert.Bridge.GS

open Idealize.ShloMosaic Idealize.ShloMosaic.ValueIdx

private theorem getElem_of_eq_singleton {β : Type} {l : List β} {b : β} (hl : l = [b]) {k : Nat} (hk : k < l.length) :
    l[k] = b := by
  subst hl
  have hk0 : k = 0 := by simpa using hk
  subst hk0; rfl

section Gather
variable {α : Type} {N E W w : Nat}

theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

end Gather

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

end Scatter

section HostForm
variable {N E W w : Nat} {φ : FTy}

theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

end HostForm

end Cert.Bridge.GS
-- ==== Proof.KernelIdeal.GlueAgg.lean ====
import proofs.«415159_j89687507076125_2_alg».proof.Proof.KernelIdeal.GlueDefs
import proofs.«415159_j89687507076125_2_alg».proof.Proof.LibGatherScatter

open scoped BigOperators

noncomputable section

namespace Cert.KernelIdeal.Glue

open Idealize.ShloMosaic Idealize.ShloMosaic.TcCoe Idealize.ShloMosaic.ValueIdx
open Cert.KernelIdeal Cert.KernelIdeal.Gen

def aggT (h : (⟨S50000x256, .bf16⟩ : BufTy).Contents (Elt Ideal)) (s t : (⟨S800000, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (asCol t)
    (extf .f32 (Host.gather gather_S50000x256_S800000x1_S800000x256_1_0_n_n_0_1_1256 h (normCol s)) bitsLt_bf16_f32)

-- the scatter's zero table adds nothing; a summand is the gather's row at the edge's source, read signed and clamped
theorem aggT_apply (h : (⟨S50000x256, .bf16⟩ : BufTy).Contents (Elt Ideal)) (ei : (⟨S2x800000, .i32⟩ : BufTy).Contents (Elt Ideal))
    (n : Fin 50000) (j : Fin 256) :
    aggT h (srcRow ei) (tgtRow ei) (ix2 n j)
      = ∑ e ∈ Cert.Spec.hits (tgtCol ei) n, h (ix2 (Cert.Spec.rowOf (srcCol ei (ix2 e 0))) j) := by
  unfold aggT
  refine (Cert.Bridge.GS.scatterAdd_apply _ rfl rfl rfl rfl _ _ _ n j).trans ?_
  have hz : ∀ x : EReal, (broadcastInDim S50000x256 ![] bcast_S_S50000x256 (constant (F := Ideal) S_ .f32 0x00000000#32)
      : S50000x256.Idx → EReal) (ix2 n j) + x = x := fun x => by
    show Ideal.ofBits .f32 0x00000000#32 + x = x
    rw [Ideal.ofBits_zero_f32, zero_add]
  refine (hz _).trans ?_
  refine Finset.sum_congr rfl fun e _ => ?_
  rw [extf_apply]
  exact Cert.Bridge.GS.gather_apply (by decide) _ rfl rfl rfl rfl rfl h _ e j

end Cert.KernelIdeal.Glue

end
-- ==== Proof.KernelIdeal.Glue1.lean ====
import proofs.«415159_j89687507076125_2_alg».proof.Proof.Gen.KernelIdeal.Regions
import proofs.«415159_j89687507076125_2_alg».proof.Proof.KernelIdeal.GlueAgg
import Idealize.ShloMosaic.Lib.StableHlo.Run

open scoped BigOperators

noncomputable section

namespace Cert.KernelIdeal.Glue

open Idealize.ShloMosaic Idealize.ShloMosaic.TcCoe Idealize.ShloMosaic.ValueIdx Idealize.ShloMosaic.StableHlo
open Cert.KernelIdeal Cert.KernelIdeal.Gen

-- the stretch's operations from the half-width table and the two edge rows compose to the aggregation term
theorem hostOps1_v23 (W : Valuation τ sig (Elt Ideal)) (ei : (⟨S2x800000, .i32⟩ : BufTy).Contents (Elt Ideal))
    (hv1 : (W main_v1 : (⟨S800000, .i32⟩ : BufTy).Contents (Elt Ideal)) = srcRow ei)
    (hv3 : (W main_v3 : (⟨S800000, .i32⟩ : BufTy).Contents (Elt Ideal)) = tgtRow ei) (n : Fin 50000) (j : Fin 256) :
    (StableHlo.after (hostOps1 (F := Ideal)) W main_v23 : (⟨S50000x256, .f32⟩ : BufTy).Contents (Elt Ideal)) (ix2 n j)
      = Finset.sum (M := EReal) (Cert.Spec.hits (tgtCol ei) n)
          fun e => W main_v12_1 (ix2 (Cert.Spec.rowOf (srcCol ei (ix2 e 0))) j) := by
  after_results_simp
  rw [hv1, hv3]
  exact aggT_apply _ ei n j

theorem hostOps1_v24 (W : Valuation τ sig (Elt Ideal)) (j : Fin 256) :
    (StableHlo.after (hostOps1 (F := Ideal)) W main_v24 : (⟨S1x256, .f32⟩ : BufTy).Contents (Elt Ideal)) (ix2 0 j)
      = (W main_arg4 : (⟨S256, .f32⟩ : BufTy).Contents (Elt Ideal)) (ix1 j) := by
  after_results_simp
  exact shapeCast_a_1a_apply _ _ 0 j

theorem hostOps1_v25 (W : Valuation τ sig (Elt Ideal)) (j : Fin 256) :
    (StableHlo.after (hostOps1 (F := Ideal)) W main_v25 : (⟨S1x256, .f32⟩ : BufTy).Contents (Elt Ideal)) (ix2 0 j)
      = (W main_arg9 : (⟨S256, .f32⟩ : BufTy).Contents (Elt Ideal)) (ix1 j) := by
  after_results_simp
  exact shapeCast_a_1a_apply _ _ 0 j

theorem hostOps1_v26 (W : Valuation τ sig (Elt Ideal)) (j : Fin 256) :
    (StableHlo.after (hostOps1 (F := Ideal)) W main_v26 : (⟨S1x256, .f32⟩ : BufTy).Contents (Elt Ideal)) (ix2 0 j)
      = (W main_arg10 : (⟨S256, .f32⟩ : BufTy).Contents (Elt Ideal)) (ix1 j) := by
  after_results_simp
  exact shapeCast_a_1a_apply _ _ 0 j

theorem hostOps1_v27 (W : Valuation τ sig (Elt Ideal)) (j : Fin 256) :
    (StableHlo.after (hostOps1 (F := Ideal)) W main_v27 : (⟨S1x256, .f32⟩ : BufTy).Contents (Elt Ideal)) (ix2 0 j)
      = (W main_arg11 : (⟨S256, .f32⟩ : BufTy).Contents (Elt Ideal)) (ix1 j) := by
  after_results_simp
  exact shapeCast_a_1a_apply _ _ 0 j

theorem hostOps1_v28 (W : Valuation τ sig (Elt Ideal)) (j : Fin 256) :
    (StableHlo.after (hostOps1 (F := Ideal)) W main_v28 : (⟨S1x256, .f32⟩ : BufTy).Contents (Elt Ideal)) (ix2 0 j)
      = (W main_arg12 : (⟨S256, .f32⟩ : BufTy).Contents (Elt Ideal)) (ix1 j) := by
  after_results_simp
  exact shapeCast_a_1a_apply _ _ 0 j

theorem hostOps1_v12_0 (W : Valuation τ sig (Elt Ideal)) : StableHlo.after (hostOps1 (F := Ideal)) W main_v12_0 = W main_v12_0 :=
  StableHlo.after_of_writes_sub (r := main_v12_0) hostOps1 W hostOps1_writes (by decide)

theorem hostOps1_v11 (W : Valuation τ sig (Elt Ideal)) : StableHlo.after (hostOps1 (F := Ideal)) W main_v11 = W main_v11 :=
  StableHlo.after_of_writes_sub (r := main_v11) hostOps1 W hostOps1_writes (by decide)

end Cert.KernelIdeal.Glue

end
-- ==== Proof.KernelIdeal.KVal1.lean ====
import proofs.«415159_j89687507076125_2_alg».proof.Proof.KernelIdeal.Records
import proofs.«415159_j89687507076125_2_alg».proof.Proof.KernelIdeal.ValMM0
import proofs.«415159_j89687507076125_2_alg».proof.Proof.KernelIdeal.ValCB1
import proofs.«415159_j89687507076125_2_alg».proof.Proof.KernelIdeal.Glue0
import proofs.«415159_j89687507076125_2_alg».proof.Proof.KernelIdeal.Glue1
import proofs.«415159_j89687507076125_2_alg».proof.Proof.Spec

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen

abbrev vec {p : ℕ} (a : (⟨1, ![p]⟩ : Shape).Idx → EReal) : Fin p → EReal := fun j => a (ix1 j)
abbrev mat {p q : ℕ} (a : (⟨2, ![p, q]⟩ : Shape).Idx → EReal) : Fin p → Fin q → EReal := fun i j => a (ix2 i j)

-- Every piece of the combine formula is rewritten to the piece of the convolution and batch norm it stands for.
theorem comb_eq {K : ℕ} (ei : (⟨S2x800000, .i32⟩ : BufTy).Contents (Elt Ideal)) {x : Fin 50000 → Fin K → EReal}
    {w : Fin K → Fin 256 → EReal} {xr : Fin 50000 → Fin 256 → EReal} {A H Ps X : S50000x256.Idx → EReal}
    {d D : S50000x1.Idx → EReal} {B G BE M V : S1x256.Idx → EReal} {b g be mu v : S256.Idx → EReal}
    (hA : ∀ n j, A (ix2 n j) = ∑ e ∈ Cert.Spec.hits (Glue.tgtCol ei) n, Ps (ix2 (Cert.Spec.rowOf (Glue.srcCol ei (ix2 e 0))) j))
    (hPs : ∀ n j, Ps (ix2 n j) = (∑ k, x n k * w k j) * d (ix2 n 0)) (hH : ∀ n j, H (ix2 n j) = ∑ k, x n k * w k j)
    (hd : ∀ n, d (ix2 n 0) = Glue.dinvV ei (ix1 n)) (hD : ∀ n, D (ix2 n 0) = Glue.dinvV ei (ix1 n))
    (hB : ∀ j, B (ix2 0 j) = b (ix1 j)) (hG : ∀ j, G (ix2 0 j) = g (ix1 j)) (hBE : ∀ j, BE (ix2 0 j) = be (ix1 j))
    (hM : ∀ j, M (ix2 0 j) = mu (ix1 j)) (hV : ∀ j, V (ix2 0 j) = v (ix1 j)) (hX : ∀ n j, X (ix2 n j) = xr n j)
    (n : Fin 50000) (j : Fin 256) :
    comb1 A H D B G BE M V n j + X (ix2 n j) = Cert.Spec.bn (Cert.Spec.conv (Glue.srcCol ei) (Glue.tgtCol ei)
      (vec (Glue.dinvV ei)) (Cert.Spec.mm x w) (vec b)) (vec g) (vec be) (vec mu) (vec v) n j + xr n j := by
  unfold comb1 Cert.Spec.bn Cert.Spec.conv Cert.Spec.agg Cert.Spec.mm
  simp only [hA, hPs, hH, hd, hD, hB, hG, hBE, hM, hV, hX]

variable {m : (ℓ : Loc nD τ sig) → Buf (Elt Ideal) ℓ} {c : Dev nD}

abbrev Wr : List (Ref sig .tc) := hostOps1_W ++ hostOps3_W ++ hostOps5_W ++
  [main_v12_0, main_v12_1, main_v29, main_v30_0, main_v30_1, main_v47, main_v48_0, main_v48_1]

variable (m c) in
def Base (W : Valuation τ sig (Elt Ideal)) : Prop := ∀ r : Ref sig .tc, r ∉ Wr → W r = Frm.U1 m c r

section
variable {W : Valuation τ sig (Elt Ideal)} (h : Base m c W)
include h

-- Changing an array of `Wr` changes nothing outside `Wr`.
theorem Base.upd (a : Ref sig .tc) (ha : a ∈ Wr) (x) : Base m c (Function.update W a x) := fun r hr =>
  (Function.update_of_ne (StableHlo.devRef_ne_of_ne (τ := τ) (ne_of_mem_of_not_mem ha hr).symm) x W).trans (h r hr)

-- Operations whose results lie in `Wr` change nothing outside `Wr`.
theorem Base.after {L : List (Ref sig .tc)} (ops : List (HloOp τ sig (Elt Ideal)))
    (hw : ops.Forall fun op => op.writes ⊆ (L.map (Proc.devRef (τ := τ) .tc)).toFinset) (hL : L ⊆ Wr) :
    Base m c (StableHlo.after ops W) := fun r hr =>
  (StableHlo.after_of_writes_sub ops W hw fun hm => hr (hL hm)).trans (h r hr)

theorem Base.v1 : (W main_v1 : (⟨S800000, .i32⟩ : BufTy).Contents (Elt Ideal)) = Glue.srcRow (m ((c : Thread nD τ).loc main_arg1)) :=
  (h main_v1 (by decide)).trans (Glue.hostOps0_v1 (V0 m c))

theorem Base.v3 : (W main_v3 : (⟨S800000, .i32⟩ : BufTy).Contents (Elt Ideal)) = Glue.tgtRow (m ((c : Thread nD τ).loc main_arg1)) :=
  (h main_v3 (by decide)).trans (Glue.hostOps0_v3 (V0 m c))

theorem Base.v11 (n : Fin 50000) : (W main_v11 : (⟨S50000x1, .f32⟩ : BufTy).Contents (Elt Ideal)) (ix2 n 0)
    = Glue.dinvV (m ((c : Thread nD τ).loc main_arg1)) (ix1 n) :=
  (congrFun (h main_v11 (by decide)) _).trans (Glue.hostOps0_v11 (V0 m c) n)

theorem Base.arg (r : Ref sig .tc) (hr : r ∉ hostOps0_W ++ Wr) : W r = m ((c : Thread nD τ).loc r) :=
  (h r fun e => hr (List.mem_append_right _ e)).trans (V1_of m c r fun e => hr (List.mem_append_left _ e))

end

theorem upd2_ne {W : Valuation τ sig (Elt Ideal)} {a b r : Ref sig .tc} (ha : r ≠ a) (hb : r ≠ b) (x y) :
    Function.update (Function.update W a x) b y r = W r :=
  (Function.update_of_ne (StableHlo.devRef_ne_of_ne (τ := τ) hb) y _).trans
    (Function.update_of_ne (StableHlo.devRef_ne_of_ne (τ := τ) ha) x W)

theorem base1 : Base m c (Frm.U1 m c) := fun _ _ => rfl
theorem base2 : Base m c (Frm.U2 m c) := (base1.upd _ (by decide) _).upd _ (by decide) _
theorem base3 : Base m c (Frm.U3 m c) := base2.after _ hostOps1_writes (by decide)
theorem base4 : Base m c (Frm.U4 m c) := base3.upd _ (by decide) _

variable (m c)

-- The first layer's array after the first combine region is the first layer of the program's argument arrays.
theorem kval1 (n : Fin 50000) (j : Fin 256) : (Frm.U4 m c main_v29 : (⟨S50000x256, .f32⟩ : BufTy).Contents (Elt Ideal)) (ix2 n j)
    = Cert.Spec.layer1 (Glue.srcCol (m ((c : Thread nD τ).loc main_arg1))) (Glue.tgtCol (m ((c : Thread nD τ).loc main_arg1))) (vec (Glue.dinvV (m ((c : Thread nD τ).loc main_arg1))))
        (mat (m ((c : Thread nD τ).loc main_arg0))) (mat (m ((c : Thread nD τ).loc main_arg3))) (vec (m ((c : Thread nD τ).loc main_arg4))) (vec (m ((c : Thread nD τ).loc main_arg9)))
        (vec (m ((c : Thread nD τ).loc main_arg10))) (vec (m ((c : Thread nD τ).loc main_arg11))) (vec (m ((c : Thread nD τ).loc main_arg12))) n j := by
  rw [← Frm.hF1_8 m c]
  refine (val1 (Frm.T3 m) c n j).trans ?_
  have h := comb_eq (m ((c : Thread nD τ).loc main_arg1)) (X := fun _ => 0)
    (Glue.hostOps1_v23 (Frm.U2 m c) _ base2.v1 base2.v3)
    (fun r i => (congrFun (Frm.hF0_4 m c) _).symm.trans (val0_hs (Frm.T1 m) c (base1.arg main_arg0 (by decide)) (base1.arg main_arg3 (by decide)) rfl r i))
    (fun r i => (congrFun ((StableHlo.after_of_writes_sub hostOps1 _ hostOps1_writes (by decide)).trans (Frm.hF0_3 m c).symm) _).trans
      (val0_h (Frm.T1 m) c (base1.arg main_arg0 (by decide)) (base1.arg main_arg3 (by decide)) r i))
    base1.v11 base3.v11
    (fun i => (Glue.hostOps1_v24 (Frm.U2 m c) i).trans (congrFun (base2.arg main_arg4 (by decide)) _))
    (fun i => (Glue.hostOps1_v25 (Frm.U2 m c) i).trans (congrFun (base2.arg main_arg9 (by decide)) _))
    (fun i => (Glue.hostOps1_v26 (Frm.U2 m c) i).trans (congrFun (base2.arg main_arg10 (by decide)) _))
    (fun i => (Glue.hostOps1_v27 (Frm.U2 m c) i).trans (congrFun (base2.arg main_arg11 (by decide)) _))
    (fun i => (Glue.hostOps1_v28 (Frm.U2 m c) i).trans (congrFun (base2.arg main_arg12 (by decide)) _))
    (fun _ _ => rfl) n j
  rwa [add_zero, add_zero] at h

end Cert.KernelIdeal.Val

end
-- ==== Proof.KernelIdeal.ValMM2.lean ====
import proofs.«415159_j89687507076125_2_alg».proof.Proof.KernelIdeal.RegMM2
import proofs.«415159_j89687507076125_2_alg».proof.Proof.KernelIdeal.ValMMPay
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b)) (c : Dev nD)

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

-- Block `t` of a row-tiled input is rows `2000 t` onwards of its array.
theorem iblk2_0_apply (t : Fin cfg2.N) (p : Fin 2000) (k : Fin 256) (n : Fin 50000) (hn : n.val = t.val * 2000 + p.val) :
    (iblk2 (F := Ideal) V c 0 t : S2000x256.Idx → EReal) (ix2 p k) = (V c main_v29 : S50000x256.Idx → EReal) (ix2 n k) := by
  obtain ⟨e0, e1, -⟩ := idx_facts2 t
  unfold iblk2
  rw [View.read_apply]
  show (V c main_v29 : S50000x256.Idx → EReal) _ = _
  refine congrArg _ (funext fun a => Fin.ext ?_)
  match a with
  | ⟨0, _⟩ => show win2_0.index t (0 : Fin 2) * 2000 + 1 * p.val = n.val; rw [e0, hn]; omega
  | ⟨1, _⟩ => show win2_0.index t (1 : Fin 2) * 256 + 1 * k.val = k.val; rw [e1]; omega

theorem iblk2_1_apply (t : Fin cfg2.N) (k : Fin 256) (q : Fin 256) :
    (iblk2 (F := Ideal) V c 1 t : S256x256.Idx → EReal) (ix2 k q) = (V c main_arg5 : S256x256.Idx → EReal) (ix2 k q) := by
  obtain ⟨-, -, e0, e1, -⟩ := idx_facts2 t
  unfold iblk2
  rw [View.read_apply]
  show (V c main_arg5 : S256x256.Idx → EReal) _ = _
  refine congrArg _ (funext fun a => Fin.ext ?_)
  match a with
  | ⟨0, _⟩ => show win2_1.index t (0 : Fin 2) * 256 + 1 * k.val = k.val; rw [e0]; omega
  | ⟨1, _⟩ => show win2_1.index t (1 : Fin 2) * 256 + 1 * q.val = q.val; rw [e1]; omega

theorem iblk2_2_apply (t : Fin cfg2.N) (p : Fin 2000) (n : Fin 50000) (hn : n.val = t.val * 2000 + p.val) :
    (iblk2 (F := Ideal) V c 2 t : S2000x1.Idx → EReal) (ix2 p 0) = (V c main_v11 : S50000x1.Idx → EReal) (ix2 n 0) := by
  obtain ⟨-, -, -, -, e0, e1, -⟩ := idx_facts2 t
  unfold iblk2
  rw [View.read_apply]
  show (V c main_v11 : S50000x1.Idx → EReal) _ = _
  refine congrArg _ (funext fun a => Fin.ext ?_)
  match a with
  | ⟨0, _⟩ => show win2_2.index t (0 : Fin 2) * 2000 + 1 * p.val = n.val; rw [e0, hn]; omega
  | ⟨1, _⟩ => show win2_2.index t (1 : Fin 2) * 1 + 1 * 0 = 0; rw [e1]

-- Element `(p, q)` of either output's block `t` is the array's element `(2000 t + p, q)`.
theorem emb2 (t : Fin cfg2.N) (p : Fin 2000) (q : Fin 256) (n : Fin 50000) (hn : n.val = t.val * 2000 + p.val) :
    (((cfg2.win 3).blk t).view.emb (ix2 p q) : S50000x256.Idx) = ix2 n q
    ∧ (((cfg2.win 4).blk t).view.emb (ix2 p q) : S50000x256.Idx) = ix2 n q := by
  obtain ⟨-, -, -, -, -, -, e0, e1, e2, e3⟩ := idx_facts2 t
  refine ⟨Shape.idx_ext₂ ?_ ?_, Shape.idx_ext₂ ?_ ?_⟩
  · show win2_3.index t (0 : Fin 2) * 2000 + 1 * p.val = n.val; rw [e0, hn]; omega
  · show win2_3.index t (1 : Fin 2) * 256 + 1 * q.val = q.val; rw [e1]; omega
  · show win2_4.index t (0 : Fin 2) * 2000 + 1 * p.val = n.val; rw [e2, hn]; omega
  · show win2_4.index t (1 : Fin 2) * 256 + 1 * q.val = q.val; rw [e3]; omega

-- Block `t` of each output is block `t` of the contraction of the region-entry factors, entry by entry.
theorem flushed2_3_eq (t : Fin cfg2.N) :
    (dat2 (F := Ideal) V c).flushed 3 t = ((cfg2.win 3).blk t).view.read (Elt Ideal) (mmOut (K := 256) (V c main_v29) (V c main_arg5)) := by
  show (cfg2.win 3).cut (grid2.coords t) ((dat2 V c).after 3 t) = _
  rw [after2_3]
  unfold out2_3
  rw [View.canon_unit_zero mm_hz]
  simp only [View.ld_unit_zero (S := S2000x256) mm_hz, View.ld_unit_zero (S := S256x256) mm_hz]
  funext y
  obtain ⟨p, q, rfl⟩ : ∃ (p : Fin 2000) (q : Fin 256), y = ix2 p q := ⟨y 0, y 1, eq_ix2 y⟩
  rw [View.read_apply]
  show k2_pay1 (F := Ideal) (iblk2 V c 0 t) (iblk2 V c 1 t) (ix2 p q) = mmOut (K := 256) (V c main_v29) (V c main_arg5) (((cfg2.win 3).blk t).view.emb (ix2 p q))
  refine (k2_pay1_apply _ _ p q).trans ?_
  obtain ⟨n, hn⟩ := tile_row N_2 t p
  rw [(emb2 t p q n hn).1, mmOut_apply]
  refine Finset.sum_congr rfl fun k _ => ?_
  rw [iblk2_0_apply V c t p k n hn, iblk2_1_apply V c t k q]

theorem flushed2_4_eq (t : Fin cfg2.N) :
    (dat2 (F := Ideal) V c).flushed 4 t = ((cfg2.win 4).blk t).view.read (Elt Ideal) (mmOutS (K := 256) (V c main_v29) (V c main_arg5) (V c main_v11)) := by
  show (cfg2.win 4).cut (grid2.coords t) ((dat2 V c).after 4 t) = _
  rw [after2_4]
  unfold out2_4
  rw [View.canon_unit_zero mm_hz]
  simp only [View.ld_unit_zero (S := S2000x256) mm_hz, View.ld_unit_zero (S := S256x256) mm_hz, View.ld_unit_zero (S := S2000x1) mm_hz]
  funext y
  obtain ⟨p, q, rfl⟩ : ∃ (p : Fin 2000) (q : Fin 256), y = ix2 p q := ⟨y 0, y 1, eq_ix2 y⟩
  rw [View.read_apply]
  show k2_pay2 (F := Ideal) (iblk2 V c 0 t) (iblk2 V c 1 t) (iblk2 V c 2 t) (ix2 p q) = mmOutS (K := 256) (V c main_v29) (V c main_arg5) (V c main_v11) (((cfg2.win 4).blk t).view.emb (ix2 p q))
  refine (k2_pay2_apply _ _ _ p q).trans ?_
  obtain ⟨n, hn⟩ := tile_row N_2 t p
  rw [(emb2 t p q n hn).2, mmOutS_apply, iblk2_2_apply V c t p n hn]
  refine congrArg (· * _) (Finset.sum_congr rfl fun k _ => ?_)
  rw [iblk2_0_apply V c t p k n hn, iblk2_1_apply V c t k q]

-- Row `n` lies in block `n / 2000`, whose entries are those of the contraction.
theorem val2_h {x : S50000x256.Idx → EReal} {w : S256x256.Idx → EReal}
    (hx : (V c main_v29 : S50000x256.Idx → EReal) = x) (hw : (V c main_arg5 : S256x256.Idx → EReal) = w)
    (n : Fin 50000) (j : Fin 256) :
    (dat2 (F := Ideal) V c).arrAt 3 cfg2.N (ix2 n j) = ∑ k : Fin 256, x (ix2 n k) * w (ix2 k j) := by
  subst hx; subst hw
  obtain ⟨t, p, hn⟩ := tile_rows N_2 n
  exact arrAt_of_emb (dat2 (F := Ideal) V c) 3 _ (flushed2_3_eq V c) flush2_3 t (ix2 p j) (emb2 t p j n hn).1

theorem val2_hs {x : S50000x256.Idx → EReal} {w : S256x256.Idx → EReal} {d : S50000x1.Idx → EReal}
    (hx : (V c main_v29 : S50000x256.Idx → EReal) = x) (hw : (V c main_arg5 : S256x256.Idx → EReal) = w)
    (hd : (V c main_v11 : S50000x1.Idx → EReal) = d) (n : Fin 50000) (j : Fin 256) :
    (dat2 (F := Ideal) V c).arrAt 4 cfg2.N (ix2 n j) = (∑ k : Fin 256, x (ix2 n k) * w (ix2 k j)) * d (ix2 n 0) := by
  subst hx; subst hw; subst hd
  obtain ⟨t, p, hn⟩ := tile_rows N_2 n
  exact arrAt_of_emb (dat2 (F := Ideal) V c) 4 _ (flushed2_4_eq V c) flush2_4 t (ix2 p j) (emb2 t p j n hn).2

end Cert.KernelIdeal.Val

end
-- ==== Proof.KernelIdeal.ValCB3.lean ====
import proofs.«415159_j89687507076125_2_alg».proof.Proof.KernelIdeal.RegCB3
import proofs.«415159_j89687507076125_2_alg».proof.Proof.KernelIdeal.ValCB1
import Idealize.ShloMosaic.Lib.Pipeline.Value

noncomputable section

namespace Cert.KernelIdeal.Val

open Idealize.ShloMosaic Idealize.ShloMosaic.TcCoe Idealize.ShloMosaic.ValueIdx
open Cert.KernelIdeal Cert.KernelIdeal.Gen Cert.KernelIdeal.Frm

variable (V : (c : Dev nD) → (b : Ref sig .tc) → Buf (Elt Ideal) ((c : Thread nD τ).loc b)) (c : Dev nD)

-- The block the body writes is the payload of the blocks it reads.
theorem out3_9_eq (x0 x1 : Vec Ideal S2000x256 .f32) (x2 : Vec Ideal S2000x1 .f32) (x3 x4 x5 x6 x7 : Vec Ideal S1x256 .f32)
    (x8 : Vec Ideal S2000x256 .f32) :
    out3_9 x0 x1 x2 x3 x4 x5 x6 x7 x8 = Gen.k3_pay1 x2 x1 x0 x3 x4 x7 x6 x5 x8 := by
  unfold out3_9
  rw [View.canon_unit_zero hz]
  simp only [View.ld_unit_zero (S := S2000x256) hz, View.ld_unit_zero (S := S2000x1) hz,
    View.ld_unit_zero (S := S1x256) hz]

-- Each window's block sits at the output block's rows (a parameter row's block is the row), so the payload is the formula there.
theorem flushed3 (t : Fin cfg3.N) :
    (dat3 (F := Ideal) V c).flushed 9 t = ((cfg3.win 9).blk t).view.read (Elt Ideal) fun i : S50000x256.Idx =>
      comb3 (V c main_v41) (V c main_v30_0) (V c main_v11) (V c main_v42) (V c main_v43) (V c main_v44)
      (V c main_v45) (V c main_v46) (V c main_v29) (i 0) (i 1) := by
  show (cfg3.win 9).cut (grid3.coords t) ((dat3 V c).after 9 t) = _
  rw [after3_9, out3_9_eq]
  funext y
  rw [View.read_apply]
  exact k3_blocks (eq_ix2 y) (congrArg (V c main_v30_0) (Shape.idx_ext₂ rfl rfl))
    (congrArg (V c main_v41) (Shape.idx_ext₂ rfl rfl))
    (congrArg (V c main_v11) (Shape.idx_ext₂ rfl rfl))
    (congrArg (V c main_v42) (Shape.idx_ext₂ rfl rfl))
    (congrArg (V c main_v43) (Shape.idx_ext₂ rfl rfl))
    (congrArg (V c main_v44) (Shape.idx_ext₂ rfl rfl))
    (congrArg (V c main_v45) (Shape.idx_ext₂ rfl rfl))
    (congrArg (V c main_v46) (Shape.idx_ext₂ rfl rfl))
    (congrArg (V c main_v29) (Shape.idx_ext₂ rfl rfl))

-- Region 1's output window and this one have the same blocks, so its cover serves.
theorem val3 (n : Fin 50000) (j : Fin 256) :
    (dat3 (F := Ideal) V c).arrAt 9 cfg3.N (ix2 n j)
      = comb3 (V c main_v41) (V c main_v30_0) (V c main_v11) (V c main_v42) (V c main_v43) (V c main_v44)
          (V c main_v45) (V c main_v46) (V c main_v29) n j := by
  have h := (dat3 V c).arrAt_eq_of_cover 9 _ (fun t _ => flushed3 V c t) cover1
  exact congrFun h (ix2 n j)

end Cert.KernelIdeal.Val

end
-- ==== Proof.KernelIdeal.Glue3.lean ====
import proofs.«415159_j89687507076125_2_alg».proof.Proof.Gen.KernelIdeal.Regions
import proofs.«415159_j89687507076125_2_alg».proof.Proof.KernelIdeal.GlueAgg
import Idealize.ShloMosaic.Lib.StableHlo.Run

open scoped BigOperators

noncomputable section

namespace Cert.KernelIdeal.Glue

open Idealize.ShloMosaic Idealize.ShloMosaic.TcCoe Idealize.ShloMosaic.ValueIdx Idealize.ShloMosaic.StableHlo
open Cert.KernelIdeal Cert.KernelIdeal.Gen

-- the stretch's operations from the half-width table and the two edge rows compose to the aggregation term
theorem hostOps3_v41 (W : Valuation τ sig (Elt Ideal)) (ei : (⟨S2x800000, .i32⟩ : BufTy).Contents (Elt Ideal))
    (hv1 : (W main_v1 : (⟨S800000, .i32⟩ : BufTy).Contents (Elt Ideal)) = srcRow ei)
    (hv3 : (W main_v3 : (⟨S800000, .i32⟩ : BufTy).Contents (Elt Ideal)) = tgtRow ei) (n : Fin 50000) (j : Fin 256) :
    (StableHlo.after (hostOps3 (F := Ideal)) W main_v41 : (⟨S50000x256, .f32⟩ : BufTy).Contents (Elt Ideal)) (ix2 n j)
      = Finset.sum (M := EReal) (Cert.Spec.hits (tgtCol ei) n)
          fun e => W main_v30_1 (ix2 (Cert.Spec.rowOf (srcCol ei (ix2 e 0))) j) := by
  after_results_simp
  rw [hv1, hv3]
  exact aggT_apply _ ei n j

theorem hostOps3_v42 (W : Valuation τ sig (Elt Ideal)) (j : Fin 256) :
    (StableHlo.after (hostOps3 (F := Ideal)) W main_v42 : (⟨S1x256, .f32⟩ : BufTy).Contents (Elt Ideal)) (ix2 0 j)
      = (W main_arg6 : (⟨S256, .f32⟩ : BufTy).Contents (Elt Ideal)) (ix1 j) := by
  after_results_simp
  exact shapeCast_a_1a_apply _ _ 0 j

theorem hostOps3_v43 (W : Valuation τ sig (Elt Ideal)) (j : Fin 256) :
    (StableHlo.after (hostOps3 (F := Ideal)) W main_v43 : (⟨S1x256, .f32⟩ : BufTy).Contents (Elt Ideal)) (ix2 0 j)
      = (W main_arg13 : (⟨S256, .f32⟩ : BufTy).Contents (Elt Ideal)) (ix1 j) := by
  after_results_simp
  exact shapeCast_a_1a_apply _ _ 0 j

theorem hostOps3_v44 (W : Valuation τ sig (Elt Ideal)) (j : Fin 256) :
    (StableHlo.after (hostOps3 (F := Ideal)) W main_v44 : (⟨S1x256, .f32⟩ : BufTy).Contents (Elt Ideal)) (ix2 0 j)
      = (W main_arg14 : (⟨S256, .f32⟩ : BufTy).Contents (Elt Ideal)) (ix1 j) := by
  after_results_simp
  exact shapeCast_a_1a_apply _ _ 0 j

theorem hostOps3_v45 (W : Valuation τ sig (Elt Ideal)) (j : Fin 256) :
    (StableHlo.after (hostOps3 (F := Ideal)) W main_v45 : (⟨S1x256, .f32⟩ : BufTy).Contents (Elt Ideal)) (ix2 0 j)
      = (W main_arg15 : (⟨S256, .f32⟩ : BufTy).Contents (Elt Ideal)) (ix1 j) := by
  after_results_simp
  exact shapeCast_a_1a_apply _ _ 0 j

theorem hostOps3_v46 (W : Valuation τ sig (Elt Ideal)) (j : Fin 256) :
    (StableHlo.after (hostOps3 (F := Ideal)) W main_v46 : (⟨S1x256, .f32⟩ : BufTy).Contents (Elt Ideal)) (ix2 0 j)
      = (W main_arg16 : (⟨S256, .f32⟩ : BufTy).Contents (Elt Ideal)) (ix1 j) := by
  after_results_simp
  exact shapeCast_a_1a_apply _ _ 0 j

end Cert.KernelIdeal.Glue

end
-- ==== Proof.KernelIdeal.KVal2.lean ====
import proofs.«415159_j89687507076125_2_alg».proof.Proof.KernelIdeal.KVal1
import proofs.«415159_j89687507076125_2_alg».proof.Proof.KernelIdeal.ValMM2
import proofs.«415159_j89687507076125_2_alg».proof.Proof.KernelIdeal.ValCB3
import proofs.«415159_j89687507076125_2_alg».proof.Proof.KernelIdeal.Glue3

namespace Cert.KernelIdeal.Val

open Idealize.ShloMosaic Idealize.ShloMosaic.TcCoe Idealize.ShloMosaic.ValueIdx Idealize.SL.Sem
open Cert.KernelIdeal Cert.KernelIdeal.Gen

variable {m : (ℓ : Loc nD τ sig) → Buf (Elt Ideal) ℓ} {c : Dev nD}

theorem base5 : Base m c (Frm.U5 m c) := (base4.upd _ (by decide) _).upd _ (by decide) _
theorem base6 : Base m c (Frm.U6 m c) := base5.after _ hostOps3_writes (by decide)
theorem base7 : Base m c (Frm.U7 m c) := base6.upd _ (by decide) _

variable (m c)

-- The second layer's array after its combine region is the residual layer of the first layer's array.
theorem kval2 (n : Fin 50000) (j : Fin 256) : (Frm.U7 m c main_v47 : (⟨S50000x256, .f32⟩ : BufTy).Contents (Elt Ideal)) (ix2 n j)
    = Cert.Spec.layerR (Glue.srcCol (m ((c : Thread nD τ).loc main_arg1))) (Glue.tgtCol (m ((c : Thread nD τ).loc main_arg1))) (vec (Glue.dinvV (m ((c : Thread nD τ).loc main_arg1))))
        (fun n j => (Frm.U4 m c main_v29 : (⟨S50000x256, .f32⟩ : BufTy).Contents (Elt Ideal)) (ix2 n j)) (mat (m ((c : Thread nD τ).loc main_arg5)))
        (vec (m ((c : Thread nD τ).loc main_arg6))) (vec (m ((c : Thread nD τ).loc main_arg13))) (vec (m ((c : Thread nD τ).loc main_arg14))) (vec (m ((c : Thread nD τ).loc main_arg15))) (vec (m ((c : Thread nD τ).loc main_arg16))) n j := by
  rw [← Frm.hF3_9 m c]
  refine (val3 (Frm.T6 m) c n j).trans (comb_eq (m ((c : Thread nD τ).loc main_arg1))
    (Glue.hostOps3_v41 (Frm.U5 m c) _ base5.v1 base5.v3)
    (fun r i => (congrFun (Frm.hF2_4 m c) _).symm.trans (val2_hs (Frm.T4 m) c rfl (base4.arg main_arg5 (by decide)) rfl r i))
    (fun r i => (congrFun ((StableHlo.after_of_writes_sub hostOps3 _ hostOps3_writes (by decide)).trans (Frm.hF2_3 m c).symm) _).trans
      (val2_h (Frm.T4 m) c rfl (base4.arg main_arg5 (by decide)) r i))
    base4.v11 base6.v11
    (fun i => (Glue.hostOps3_v42 (Frm.U5 m c) i).trans (congrFun (base5.arg main_arg6 (by decide)) _))
    (fun i => (Glue.hostOps3_v43 (Frm.U5 m c) i).trans (congrFun (base5.arg main_arg13 (by decide)) _))
    (fun i => (Glue.hostOps3_v44 (Frm.U5 m c) i).trans (congrFun (base5.arg main_arg14 (by decide)) _))
    (fun i => (Glue.hostOps3_v45 (Frm.U5 m c) i).trans (congrFun (base5.arg main_arg15 (by decide)) _))
    (fun i => (Glue.hostOps3_v46 (Frm.U5 m c) i).trans (congrFun (base5.arg main_arg16 (by decide)) _))
    (fun r i => congrFun ((StableHlo.after_of_writes_sub hostOps3 _ hostOps3_writes (by decide)).trans
      (upd2_ne (by decide) (by decide) _ _ : Frm.U5 m c main_v29 = Frm.U4 m c main_v29)) _) n j)

end Cert.KernelIdeal.Val
-- ==== Proof.KernelIdeal.ValMM4.lean ====
import proofs.«415159_j89687507076125_2_alg».proof.Proof.KernelIdeal.RegMM4
import proofs.«415159_j89687507076125_2_alg».proof.Proof.KernelIdeal.ValMMPay
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable (V : (c : Dev nD) → (b : Ref sig .tc) → Buf (Elt Ideal) ((c : Thread nD τ).loc b)) (c : Dev nD)

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

-- Block `t` of a row-tiled input is rows `2000 t` onwards of its array.
theorem iblk4_0_apply (t : Fin cfg4.N) (p : Fin 2000) (k : Fin 256) (n : Fin 50000) (hn : n.val = t.val * 2000 + p.val) :
    (iblk4 (F := Ideal) V c 0 t : S2000x256.Idx → EReal) (ix2 p k) = (V c main_v47 : S50000x256.Idx → EReal) (ix2 n k) := by
  obtain ⟨e0, e1, -⟩ := idx_facts4 t
  unfold iblk4
  rw [View.read_apply]
  show (V c main_v47 : S50000x256.Idx → EReal) _ = _
  refine congrArg _ (funext fun a => Fin.ext ?_)
  match a with
  | ⟨0, _⟩ => show win4_0.index t (0 : Fin 2) * 2000 + 1 * p.val = n.val; rw [e0, hn]; omega
  | ⟨1, _⟩ => show win4_0.index t (1 : Fin 2) * 256 + 1 * k.val = k.val; rw [e1]; omega

theorem iblk4_1_apply (t : Fin cfg4.N) (k : Fin 256) (q : Fin 256) :
    (iblk4 (F := Ideal) V c 1 t : S256x256.Idx → EReal) (ix2 k q) = (V c main_arg7 : S256x256.Idx → EReal) (ix2 k q) := by
  obtain ⟨-, -, e0, e1, -⟩ := idx_facts4 t
  unfold iblk4
  rw [View.read_apply]
  show (V c main_arg7 : S256x256.Idx → EReal) _ = _
  refine congrArg _ (funext fun a => Fin.ext ?_)
  match a with
  | ⟨0, _⟩ => show win4_1.index t (0 : Fin 2) * 256 + 1 * k.val = k.val; rw [e0]; omega
  | ⟨1, _⟩ => show win4_1.index t (1 : Fin 2) * 256 + 1 * q.val = q.val; rw [e1]; omega

theorem iblk4_2_apply (t : Fin cfg4.N) (p : Fin 2000) (n : Fin 50000) (hn : n.val = t.val * 2000 + p.val) :
    (iblk4 (F := Ideal) V c 2 t : S2000x1.Idx → EReal) (ix2 p 0) = (V c main_v11 : S50000x1.Idx → EReal) (ix2 n 0) := by
  obtain ⟨-, -, -, -, e0, e1, -⟩ := idx_facts4 t
  unfold iblk4
  rw [View.read_apply]
  show (V c main_v11 : S50000x1.Idx → EReal) _ = _
  refine congrArg _ (funext fun a => Fin.ext ?_)
  match a with
  | ⟨0, _⟩ => show win4_2.index t (0 : Fin 2) * 2000 + 1 * p.val = n.val; rw [e0, hn]; omega
  | ⟨1, _⟩ => show win4_2.index t (1 : Fin 2) * 1 + 1 * 0 = 0; rw [e1]

-- Element `(p, q)` of either output's block `t` is the array's element `(2000 t + p, q)`.
theorem emb4 (t : Fin cfg4.N) (p : Fin 2000) (q : Fin 256) (n : Fin 50000) (hn : n.val = t.val * 2000 + p.val) :
    (((cfg4.win 3).blk t).view.emb (ix2 p q) : S50000x256.Idx) = ix2 n q
    ∧ (((cfg4.win 4).blk t).view.emb (ix2 p q) : S50000x256.Idx) = ix2 n q := by
  obtain ⟨-, -, -, -, -, -, e0, e1, e2, e3⟩ := idx_facts4 t
  refine ⟨Shape.idx_ext₂ ?_ ?_, Shape.idx_ext₂ ?_ ?_⟩
  · show win4_3.index t (0 : Fin 2) * 2000 + 1 * p.val = n.val; rw [e0, hn]; omega
  · show win4_3.index t (1 : Fin 2) * 256 + 1 * q.val = q.val; rw [e1]; omega
  · show win4_4.index t (0 : Fin 2) * 2000 + 1 * p.val = n.val; rw [e2, hn]; omega
  · show win4_4.index t (1 : Fin 2) * 256 + 1 * q.val = q.val; rw [e3]; omega

-- Block `t` of each output is block `t` of the contraction of the region-entry factors, entry by entry.
theorem flushed4_3_eq (t : Fin cfg4.N) :
    (dat4 (F := Ideal) V c).flushed 3 t = ((cfg4.win 3).blk t).view.read (Elt Ideal) (mmOut (K := 256) (V c main_v47) (V c main_arg7)) := by
  show (cfg4.win 3).cut (grid4.coords t) ((dat4 V c).after 3 t) = _
  rw [after4_3]
  unfold out4_3
  rw [View.canon_unit_zero mm_hz]
  simp only [View.ld_unit_zero (S := S2000x256) mm_hz, View.ld_unit_zero (S := S256x256) mm_hz]
  funext y
  obtain ⟨p, q, rfl⟩ : ∃ (p : Fin 2000) (q : Fin 256), y = ix2 p q := ⟨y 0, y 1, eq_ix2 y⟩
  rw [View.read_apply]
  show k2_pay1 (F := Ideal) (iblk4 V c 0 t) (iblk4 V c 1 t) (ix2 p q) = mmOut (K := 256) (V c main_v47) (V c main_arg7) (((cfg4.win 3).blk t).view.emb (ix2 p q))
  refine (k2_pay1_apply _ _ p q).trans ?_
  obtain ⟨n, hn⟩ := tile_row N_4 t p
  rw [(emb4 t p q n hn).1, mmOut_apply]
  refine Finset.sum_congr rfl fun k _ => ?_
  rw [iblk4_0_apply V c t p k n hn, iblk4_1_apply V c t k q]

theorem flushed4_4_eq (t : Fin cfg4.N) :
    (dat4 (F := Ideal) V c).flushed 4 t = ((cfg4.win 4).blk t).view.read (Elt Ideal) (mmOutS (K := 256) (V c main_v47) (V c main_arg7) (V c main_v11)) := by
  show (cfg4.win 4).cut (grid4.coords t) ((dat4 V c).after 4 t) = _
  rw [after4_4]
  unfold out4_4
  rw [View.canon_unit_zero mm_hz]
  simp only [View.ld_unit_zero (S := S2000x256) mm_hz, View.ld_unit_zero (S := S256x256) mm_hz, View.ld_unit_zero (S := S2000x1) mm_hz]
  funext y
  obtain ⟨p, q, rfl⟩ : ∃ (p : Fin 2000) (q : Fin 256), y = ix2 p q := ⟨y 0, y 1, eq_ix2 y⟩
  rw [View.read_apply]
  show k2_pay2 (F := Ideal) (iblk4 V c 0 t) (iblk4 V c 1 t) (iblk4 V c 2 t) (ix2 p q) = mmOutS (K := 256) (V c main_v47) (V c main_arg7) (V c main_v11) (((cfg4.win 4).blk t).view.emb (ix2 p q))
  refine (k2_pay2_apply _ _ _ p q).trans ?_
  obtain ⟨n, hn⟩ := tile_row N_4 t p
  rw [(emb4 t p q n hn).2, mmOutS_apply, iblk4_2_apply V c t p n hn]
  refine congrArg (· * _) (Finset.sum_congr rfl fun k _ => ?_)
  rw [iblk4_0_apply V c t p k n hn, iblk4_1_apply V c t k q]

-- Row `n` lies in block `n / 2000`, whose entries are those of the contraction.
theorem val4_h {x : S50000x256.Idx → EReal} {w : S256x256.Idx → EReal}
    (hx : (V c main_v47 : S50000x256.Idx → EReal) = x) (hw : (V c main_arg7 : S256x256.Idx → EReal) = w)
    (n : Fin 50000) (j : Fin 256) :
    (dat4 (F := Ideal) V c).arrAt 3 cfg4.N (ix2 n j) = ∑ k : Fin 256, x (ix2 n k) * w (ix2 k j) := by
  subst hx; subst hw
  obtain ⟨t, p, hn⟩ := tile_rows N_4 n
  exact arrAt_of_emb (dat4 (F := Ideal) V c) 3 _ (flushed4_3_eq V c) flush4_3 t (ix2 p j) (emb4 t p j n hn).1

theorem val4_hs {x : S50000x256.Idx → EReal} {w : S256x256.Idx → EReal} {d : S50000x1.Idx → EReal}
    (hx : (V c main_v47 : S50000x256.Idx → EReal) = x) (hw : (V c main_arg7 : S256x256.Idx → EReal) = w)
    (hd : (V c main_v11 : S50000x1.Idx → EReal) = d) (n : Fin 50000) (j : Fin 256) :
    (dat4 (F := Ideal) V c).arrAt 4 cfg4.N (ix2 n j) = (∑ k : Fin 256, x (ix2 n k) * w (ix2 k j)) * d (ix2 n 0) := by
  subst hx; subst hw; subst hd
  obtain ⟨t, p, hn⟩ := tile_rows N_4 n
  exact arrAt_of_emb (dat4 (F := Ideal) V c) 4 _ (flushed4_4_eq V c) flush4_4 t (ix2 p j) (emb4 t p j n hn).2

end Cert.KernelIdeal.Val

end
-- ==== Proof.KernelIdeal.ValCB5.lean ====
import proofs.«415159_j89687507076125_2_alg».proof.Proof.KernelIdeal.RegCB5
import proofs.«415159_j89687507076125_2_alg».proof.Proof.KernelIdeal.ValCB1
import proofs.«415159_j89687507076125_2_alg».proof.Proof.KernelIdeal.ValCB3
import Idealize.ShloMosaic.Lib.Pipeline.Value

noncomputable section

namespace Cert.KernelIdeal.Val

open Idealize.ShloMosaic Idealize.ShloMosaic.TcCoe Idealize.ShloMosaic.ValueIdx
open Cert.KernelIdeal Cert.KernelIdeal.Gen Cert.KernelIdeal.Frm

variable (V : (c : Dev nD) → (b : Ref sig .tc) → Buf (Elt Ideal) ((c : Thread nD τ).loc b)) (c : Dev nD)

-- Region 5's body is region 3's, so this is region 3's fact.
theorem out5_9_eq (x0 x1 : Vec Ideal S2000x256 .f32) (x2 : Vec Ideal S2000x1 .f32) (x3 x4 x5 x6 x7 : Vec Ideal S1x256 .f32)
    (x8 : Vec Ideal S2000x256 .f32) :
    out5_9 x0 x1 x2 x3 x4 x5 x6 x7 x8 = Gen.k5_pay1 x2 x1 x0 x3 x4 x7 x6 x5 x8 :=
  out3_9_eq x0 x1 x2 x3 x4 x5 x6 x7 x8

-- Each window's block sits at the output block's rows (a parameter row's block is the row), so the payload is the formula there.
theorem flushed5 (t : Fin cfg5.N) :
    (dat5 (F := Ideal) V c).flushed 9 t = ((cfg5.win 9).blk t).view.read (Elt Ideal) fun i : S50000x256.Idx =>
      comb5 (V c main_v59) (V c main_v48_0) (V c main_v11) (V c main_v60) (V c main_v61) (V c main_v62)
      (V c main_v63) (V c main_v64) (V c main_v47) (i 0) (i 1) := by
  show (cfg5.win 9).cut (grid5.coords t) ((dat5 V c).after 9 t) = _
  rw [after5_9, out5_9_eq]
  funext y
  rw [View.read_apply]
  exact k3_blocks (eq_ix2 y) (congrArg (V c main_v48_0) (Shape.idx_ext₂ rfl rfl))
    (congrArg (V c main_v59) (Shape.idx_ext₂ rfl rfl))
    (congrArg (V c main_v11) (Shape.idx_ext₂ rfl rfl))
    (congrArg (V c main_v60) (Shape.idx_ext₂ rfl rfl))
    (congrArg (V c main_v61) (Shape.idx_ext₂ rfl rfl))
    (congrArg (V c main_v62) (Shape.idx_ext₂ rfl rfl))
    (congrArg (V c main_v63) (Shape.idx_ext₂ rfl rfl))
    (congrArg (V c main_v64) (Shape.idx_ext₂ rfl rfl))
    (congrArg (V c main_v47) (Shape.idx_ext₂ rfl rfl))

-- Region 1's output window and this one have the same blocks, so its cover serves.
theorem val5 (n : Fin 50000) (j : Fin 256) :
    (dat5 (F := Ideal) V c).arrAt 9 cfg5.N (ix2 n j)
      = comb5 (V c main_v59) (V c main_v48_0) (V c main_v11) (V c main_v60) (V c main_v61) (V c main_v62)
          (V c main_v63) (V c main_v64) (V c main_v47) n j := by
  have h := (dat5 V c).arrAt_eq_of_cover 9 _ (fun t _ => flushed5 V c t) cover1
  exact congrFun h (ix2 n j)

end Cert.KernelIdeal.Val

end
-- ==== Proof.KernelIdeal.Glue5.lean ====
import proofs.«415159_j89687507076125_2_alg».proof.Proof.Gen.KernelIdeal.Regions
import proofs.«415159_j89687507076125_2_alg».proof.Proof.KernelIdeal.GlueAgg
import Idealize.ShloMosaic.Lib.StableHlo.Run

open scoped BigOperators

noncomputable section

namespace Cert.KernelIdeal.Glue

open Idealize.ShloMosaic Idealize.ShloMosaic.TcCoe Idealize.ShloMosaic.ValueIdx Idealize.ShloMosaic.StableHlo
open Cert.KernelIdeal Cert.KernelIdeal.Gen

-- the stretch's operations from the half-width table and the two edge rows compose to the aggregation term
theorem hostOps5_v59 (W : Valuation τ sig (Elt Ideal)) (ei : (⟨S2x800000, .i32⟩ : BufTy).Contents (Elt Ideal))
    (hv1 : (W main_v1 : (⟨S800000, .i32⟩ : BufTy).Contents (Elt Ideal)) = srcRow ei)
    (hv3 : (W main_v3 : (⟨S800000, .i32⟩ : BufTy).Contents (Elt Ideal)) = tgtRow ei) (n : Fin 50000) (j : Fin 256) :
    (StableHlo.after (hostOps5 (F := Ideal)) W main_v59 : (⟨S50000x256, .f32⟩ : BufTy).Contents (Elt Ideal)) (ix2 n j)
      = Finset.sum (M := EReal) (Cert.Spec.hits (tgtCol ei) n)
          fun e => W main_v48_1 (ix2 (Cert.Spec.rowOf (srcCol ei (ix2 e 0))) j) := by
  after_results_simp
  rw [hv1, hv3]
  exact aggT_apply _ ei n j

theorem hostOps5_v60 (W : Valuation τ sig (Elt Ideal)) (j : Fin 256) :
    (StableHlo.after (hostOps5 (F := Ideal)) W main_v60 : (⟨S1x256, .f32⟩ : BufTy).Contents (Elt Ideal)) (ix2 0 j)
      = (W main_arg8 : (⟨S256, .f32⟩ : BufTy).Contents (Elt Ideal)) (ix1 j) := by
  after_results_simp
  exact shapeCast_a_1a_apply _ _ 0 j

theorem hostOps5_v61 (W : Valuation τ sig (Elt Ideal)) (j : Fin 256) :
    (StableHlo.after (hostOps5 (F := Ideal)) W main_v61 : (⟨S1x256, .f32⟩ : BufTy).Contents (Elt Ideal)) (ix2 0 j)
      = (W main_arg17 : (⟨S256, .f32⟩ : BufTy).Contents (Elt Ideal)) (ix1 j) := by
  after_results_simp
  exact shapeCast_a_1a_apply _ _ 0 j

theorem hostOps5_v62 (W : Valuation τ sig (Elt Ideal)) (j : Fin 256) :
    (StableHlo.after (hostOps5 (F := Ideal)) W main_v62 : (⟨S1x256, .f32⟩ : BufTy).Contents (Elt Ideal)) (ix2 0 j)
      = (W main_arg18 : (⟨S256, .f32⟩ : BufTy).Contents (Elt Ideal)) (ix1 j) := by
  after_results_simp
  exact shapeCast_a_1a_apply _ _ 0 j

theorem hostOps5_v63 (W : Valuation τ sig (Elt Ideal)) (j : Fin 256) :
    (StableHlo.after (hostOps5 (F := Ideal)) W main_v63 : (⟨S1x256, .f32⟩ : BufTy).Contents (Elt Ideal)) (ix2 0 j)
      = (W main_arg19 : (⟨S256, .f32⟩ : BufTy).Contents (Elt Ideal)) (ix1 j) := by
  after_results_simp
  exact shapeCast_a_1a_apply _ _ 0 j

theorem hostOps5_v64 (W : Valuation τ sig (Elt Ideal)) (j : Fin 256) :
    (StableHlo.after (hostOps5 (F := Ideal)) W main_v64 : (⟨S1x256, .f32⟩ : BufTy).Contents (Elt Ideal)) (ix2 0 j)
      = (W main_arg20 : (⟨S256, .f32⟩ : BufTy).Contents (Elt Ideal)) (ix1 j) := by
  after_results_simp
  exact shapeCast_a_1a_apply _ _ 0 j

end Cert.KernelIdeal.Glue

end
-- ==== Proof.KernelIdeal.KVal3.lean ====
import proofs.«415159_j89687507076125_2_alg».proof.Proof.KernelIdeal.KVal2
import proofs.«415159_j89687507076125_2_alg».proof.Proof.KernelIdeal.ValMM4
import proofs.«415159_j89687507076125_2_alg».proof.Proof.KernelIdeal.ValCB5
import proofs.«415159_j89687507076125_2_alg».proof.Proof.KernelIdeal.Glue5

namespace Cert.KernelIdeal.Val

open Idealize.ShloMosaic Idealize.ShloMosaic.TcCoe Idealize.ShloMosaic.ValueIdx Idealize.SL.Sem
open Cert.KernelIdeal Cert.KernelIdeal.Gen

variable {m : (ℓ : Loc nD τ sig) → Buf (Elt Ideal) ℓ} {c : Dev nD}

theorem base8 : Base m c (Frm.U8 m c) := (base7.upd _ (by decide) _).upd _ (by decide) _
theorem base9 : Base m c (Frm.U9 m c) := base8.after _ hostOps5_writes (by decide)

variable (m c)

-- The third layer's array after its combine region is the residual layer of the second layer's array.
theorem kval3 (n : Fin 50000) (j : Fin 256) : (Frm.U10 m c main_v65 : (⟨S50000x256, .f32⟩ : BufTy).Contents (Elt Ideal)) (ix2 n j)
    = Cert.Spec.layerR (Glue.srcCol (m ((c : Thread nD τ).loc main_arg1))) (Glue.tgtCol (m ((c : Thread nD τ).loc main_arg1))) (vec (Glue.dinvV (m ((c : Thread nD τ).loc main_arg1))))
        (fun n j => (Frm.U7 m c main_v47 : (⟨S50000x256, .f32⟩ : BufTy).Contents (Elt Ideal)) (ix2 n j)) (mat (m ((c : Thread nD τ).loc main_arg7)))
        (vec (m ((c : Thread nD τ).loc main_arg8))) (vec (m ((c : Thread nD τ).loc main_arg17))) (vec (m ((c : Thread nD τ).loc main_arg18))) (vec (m ((c : Thread nD τ).loc main_arg19))) (vec (m ((c : Thread nD τ).loc main_arg20))) n j := by
  rw [← Frm.hF5_9 m c]
  refine (val5 (Frm.T9 m) c n j).trans (comb_eq (m ((c : Thread nD τ).loc main_arg1))
    (Glue.hostOps5_v59 (Frm.U8 m c) _ base8.v1 base8.v3)
    (fun r i => (congrFun (Frm.hF4_4 m c) _).symm.trans (val4_hs (Frm.T7 m) c rfl (base7.arg main_arg7 (by decide)) rfl r i))
    (fun r i => (congrFun ((StableHlo.after_of_writes_sub hostOps5 _ hostOps5_writes (by decide)).trans (Frm.hF4_3 m c).symm) _).trans
      (val4_h (Frm.T7 m) c rfl (base7.arg main_arg7 (by decide)) r i))
    base7.v11 base9.v11
    (fun i => (Glue.hostOps5_v60 (Frm.U8 m c) i).trans (congrFun (base8.arg main_arg8 (by decide)) _))
    (fun i => (Glue.hostOps5_v61 (Frm.U8 m c) i).trans (congrFun (base8.arg main_arg17 (by decide)) _))
    (fun i => (Glue.hostOps5_v62 (Frm.U8 m c) i).trans (congrFun (base8.arg main_arg18 (by decide)) _))
    (fun i => (Glue.hostOps5_v63 (Frm.U8 m c) i).trans (congrFun (base8.arg main_arg19 (by decide)) _))
    (fun i => (Glue.hostOps5_v64 (Frm.U8 m c) i).trans (congrFun (base8.arg main_arg20 (by decide)) _))
    (fun r i => congrFun ((StableHlo.after_of_writes_sub hostOps5 _ hostOps5_writes (by decide)).trans
      (upd2_ne (by decide) (by decide) _ _ : Frm.U8 m c main_v47 = Frm.U7 m c main_v47)) _) n j)

end Cert.KernelIdeal.Val
-- ==== Proof.KernelIdeal.Glue6.lean ====
import proofs.«415159_j89687507076125_2_alg».proof.Proof.Gen.KernelIdeal.Regions
import proofs.«415159_j89687507076125_2_alg».proof.Proof.KernelIdeal.GlueDefs
import Idealize.ShloMosaic.Lib.StableHlo.Run

noncomputable section

namespace Cert.KernelIdeal.Glue

open Idealize.ShloMosaic Idealize.ShloMosaic.TcCoe Idealize.ShloMosaic.ValueIdx Idealize.ShloMosaic.StableHlo
open Cert.KernelIdeal Cert.KernelIdeal.Gen

-- the three stretches' operations from `main_arg2` to `main_v72` compose to the clipped column
theorem hostOps6_v72 (W : Valuation τ sig (Elt Ideal)) :
    (StableHlo.after (hostOps6_2 (F := Ideal)) (StableHlo.after (hostOps6_1 (F := Ideal)) (StableHlo.after (hostOps6 (F := Ideal)) W))
        main_v72 : (⟨S50000x1, .i32⟩ : BufTy).Contents (Elt Ideal))
      = batchCol (W main_arg2) := by
  after_results_simp
  rfl

theorem hostOps6_v71 (W : Valuation τ sig (Elt Ideal)) (g : Fin 512) :
    (StableHlo.after (hostOps6_2 (F := Ideal)) (StableHlo.after (hostOps6_1 (F := Ideal)) (StableHlo.after (hostOps6 (F := Ideal)) W))
        main_v71 : (⟨S512x1, .f32⟩ : BufTy).Contents (Elt Ideal)) (ix2 g 0)
      = cntV (W main_arg2) (ix1 g) := by
  after_results_simp
  exact shapeCast_a_a1_apply (cntV (W main_arg2)) _ g 0

theorem hostOps6_v73 (W : Valuation τ sig (Elt Ideal)) (j : Fin 256) :
    (StableHlo.after (hostOps6_2 (F := Ideal)) (StableHlo.after (hostOps6_1 (F := Ideal)) (StableHlo.after (hostOps6 (F := Ideal)) W))
        main_v73 : (⟨S1x256, .f32⟩ : BufTy).Contents (Elt Ideal)) (ix2 0 j)
      = (W main_arg22 : (⟨S256, .f32⟩ : BufTy).Contents (Elt Ideal)) (ix1 j) := by
  after_results_simp
  exact shapeCast_a_1a_apply _ _ 0 j

theorem hostOps6_v74 (W : Valuation τ sig (Elt Ideal)) :
    (StableHlo.after (hostOps6_2 (F := Ideal)) (StableHlo.after (hostOps6_1 (F := Ideal)) (StableHlo.after (hostOps6 (F := Ideal)) W))
        main_v74 : (⟨S1x1, .f32⟩ : BufTy).Contents (Elt Ideal)) (ix2 0 0)
      = (W main_arg24 : (⟨S1, .f32⟩ : BufTy).Contents (Elt Ideal)) (ix1 0) := by
  after_results_simp
  exact shapeCast_a_1a_apply _ _ 0 0

-- a reference none of the three stretches writes keeps its contents through each in turn
theorem hostOps6_all_of (W : Valuation τ sig (Elt Ideal)) (r : Ref sig .tc)
    (h0 : r ∉ hostOps6_W) (h1 : r ∉ hostOps6_1_W) (h2 : r ∉ hostOps6_2_W) :
    StableHlo.after (hostOps6_2 (F := Ideal)) (StableHlo.after (hostOps6_1 (F := Ideal)) (StableHlo.after (hostOps6 (F := Ideal)) W)) r
      = W r :=
  (StableHlo.after_of_writes_sub hostOps6_2 _ hostOps6_2_writes h2).trans
    ((StableHlo.after_of_writes_sub hostOps6_1 _ hostOps6_1_writes h1).trans (StableHlo.after_of_writes_sub hostOps6 W hostOps6_writes h0))

theorem hostOps6_v65 (W : Valuation τ sig (Elt Ideal)) :
    StableHlo.after (hostOps6_2 (F := Ideal)) (StableHlo.after (hostOps6_1 (F := Ideal)) (StableHlo.after (hostOps6 (F := Ideal)) W)) main_v65
      = W main_v65 :=
  hostOps6_all_of W main_v65 (by decide) (by decide) (by decide)

theorem hostOps6_arg21 (W : Valuation τ sig (Elt Ideal)) :
    StableHlo.after (hostOps6_2 (F := Ideal)) (StableHlo.after (hostOps6_1 (F := Ideal)) (StableHlo.after (hostOps6 (F := Ideal)) W)) main_arg21
      = W main_arg21 :=
  hostOps6_all_of W main_arg21 (by decide) (by decide) (by decide)

theorem hostOps6_arg23 (W : Valuation τ sig (Elt Ideal)) :
    StableHlo.after (hostOps6_2 (F := Ideal)) (StableHlo.after (hostOps6_1 (F := Ideal)) (StableHlo.after (hostOps6 (F := Ideal)) W)) main_arg23
      = W main_arg23 :=
  hostOps6_all_of W main_arg23 (by decide) (by decide) (by decide)

end Cert.KernelIdeal.Glue

end
-- ==== Proof.KernelIdeal.ValPoolPay.lean ====
import proofs.«415159_j89687507076125_2_alg».proof.Proof.Gen.KernelIdeal.Skeleton
import proofs.«415159_j89687507076125_2_alg».proof.Proof.Spec
import Idealize.ShloMosaic.Lib.IdealHost
import Idealize.ShloMosaic.Lib.WordArith
import Idealize.ShloMosaic.Lib.KernelVsHost

open scoped BigOperators

noncomputable section

namespace Cert.KernelIdeal.Val

open Idealize.ShloMosaic Idealize.ShloMosaic.ValueIdx Cert.KernelIdeal

-- a word below 2^31 reads signed as its number, and a word is its signed reading's word
theorem word_eq_iff (g : Fin 512) (w : BitVec 32) : BitVec.ofNat 32 g.val = w ↔ w.toInt = (g.val : Int) :=
  ⟨fun e => e ▸ WordArith.toInt_ofNat_small g.val (by have := g.isLt; omega),
    fun h => by have e := BitVec.ofInt_toInt (x := w); rwa [h, BitVec.ofInt_natCast] at e⟩

-- the comparison bit, widened and converted, is the real 1 where the word reads g and 0 elsewhere
theorem onehot_apply (g : Fin 512) (w : BitVec 32) :
    FloatOps.sitofp (F := Ideal) .f32 ((IntOp.cmpi .eq (BitVec.ofNat 32 g.val) w).setWidth 32)
      = if w.toInt = (g.val : Int) then (1 : EReal) else 0 := by
  show (((((BitVec.ofBool (BitVec.ofNat 32 g.val == w)).setWidth 32).toInt : Int) : ℝ) : EReal) = _
  rw [toInt_setWidth_bit]
  by_cases h : w.toInt = (g.val : Int)
  · rw [if_pos h, beq_iff_eq.mpr ((word_eq_iff g w).mpr h)]; simp
  · rw [if_neg h, beq_eq_false_iff_ne.mpr fun e => h ((word_eq_iff g w).mp e)]; simp

theorem k6_pay1_apply (g : Fin 512) (j : Fin 256) : Gen.k6_pay1 (F := Ideal) (ix2 g j) = 0 := by
  unfold Gen.k6_pay1
  simp only [shapeCast_self]
  exact Ideal.ofBits_zero_f32

-- a product into the zero splat over one contracted axis of extent n is the sum over that axis' coordinate
theorem dot1_apply {sl sr so : Shape} {φ₁ φ₂ : FTy} (d : DotDims sl sr so) (n : Nat) (hr : d.contr.rank = 1)
    (hs : d.contr.size ⟨0, by omega⟩ = n) (x : FVec Ideal sl φ₁) (w : FVec Ideal sr φ₂) (i : so.Idx)
    (a : Fin n → sl.Idx) (b : Fin n → sr.Idx)
    (ha : ∀ k, d.lhsIdx i ((contrEquiv1 d n hr hs).symm k) = a k) (hb : ∀ k, d.rhsIdx i ((contrEquiv1 d n hr hs).symm k) = b k) :
    FloatOps.matmul d none x w (constant so .f32 0x00000000#32) i = ∑ k : Fin n, x (a k) * w (b k) := by
  rw [Ideal.matmul_constant_zero_apply, ← Equiv.sum_comp (contrEquiv1 d n hr hs).symm]
  exact Finset.sum_congr rfl fun k _ => by rw [ha, hb]

-- the one-hot matrix of the graph column, transposed, times the tile: 1 * x = x and 0 * x = 0 leave the rows that read g
theorem k6_pay2_apply (v3 : Vec Ideal S2000x256 .f32) (v6 : Vec Ideal S2000x1 .i32) (v16 : Vec Ideal S512x256 .f32)
    (g : Fin 512) (j : Fin 256) :
    Gen.k6_pay2 v3 v6 v16 (ix2 g j)
      = v16 (ix2 g j) + ∑ r : Fin 2000, (if (v6 (ix2 r 0)).toInt = (g.val : Int) then v3 (ix2 r j) else 0) := by
  unfold Gen.k6_pay2
  simp only [shapeCast_self v3, shapeCast_self (s := S512x256), matmul]
  rw [addf_apply, dot1_apply dot_S2000x512_S2000x256_S512x256_0_0_1_1_n_n 2000 rfl rfl _ _ (ix2 g j) (fun r => ix2 r g) (fun r => ix2 r j)
    (fun _ => Shape.idx_ext₂ rfl rfl) (fun _ => Shape.idx_ext₂ rfl rfl)]
  refine congrArg (_ + ·) (Finset.sum_congr rfl fun r _ => ?_)
  rw [truncf_apply, truncf_apply, shapeCast_self, shapeCast_self, sitofp_apply, extui_apply]
  show FloatOps.sitofp (F := Ideal) .f32 ((IntOp.cmpi .eq (iota .tc S2000x512 32 [1] _ (ix2 r g)) (broadcastTo S2000x512 v6 _ (ix2 r g))).setWidth 32) * _ = _
  rw [iota_single_apply, broadcastTo_apply v6 _ (ix2 r g) (ix2 r 0) (Fin.forall_fin_two.mpr ⟨rfl, rfl⟩), onehot_apply, ite_mul, one_mul, zero_mul]

theorem k6_pay3_apply (v24 : Vec Ideal S512x1 .f32) (v26 : Vec Ideal S512x256 .f32) (v32 : Vec Ideal S256x256 .f32)
    (v35 : Vec Ideal S1x256 .f32) (v42 : Vec Ideal S256x1 .f32) (v45 : Vec Ideal S1x1 .f32) (g : Fin 512) :
    Gen.k6_pay3 v24 v26 v32 v35 v42 v45 (ix2 g 0)
      = Cert.Spec.head (fun g j => Ideal.div (v26 (ix2 g j)) (max (v24 (ix2 g 0)) 1)) (fun k j => v32 (ix2 k j))
          (fun j => v35 (ix2 0 j)) (fun k => v42 (ix2 k 0)) (v45 (ix2 0 0)) g := by
  unfold Gen.k6_pay3 Cert.Spec.head
  simp only [shapeCast_self, matmul]
  rw [addf_apply, broadcastTo_apply (s := S1x1) _ _ (ix2 g 0) (ix2 0 0) (Fin.forall_fin_two.mpr ⟨rfl, rfl⟩), dot1_apply dot_S512x256_S256x1_S512x1_1_0_0_1_n_n 256 rfl rfl _ _ (ix2 g 0) (fun k => ix2 g k) (fun k => ix2 k 0)
    (fun _ => Shape.idx_ext₂ rfl rfl) (fun _ => Shape.idx_ext₂ rfl rfl)]
  congr 1
  refine Finset.sum_congr rfl fun k _ => ?_
  rw [truncf_apply, truncf_apply, maximumf_apply, addf_apply,
    broadcastTo_apply (s := S1x256) _ _ (ix2 g k) (ix2 0 k) (Fin.forall_fin_two.mpr ⟨rfl, rfl⟩), broadcast_apply,
    dot1_apply dot_S512x256_S256x256_S512x256_1_0_0_1_n_n 256 rfl rfl _ _ (ix2 g k) (fun k' => ix2 g k') (fun k' => ix2 k' k)
      (fun _ => Shape.idx_ext₂ rfl rfl) (fun _ => Shape.idx_ext₂ rfl rfl)]
  congr 2
  · congr 1
    refine Finset.sum_congr rfl fun k' _ => ?_
    rw [truncf_apply, truncf_apply, divf_apply, broadcastTo_apply (s := S512x1) _ _ (ix2 g k') (ix2 g 0) (Fin.forall_fin_two.mpr ⟨rfl, rfl⟩), maximumf_apply, broadcast_apply]
    show Ideal.div (v26 (ix2 g k')) (max (v24 (ix2 g 0)) (Ideal.ofBits .f32 0x3F800000#32)) * v32 (ix2 k' k) = _
    rw [Ideal.ofBits_one_f32]
  · exact Ideal.ofBits_zero_f32

end Cert.KernelIdeal.Val

end
-- ==== Proof.KernelIdeal.ValPoolSum.lean ====
import Mathlib.Algebra.BigOperators.Fin
import Mathlib.Logic.Equiv.Fin.Basic

open scoped BigOperators

namespace Cert.KernelIdeal.Val

-- row 2000 t + r is the pair (t, r) under the bijection of Fin 25 × Fin 2000 with Fin 50000
theorem sum_blocks {M : Type*} [AddCommMonoid M] (f : Fin 50000 → M) :
    ∑ t : Fin 25, ∑ r : Fin 2000, f ⟨2000 * t.val + r.val, by have := t.isLt; have := r.isLt; omega⟩ = ∑ i, f i := by
  rw [← Fintype.sum_prod_type (f := fun p : Fin 25 × Fin 2000 =>
        f ⟨2000 * p.1.val + p.2.val, by have := p.1.isLt; have := p.2.isLt; omega⟩),
    ← Equiv.sum_comp (finProdFinEquiv (m := 25) (n := 2000)) f]
  refine Finset.sum_congr rfl fun p _ => congrArg f (Fin.ext ?_)
  show 2000 * p.1.val + p.2.val = p.2.val + 2000 * p.1.val
  omega

end Cert.KernelIdeal.Val
-- ==== Proof.KernelIdeal.ValPool6.lean ====
import proofs.«415159_j89687507076125_2_alg».proof.Proof.KernelIdeal.RegPool6
import proofs.«415159_j89687507076125_2_alg».proof.Proof.KernelIdeal.ValPoolPay
import proofs.«415159_j89687507076125_2_alg».proof.Proof.KernelIdeal.ValPoolSum
import Idealize.ShloMosaic.Lib.Pipeline.Value

open scoped BigOperators

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

theorem hz6 : (![0, 0] : Fin 2 → Nat) = fun _ => 0 := funext fun a => by fin_cases a <;> rfl

theorem zero6_apply (g : Fin 512) (j : Fin 256) : Frm.zero6 (F := Ideal) (ix2 g j) = 0 := by
  unfold Frm.zero6
  rw [View.canon_unit_zero hz6]
  exact k6_pay1_apply g j

theorem acc6_apply (x : Vec Ideal S2000x256 .f32) (b : Vec Ideal S2000x1 .i32) (s : Vec Ideal S512x256 .f32)
    (g : Fin 512) (j : Fin 256) :
    Frm.acc6 x b s (ix2 g j)
      = s (ix2 g j) + ∑ r : Fin 2000, (if (b (ix2 r 0)).toInt = (g.val : Int) then x (ix2 r j) else 0) := by
  unfold Frm.acc6
  rw [View.canon_unit_zero hz6]
  simp only [View.ld_unit_zero (S := S2000x256) hz6, View.ld_unit_zero (S := S2000x1) hz6, View.ld_unit_zero (S := S512x256) hz6]
  exact k6_pay2_apply x b s g j

variable (V : (c : Dev nD) → (b : Ref sig .tc) → Buf (Elt Ideal) ((c : Thread nD τ).loc b)) (c : Dev nD)

abbrev row6 (t : Nat) (h : t < cfg6.N) (r : Fin 2000) : Fin 50000 :=
  ⟨2000 * t + r.val, by have hN : cfg6.N = 25 := N_6; have := r.isLt; omega⟩

theorem idx6_t : ∀ t : Fin cfg6.N, (win6_0.index t (0 : Fin 2) = t.val ∧ win6_0.index t (1 : Fin 2) = 0)
    ∧ win6_1.index t (0 : Fin 2) = t.val ∧ win6_1.index t (1 : Fin 2) = 0 :=
  (by decide +kernel : ∀ t : Fin grid6.N, (win6_0.index t (0 : Fin 2) = t.val ∧ win6_0.index t (1 : Fin 2) = 0)
    ∧ win6_1.index t (0 : Fin 2) = t.val ∧ win6_1.index t (1 : Fin 2) = 0)
theorem idx6_z : ∀ (t : Fin cfg6.N) (a : Fin 2), win6_2.index t a = 0 ∧ win6_3.index t a = 0 ∧ win6_4.index t a = 0
    ∧ win6_5.index t a = 0 ∧ win6_6.index t a = 0 ∧ win6_7.index t a = 0 :=
  (by decide +kernel : ∀ (t : Fin grid6.N) (a : Fin 2), win6_2.index t a = 0 ∧ win6_3.index t a = 0 ∧ win6_4.index t a = 0
    ∧ win6_5.index t a = 0 ∧ win6_6.index t a = 0 ∧ win6_7.index t a = 0)

-- an array read through the rectangle at offset zero of the array's own sizes is the array
theorem iblk6_2 (t : Fin cfg6.N) : (Frm.iblk6 V c 2 t : Vec Ideal S512x1 .f32) = V c main_v71 :=
  Memref.read_access_unit_zero (Elt Ideal) main_v71 (off := fun a => win6_2.index t a * _)
    (funext fun a => by rw [(idx6_z t a).1, Nat.zero_mul]) _ _
theorem iblk6_3 (t : Fin cfg6.N) : (Frm.iblk6 V c 3 t : Vec Ideal S256x256 .f32) = V c main_arg21 :=
  Memref.read_access_unit_zero (Elt Ideal) main_arg21 (off := fun a => win6_3.index t a * _)
    (funext fun a => by rw [(idx6_z t a).2.1, Nat.zero_mul]) _ _
theorem iblk6_4 (t : Fin cfg6.N) : (Frm.iblk6 V c 4 t : Vec Ideal S1x256 .f32) = V c main_v73 :=
  Memref.read_access_unit_zero (Elt Ideal) main_v73 (off := fun a => win6_4.index t a * _)
    (funext fun a => by rw [(idx6_z t a).2.2.1, Nat.zero_mul]) _ _
theorem iblk6_5 (t : Fin cfg6.N) : (Frm.iblk6 V c 5 t : Vec Ideal S256x1 .f32) = V c main_arg23 :=
  Memref.read_access_unit_zero (Elt Ideal) main_arg23 (off := fun a => win6_5.index t a * _)
    (funext fun a => by rw [(idx6_z t a).2.2.2.1, Nat.zero_mul]) _ _
theorem iblk6_6 (t : Fin cfg6.N) : (Frm.iblk6 V c 6 t : Vec Ideal S1x1 .f32) = V c main_v74 :=
  Memref.read_access_unit_zero (Elt Ideal) main_v74 (off := fun a => win6_6.index t a * _)
    (funext fun a => by rw [(idx6_z t a).2.2.2.2.1, Nat.zero_mul]) _ _
theorem off6_7 (t : Fin cfg6.N) : (fun a => win6_7.index t a * main_v75.ty.shape.size a) = fun _ => 0 :=
  funext fun a => by rw [(idx6_z t a).2.2.2.2.2, Nat.zero_mul]

def term6 (g : Fin 512) (j : Fin 256) (i : Fin 50000) : EReal :=
  if ((V c main_v72 : Cert.Spec.NodeCol) (ix2 i 0)).toInt = (g.val : Int) then V c main_v65 (ix2 i j) else 0

theorem block_term6 (t : Fin cfg6.N) (g : Fin 512) (j : Fin 256) (r : Fin 2000) :
    ((if ((Frm.iblk6 V c 1 t : Vec Ideal S2000x1 .i32) (ix2 r 0)).toInt = (g.val : Int)
        then ((Frm.iblk6 V c 0 t : Vec Ideal S2000x256 .f32) (ix2 r j) : EReal) else 0) : EReal)
      = term6 V c g j (row6 t.val t.isLt r) := by
  obtain ⟨⟨a0, a1⟩, b0, b1⟩ := idx6_t t
  have ex : (Frm.iblk6 V c 0 t : Vec Ideal S2000x256 .f32) (ix2 r j) = V c main_v65 (ix2 (row6 t.val t.isLt r) j) :=
    congrArg (V c main_v65) (Shape.idx_ext₂
      (by show win6_0.index t 0 * 2000 + 1 * r.val = 2000 * t.val + r.val; rw [a0]; omega)
      (by show win6_0.index t 1 * 256 + 1 * j.val = j.val; rw [a1]; omega))
  have eb : (Frm.iblk6 V c 1 t : Vec Ideal S2000x1 .i32) (ix2 r 0) = V c main_v72 (ix2 (row6 t.val t.isLt r) 0) :=
    congrArg (V c main_v72) (Shape.idx_ext₂
      (by show win6_1.index t 0 * 2000 + 1 * r.val = 2000 * t.val + r.val; rw [b0]; omega)
      (by show win6_1.index t 1 * 1 + 1 * (0 : Fin 1).val = (0 : Fin 1).val; rw [b1]; rfl))
  unfold term6
  rw [ex, eb]

-- each point adds its tile's rows to what the points before left: induction on the point
theorem sAt6_apply (g : Fin 512) (j : Fin 256) : ∀ (n : Nat) (h : n < cfg6.N),
    Frm.sAt6 V c n (ix2 g j) = ∑ t : Fin (n + 1), ∑ r : Fin 2000, term6 V c g j (row6 t.val (Nat.lt_of_lt_of_le t.isLt h) r)
  | 0, h => by
    rw [show Frm.sAt6 V c 0 = Frm.acc6 (Frm.iblk6 V c 0 ⟨0, h⟩) (Frm.iblk6 V c 1 ⟨0, h⟩) Frm.zero6 from rfl,
      acc6_apply, zero6_apply]
    refine Eq.trans ?_ (Fin.sum_univ_castSucc _).symm
    rw [Fin.sum_univ_zero]
    exact congrArg (0 + ·) (Finset.sum_congr rfl fun r _ => block_term6 V c ⟨0, h⟩ g j r)
  | n + 1, h => by
    rw [show Frm.sAt6 V c (n + 1) = Frm.acc6 (Frm.iblk6 V c 0 ⟨n + 1, h⟩) (Frm.iblk6 V c 1 ⟨n + 1, h⟩) (Frm.sAt6 V c n) from dif_pos h,
      acc6_apply, sAt6_apply g j n (Nat.lt_of_succ_lt h)]
    refine Eq.trans ?_ (Fin.sum_univ_castSucc _).symm
    exact congrArg (_ + ·) (Finset.sum_congr rfl fun r _ => block_term6 V c ⟨n + 1, h⟩ g j r)

theorem sAt6_last (g : Fin 512) (j : Fin 256) :
    Frm.sAt6 V c 24 (ix2 g j) = Cert.Spec.psum (V c main_v72) (fun n j => V c main_v65 (ix2 n j)) g j := by
  rw [sAt6_apply V c g j 24 (by decide)]
  unfold Cert.Spec.psum Cert.Spec.bhits
  rw [Finset.sum_filter]
  exact sum_blocks (term6 V c g j)

def G6 : S512x1.Idx → EReal := fun i =>
  Cert.Spec.head (Cert.Spec.pooled (V c main_v72) (fun g => V c main_v71 (ix2 g 0)) (fun n j => V c main_v65 (ix2 n j)))
    (fun k j => V c main_arg21 (ix2 k j)) (fun j => V c main_v73 (ix2 0 j)) (fun k => V c main_arg23 (ix2 k 0))
    (V c main_v74 (ix2 0 0)) (i 0)

theorem after6_7_eq (h : 24 < cfg6.N) : (Frm.dat6 V c).after 7 ⟨24, h⟩ = G6 V c := by
  rw [Frm.after6_7]
  funext y
  obtain ⟨g, z, rfl⟩ : ∃ (g : Fin 512) (z : Fin 1), y = ix2 g z := ⟨y 0, y 1, eq_ix2 y⟩
  obtain rfl : z = 0 := Subsingleton.elim _ _
  unfold Frm.out6_7
  rw [View.canon_unit_zero hz6]
  simp only [View.ld_unit_zero (S := S512x1) hz6, View.ld_unit_zero (S := S512x256) hz6, View.ld_unit_zero (S := S256x256) hz6,
    View.ld_unit_zero (S := S1x256) hz6, View.ld_unit_zero (S := S256x1) hz6, View.ld_unit_zero (S := S1x1) hz6]
  rw [k6_pay3_apply, iblk6_2, iblk6_3, iblk6_4, iblk6_5, iblk6_6]
  show Cert.Spec.head _ _ _ _ _ g = Cert.Spec.head _ _ _ _ _ g
  refine congrArg (fun p => Cert.Spec.head p _ _ _ _ g) (funext fun g => funext fun j => ?_)
  exact congrArg (Ideal.div · _) (sAt6_last V c g j)

-- the last point's rectangle holds every index of the [512, 1] array
theorem final6_7 : (Frm.dat6 V c).arrAt 7 cfg6.N = G6 V c := by
  have h24 : 24 < cfg6.N := by decide
  refine (Frm.dat6 V c).arrAt_eq_of_cover 7 (G6 V c) (fun t hf => ?_) fun i => ⟨⟨24, h24⟩, (flush6_7 _).mpr rfl, ?_⟩
  · obtain rfl : t = ⟨24, h24⟩ := Fin.ext (show t.val = 24 by have := (flush6_7 t).mp hf; have := t.isLt; have hN : cfg6.N = 25 := N_6; omega)
    show (cfg6.win 7).cut (grid6.coords ⟨24, h24⟩) ((Frm.dat6 V c).after 7 ⟨24, h24⟩) = _
    rw [after6_7_eq V c h24]
    exact (Memref.read_access_unit_zero (Elt Ideal) main_v75 (off6_7 _) _ (G6 V c)).symm
  · show i ∈ ((View.whole main_v75).slice (win6_7.rect ⟨24, h24⟩)).set
    rw [View.set_slice_whole]
    exact View.mem_set_unit_zero (off6_7 _) _ i

end Cert.KernelIdeal.Val

end
-- ==== Proof.KernelIdeal.KValPool.lean ====
import proofs.«415159_j89687507076125_2_alg».proof.Proof.KernelIdeal.Records
import proofs.«415159_j89687507076125_2_alg».proof.Proof.KernelIdeal.Glue6
import proofs.«415159_j89687507076125_2_alg».proof.Proof.KernelIdeal.ValPool6

open scoped BigOperators

noncomputable section

namespace Cert.KernelIdeal.Val

open Idealize.ShloMosaic Idealize.ShloMosaic.TcCoe Idealize.ShloMosaic.ValueIdx
open Cert.KernelIdeal Cert.KernelIdeal.Gen

variable (m : (ℓ : Loc nD τ sig) → Buf (Elt Ideal) ℓ)

-- a reference outside every earlier item's write set keeps its launch contents
theorem pool_U10_launch (c : Dev nD) (r : Ref sig .tc)
    (h : r ∉ hostOps0_W ∧ r ∉ hostOps1_W ∧ r ∉ hostOps3_W ∧ r ∉ hostOps5_W
      ∧ r ∉ ([main_v12_0, main_v12_1] : List (Ref sig .tc)) ∧ r ∉ ([main_v29] : List (Ref sig .tc))
      ∧ r ∉ ([main_v30_0, main_v30_1] : List (Ref sig .tc)) ∧ r ∉ ([main_v47] : List (Ref sig .tc))
      ∧ r ∉ ([main_v48_0, main_v48_1] : List (Ref sig .tc)) ∧ r ∉ ([main_v65] : List (Ref sig .tc))) :
    Frm.U10 m c r = m ((c : Thread nD τ).loc r) := by
  obtain ⟨h0, h1, h3, h5, h2, h4, h5', h7, h8, h10⟩ := h
  rw [← Frm.V10_eq m c, V10_of m (Frm.outs m) c r h10, V9_of m (Frm.outs m) c r h5, V8_of m (Frm.outs m) c r h8,
    V7_of m (Frm.outs m) c r h7, V6_of m (Frm.outs m) c r h3, V5_of m (Frm.outs m) c r h5', V4_of m (Frm.outs m) c r h4,
    V3_of m (Frm.outs m) c r h1, V2_of m (Frm.outs m) c r h2, V1_of m c r h0]

theorem pool_T13_v72 (c : Dev nD) :
    (Frm.T13 m c main_v72 : (⟨S50000x1, .i32⟩ : BufTy).Contents (Elt Ideal)) = Glue.batchCol (m ((c : Thread nD τ).loc main_arg2)) :=
  (Glue.hostOps6_v72 (Frm.U10 m c)).trans (congrArg _ (pool_U10_launch m c main_arg2 (by decide)))

theorem pool_T13_v71 (c : Dev nD) (g : Fin 512) :
    (Frm.T13 m c main_v71 : (⟨S512x1, .f32⟩ : BufTy).Contents (Elt Ideal)) (ix2 g 0) = Glue.cntV (m ((c : Thread nD τ).loc main_arg2)) (ix1 g) :=
  (Glue.hostOps6_v71 (Frm.U10 m c) g).trans (congrArg (Glue.cntV · _) (pool_U10_launch m c main_arg2 (by decide)))

theorem pool_T13_v73 (c : Dev nD) (j : Fin 256) :
    (Frm.T13 m c main_v73 : (⟨S1x256, .f32⟩ : BufTy).Contents (Elt Ideal)) (ix2 0 j)
      = (m ((c : Thread nD τ).loc main_arg22) : (⟨S256, .f32⟩ : BufTy).Contents (Elt Ideal)) (ix1 j) :=
  (Glue.hostOps6_v73 (Frm.U10 m c) j).trans (congrFun (pool_U10_launch m c main_arg22 (by decide)) _)

theorem pool_T13_v74 (c : Dev nD) :
    (Frm.T13 m c main_v74 : (⟨S1x1, .f32⟩ : BufTy).Contents (Elt Ideal)) (ix2 0 0)
      = (m ((c : Thread nD τ).loc main_arg24) : (⟨S1, .f32⟩ : BufTy).Contents (Elt Ideal)) (ix1 0) :=
  (Glue.hostOps6_v74 (Frm.U10 m c)).trans (congrFun (pool_U10_launch m c main_arg24 (by decide)) _)

theorem kvalP (c : Dev nD) (g : Fin 512) :
    ((Frm.dat6 (Frm.T13 m) c).arrAt 7 cfg6.N : (⟨S512x1, .f32⟩ : BufTy).Contents (Elt Ideal)) (ix2 g 0)
      = Cert.Spec.head
          (Cert.Spec.pooled (Glue.batchCol (m ((c : Thread nD τ).loc main_arg2)))
            (fun g => Glue.cntV (m ((c : Thread nD τ).loc main_arg2)) (ix1 g))
            (fun n j => (Frm.U10 m c main_v65 : (⟨S50000x256, .f32⟩ : BufTy).Contents (Elt Ideal)) (ix2 n j)))
          (fun k j => (m ((c : Thread nD τ).loc main_arg21) : (⟨S256x256, .f32⟩ : BufTy).Contents (Elt Ideal)) (ix2 k j))
          (fun j => (m ((c : Thread nD τ).loc main_arg22) : (⟨S256, .f32⟩ : BufTy).Contents (Elt Ideal)) (ix1 j))
          (fun k => (m ((c : Thread nD τ).loc main_arg23) : (⟨S256x1, .f32⟩ : BufTy).Contents (Elt Ideal)) (ix2 k 0))
          ((m ((c : Thread nD τ).loc main_arg24) : (⟨S1, .f32⟩ : BufTy).Contents (Elt Ideal)) (ix1 0)) g := by
  have e65 : Frm.T13 m c main_v65 = Frm.U10 m c main_v65 := Glue.hostOps6_v65 _
  have e21 : Frm.T13 m c main_arg21 = m ((c : Thread nD τ).loc main_arg21) :=
    (Glue.hostOps6_arg21 _).trans (pool_U10_launch m c main_arg21 (by decide))
  have e23 : Frm.T13 m c main_arg23 = m ((c : Thread nD τ).loc main_arg23) :=
    (Glue.hostOps6_arg23 _).trans (pool_U10_launch m c main_arg23 (by decide))
  refine (congrFun (final6_7 (Frm.T13 m) c) (ix2 g 0)).trans ?_
  show Cert.Spec.head _ _ _ _ _ g = _
  simp only [pool_T13_v72 m c, pool_T13_v71 m c, e65, e21, pool_T13_v73 m c, e23, pool_T13_v74 m c]

end Cert.KernelIdeal.Val

end
-- ==== Proof.KernelIdeal.KVal.lean ====
import proofs.«415159_j89687507076125_2_alg».proof.Proof.KernelIdeal.KVal3
import proofs.«415159_j89687507076125_2_alg».proof.Proof.KernelIdeal.KValPool

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

-- The pool and head read the third layer's array, which is the residual layer of the second's, and that of the first's.
theorem kernel_val (c : Dev nD) (g : Fin 512) :
    (Gen.V14 m (Frm.outs m) c main_v75 : (⟨S512x1, .f32⟩ : BufTy).Contents (Elt Ideal)) (ix2 g 0) =
      Cert.Spec.out (Glue.srcCol (m ((c : Thread nD τ).loc main_arg1))) (Glue.tgtCol (m ((c : Thread nD τ).loc main_arg1))) (fun n => Glue.dinvV (m ((c : Thread nD τ).loc main_arg1)) (ix1 n)) (Glue.batchCol (m ((c : Thread nD τ).loc main_arg2))) (fun g => Glue.cntV (m ((c : Thread nD τ).loc main_arg2)) (ix1 g))
        (fun n k => (m ((c : Thread nD τ).loc main_arg0) : (⟨S50000x128, .f32⟩ : BufTy).Contents (Elt Ideal)) (ix2 n k)) (fun k j => (m ((c : Thread nD τ).loc main_arg3) : (⟨S128x256, .f32⟩ : BufTy).Contents (Elt Ideal)) (ix2 k j)) (fun j => (m ((c : Thread nD τ).loc main_arg4) : (⟨S256, .f32⟩ : BufTy).Contents (Elt Ideal)) (ix1 j)) (fun j => (m ((c : Thread nD τ).loc main_arg9) : (⟨S256, .f32⟩ : BufTy).Contents (Elt Ideal)) (ix1 j)) (fun j => (m ((c : Thread nD τ).loc main_arg10) : (⟨S256, .f32⟩ : BufTy).Contents (Elt Ideal)) (ix1 j)) (fun j => (m ((c : Thread nD τ).loc main_arg11) : (⟨S256, .f32⟩ : BufTy).Contents (Elt Ideal)) (ix1 j)) (fun j => (m ((c : Thread nD τ).loc main_arg12) : (⟨S256, .f32⟩ : BufTy).Contents (Elt Ideal)) (ix1 j))
        (fun k j => (m ((c : Thread nD τ).loc main_arg5) : (⟨S256x256, .f32⟩ : BufTy).Contents (Elt Ideal)) (ix2 k j)) (fun j => (m ((c : Thread nD τ).loc main_arg6) : (⟨S256, .f32⟩ : BufTy).Contents (Elt Ideal)) (ix1 j)) (fun j => (m ((c : Thread nD τ).loc main_arg13) : (⟨S256, .f32⟩ : BufTy).Contents (Elt Ideal)) (ix1 j)) (fun j => (m ((c : Thread nD τ).loc main_arg14) : (⟨S256, .f32⟩ : BufTy).Contents (Elt Ideal)) (ix1 j)) (fun j => (m ((c : Thread nD τ).loc main_arg15) : (⟨S256, .f32⟩ : BufTy).Contents (Elt Ideal)) (ix1 j)) (fun j => (m ((c : Thread nD τ).loc main_arg16) : (⟨S256, .f32⟩ : BufTy).Contents (Elt Ideal)) (ix1 j))
        (fun k j => (m ((c : Thread nD τ).loc main_arg7) : (⟨S256x256, .f32⟩ : BufTy).Contents (Elt Ideal)) (ix2 k j)) (fun j => (m ((c : Thread nD τ).loc main_arg8) : (⟨S256, .f32⟩ : BufTy).Contents (Elt Ideal)) (ix1 j)) (fun j => (m ((c : Thread nD τ).loc main_arg17) : (⟨S256, .f32⟩ : BufTy).Contents (Elt Ideal)) (ix1 j)) (fun j => (m ((c : Thread nD τ).loc main_arg18) : (⟨S256, .f32⟩ : BufTy).Contents (Elt Ideal)) (ix1 j)) (fun j => (m ((c : Thread nD τ).loc main_arg19) : (⟨S256, .f32⟩ : BufTy).Contents (Elt Ideal)) (ix1 j)) (fun j => (m ((c : Thread nD τ).loc main_arg20) : (⟨S256, .f32⟩ : BufTy).Contents (Elt Ideal)) (ix1 j))
        (fun k j => (m ((c : Thread nD τ).loc main_arg21) : (⟨S256x256, .f32⟩ : BufTy).Contents (Elt Ideal)) (ix2 k j)) (fun j => (m ((c : Thread nD τ).loc main_arg22) : (⟨S256, .f32⟩ : BufTy).Contents (Elt Ideal)) (ix1 j)) (fun k => (m ((c : Thread nD τ).loc main_arg23) : (⟨S256x1, .f32⟩ : BufTy).Contents (Elt Ideal)) (ix2 k 0)) ((m ((c : Thread nD τ).loc main_arg24) : (⟨S1, .f32⟩ : BufTy).Contents (Elt Ideal)) (ix1 0)) g := by
  rw [Frm.result_eq, kvalP m c g, funext fun n => funext (kval3 m c n), funext fun n => funext (kval2 m c n),
    funext fun n => funext (kval1 m c n)]
  rfl

end Cert.KernelIdeal.Val
-- ==== Proof.LibScatter1.lean ====
import Idealize.ShloMosaic.PureOps.Ideal
import Idealize.ShloMosaic.Lib.ValueIdx
import Idealize.ShloMosaic.Lib.ValueIdxRank1

open scoped BigOperators

namespace Cert.Bridge.GS1

open Idealize.ShloMosaic Idealize.ShloMosaic.ValueIdx

theorem ix1_inj {n : Nat} {a a' : Fin n} : ix1 a = ix1 a' ↔ a = a' := by
  constructor
  · intro h
    exact congrFun h 0
  · rintro rfl; rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter
variable {N E w : Nat}

theorem resultIdx?_flat (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) :
    d.resultIdx? (ix1 e) idx =
      if h : 0 ≤ (idx (ix2 e 0)).toInt ∧ (idx (ix2 e 0)).toInt < N then
        some (ix1 ⟨(idx (ix2 e 0)).toInt.toNat, by omega⟩)
      else none := by
  obtain ⟨uw, iw, sd, ivd, wf⟩ := d
  dsimp only at huw hiw hsd hivd
  subst huw hiw hsd hivd
  set D : ScatterDims ⟨1, ![N]⟩ ⟨2, ![E, 1]⟩ ⟨1, ![E]⟩ := ⟨[], [0], [0], 1, wf⟩ with hD
  have hs0 : D.start (ix1 e) idx 0 = (idx (ix2 e 0)).toInt := by
    unfold ScatterDims.start
    rw [dif_pos (show (0 : Fin 1) ∈ D.scatterDimsToOperandDims from List.mem_singleton.mpr rfl)]
    congr 2
    funext b
    refine Fin.ext ?_
    match b with
    | ⟨0, _⟩ => rfl
    | ⟨1, _⟩ => rfl
  have hw0 : D.window (ix1 e) 0 = 0 := by
    unfold ScatterDims.window
    rw [dif_neg (show (0 : Fin 1) ∉ D.sKept from by simp [hD, ScatterDims.sKept, Shape.kept])]
  unfold ScatterDims.resultIdx?
  by_cases h : 0 ≤ (idx (ix2 e 0)).toInt ∧ (idx (ix2 e 0)).toInt < N
  · have hall : ∀ a, 0 ≤ D.start (ix1 e) idx a + D.window (ix1 e) a ∧
        D.start (ix1 e) idx a + D.window (ix1 e) a < (⟨1, ![N]⟩ : Shape).size a := by
      intro a
      match a with
      | ⟨0, _⟩ =>
        show 0 ≤ D.start (ix1 e) idx 0 + D.window (ix1 e) 0 ∧ D.start (ix1 e) idx 0 + D.window (ix1 e) 0 < (N : Int)
        rw [hs0, hw0]; omega
    rw [dif_pos hall, dif_pos h]
    congr 1
    funext a
    refine Fin.ext ?_
    match a with
    | ⟨0, _⟩ =>
      show (D.start (ix1 e) idx 0 + D.window (ix1 e) 0).toNat = (idx (ix2 e 0)).toInt.toNat
      rw [hs0, hw0]; simp
  · rw [dif_neg h, dif_neg]
    intro hall
    have h0 : 0 ≤ D.start (ix1 e) idx 0 + D.window (ix1 e) 0 ∧ D.start (ix1 e) idx 0 + D.window (ix1 e) 0 < (N : Int) :=
      hall 0
    rw [hs0, hw0] at h0
    exact h (by omega)

theorem resultIdx?_eq_some_iff (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : Int) := by
  rw [resultIdx?_flat d huw hiw hsd hivd idx e]
  have hn := n.isLt
  split
  · next h =>
    rw [Option.some.injEq, ix1_inj]
    constructor
    · intro h1
      have := congrArg Fin.val h1
      simp only at this
      omega
    · intro h1
      refine Fin.ext ?_
      show (idx (ix2 e 0)).toInt.toNat = n.val
      omega
  · next h =>
    constructor
    · intro h'; exact absurd h' (by simp)
    · intro h1; exact absurd (show 0 ≤ (idx (ix2 e 0)).toInt ∧ (idx (ix2 e 0)).toInt < N by omega) h

theorem hostScatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n) =
      x (ix1 n) + ∑ e ∈ Finset.univ.filter (fun e : Fin E => (idx (ix2 e 0)).toInt = (n.val : Int)), upd (ix1 e) := by
  unfold Ideal.hostScatterAdd
  congr 1
  rw [Finset.sum_filter, sum_idx1, Finset.sum_filter]
  refine Finset.sum_congr rfl fun e _ => ?_
  simp only [resultIdx?_eq_some_iff d huw hiw hsd hivd idx e n]

end Scatter

section HostForm
variable {N E w : Nat} {φ : FTy}

theorem scatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n) =
      x (ix1 n) + ∑ e ∈ Finset.univ.filter (fun e : Fin E => (idx (ix2 e 0)).toInt = (n.val : Int)), upd (ix1 e) :=
  hostScatterAdd_apply d huw hiw hsd hivd x idx upd n

end HostForm

end Cert.Bridge.GS1
-- ==== Proof.Ref.Pool.lean ====
import proofs.«415159_j89687507076125_2_alg».proof.Proof.Gen.ReferenceIdeal.Read
import proofs.«415159_j89687507076125_2_alg».proof.Proof.Spec
import proofs.«415159_j89687507076125_2_alg».proof.Proof.LibGatherScatter
import proofs.«415159_j89687507076125_2_alg».proof.Proof.LibScatter1
import Idealize.ShloMosaic.Lib.IdealHost

open scoped BigOperators

noncomputable section

namespace Cert.RefVal

open Cert.ReferenceIdeal Cert.ReferenceIdeal.Gen Cert.ReferenceIdeal.Read Idealize.ShloMosaic Idealize.ShloMosaic.ValueIdx

section Pool

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 x9 x10 x11 x12 x13 x14 x15 x16 x17 x18 x19 x20 : (⟨S256, .f32⟩ : BufTy).Contents (Elt Ideal))
  (x21 : (⟨S256x256, .f32⟩ : BufTy).Contents (Elt Ideal)) (x22 : (⟨S256, .f32⟩ : BufTy).Contents (Elt Ideal))
  (x23 : (⟨S256x1, .f32⟩ : BufTy).Contents (Elt Ideal)) (x24 : (⟨S1, .f32⟩ : BufTy).Contents (Elt Ideal))

theorem ref_pooled (g : Fin 512) (j : Fin 256) :
    val_main_v162 (F := Ideal) x0 x1 x2 x3 x4 x5 x6 x7 x8 x9 x10 x11 x12 x13 x14 x15 x16 x17 x18 x19 x20 (ix2 g j) =
      Cert.Spec.pooled (val_main_v152 (F := Ideal) x2) (fun g => val_main_v157 (F := Ideal) x2 (ix1 g))
        (fun n j => val_main_v150 (F := Ideal) x0 x1 x3 x4 x5 x6 x7 x8 x9 x10 x11 x12 x13 x14 x15 x16 x17 x18 x19 x20 (ix2 n j)) g j := by
  have e1 : idx_main_v160 (idx_main_v161 (ix2 g j)) = ix1 g :=
    funext fun a => Fin.ext (by match a with | ⟨0, _⟩ => rfl)
  rw [val_main_v162_apply, val_main_v161_apply, val_main_v160_apply, e1, val_main_v159_apply, val_main_v158_apply,
    val_main_cst_22_apply]
  unfold val_main_v153
  rw [Cert.Bridge.GS.scatterAdd_apply _ rfl rfl rfl rfl, val_main_v151_apply, val_main_cst_19_apply]
  simp only [Ideal.hostDivf_def, Ideal.maximumf_def, Ideal.ofBits_def, Ideal.ofBits_zero_f32, Ideal.ofBits_one_f32, zero_add]
  rfl

theorem ref_hidden (g : Fin 512) (k : Fin 256) :
    val_main_v167 (F := Ideal) x0 x1 x2 x3 x4 x5 x6 x7 x8 x9 x10 x11 x12 x13 x14 x15 x16 x17 x18 x19 x20 x21 x22 (ix2 g k) =
      max ((∑ k' : Fin 256,
        val_main_v162 (F := Ideal) x0 x1 x2 x3 x4 x5 x6 x7 x8 x9 x10 x11 x12 x13 x14 x15 x16 x17 x18 x19 x20 (ix2 g k') *
          x21 (ix2 k' k)) + x22 (ix1 k)) 0 := by
  have el : ∀ k' : Fin 256, lidx_main_v163 (ix2 g k) k' = ix2 g k' := fun k' =>
    funext fun a => Fin.ext (by match a with | ⟨0, _⟩ => rfl | ⟨1, _⟩ => rfl)
  have er : ∀ k' : Fin 256, ridx_main_v163 (ix2 g k) k' = ix2 k' k := fun k' =>
    funext fun a => Fin.ext (by match a with | ⟨0, _⟩ => rfl | ⟨1, _⟩ => rfl)
  have eb : idx_main_v164 (idx_main_v165 (ix2 g k)) = ix1 k :=
    funext fun a => Fin.ext (by match a with | ⟨0, _⟩ => rfl)
  rw [val_main_v167_apply, val_main_v166_apply, val_main_v163_apply, val_main_v165_apply, val_main_v164_apply, eb,
    val_main_call3_v0_apply, val_main_call3_cst_apply]
  simp only [el, er, Ideal.maximumf_def, Ideal.addf_def, Ideal.ofBits_def, Ideal.ofBits_zero_f32]

theorem ref_pool (g : Fin 512) :
    val_main_v171 (F := Ideal) x0 x1 x2 x3 x4 x5 x6 x7 x8 x9 x10 x11 x12 x13 x14 x15 x16 x17 x18 x19 x20 x21 x22 x23 x24 (ix2 g 0) =
      Cert.Spec.head
        (Cert.Spec.pooled (val_main_v152 (F := Ideal) x2) (fun g => val_main_v157 (F := Ideal) x2 (ix1 g))
          (fun n j => val_main_v150 (F := Ideal) x0 x1 x3 x4 x5 x6 x7 x8 x9 x10 x11 x12 x13 x14 x15 x16 x17 x18 x19 x20 (ix2 n j)))
        (fun k j => x21 (ix2 k j)) (fun j => x22 (ix1 j)) (fun k => x23 (ix2 k 0)) (x24 (ix1 0)) g := by
  have el : ∀ k : Fin 256, lidx_main_v168 (ix2 g 0) k = ix2 g k := fun k =>
    funext fun a => Fin.ext (by match a with | ⟨0, _⟩ => rfl | ⟨1, _⟩ => rfl)
  have er : ∀ k : Fin 256, ridx_main_v168 (ix2 g 0) k = ix2 k 0 := fun k =>
    funext fun a => Fin.ext (by match a with | ⟨0, _⟩ => rfl | ⟨1, _⟩ => rfl)
  have eb : idx_main_v169 (idx_main_v170 (ix2 g 0)) = ix1 0 :=
    funext fun a => Fin.ext (by match a with | ⟨0, _⟩ => rfl)
  rw [val_main_v171_apply, val_main_v168_apply, val_main_v170_apply, val_main_v169_apply, eb]
  simp only [el, er, ref_hidden, ref_pooled, Ideal.addf_def]
  rfl

end Pool

end Cert.RefVal

end
-- ==== Proof.Ref.Scale.lean ====
import Idealize.ShloMosaic.PureOps.Ideal
import Mathlib.Data.EReal.Inv
import proofs.«415159_j89687507076125_2_alg».proof.Proof.Spec

noncomputable section

namespace Cert.RefVal

open Idealize.ShloMosaic

theorem eps_eq : Cert.Spec.eps = (((10995116 : ℝ) * (2 : ℝ) ^ (-40 : Int) : ℝ) : EReal) := by
  unfold Cert.Spec.eps
  simp [Ideal.ofBits, Ideal.ieee, -EReal.coe_mul]

theorem eps_pos : ∃ e : ℝ, 0 < e ∧ Cert.Spec.eps = (e : EReal) :=
  ⟨_, by positivity, eps_eq⟩

theorem div_sqrt_coe (g : EReal) (r : ℝ) (hr : 0 < r) :
    Ideal.div g (Ideal.sqrt (r : EReal)) = g * Ideal.rsqrt (r : EReal) := by
  have hs : Real.sqrt r ≠ 0 := (Real.sqrt_pos.mpr hr).ne'
  rw [Ideal.sqrt_coe, Ideal.rsqrt_coe, if_neg (not_lt.mpr hr.le), if_neg (not_lt.mpr hr.le), if_neg hr.ne']
  unfold Ideal.div
  rw [if_neg (EReal.coe_ne_zero.mpr hs), EReal.coe_inv]

theorem var_add_eps (v : EReal) (h0 : 0 ≤ v) (ht : v ≠ ⊤) : ∃ r : ℝ, 0 < r ∧ v + Cert.Spec.eps = (r : EReal) := by
  obtain ⟨e, he, hee⟩ := eps_pos
  have hb : v ≠ ⊥ := fun h => by rw [h] at h0; exact absurd h0 (by simp)
  obtain ⟨a, rfl⟩ : ∃ a : ℝ, v = (a : EReal) := ⟨v.toReal, (EReal.coe_toReal ht hb).symm⟩
  have ha : 0 ≤ a := EReal.coe_nonneg.mp h0
  exact ⟨a + e, by linarith, by rw [hee, EReal.coe_add]⟩

theorem scale_eq (g v : EReal) (h0 : 0 ≤ v) (ht : v ≠ ⊤) :
    Ideal.div g (Ideal.sqrt (v + Cert.Spec.eps)) = g * Ideal.rsqrt (v + Cert.Spec.eps) := by
  obtain ⟨r, hr, hre⟩ := var_add_eps v h0 ht
  rw [hre]
  exact div_sqrt_coe g r hr

theorem scale_eq_word (g v : EReal) (h0 : 0 ≤ v) (ht : v ≠ ⊤) :
    Ideal.div g (Ideal.sqrt (v + Ideal.ofBits .f32 0x3727C5AC#32)) = g * Ideal.rsqrt (v + Cert.Spec.eps) :=
  scale_eq g v h0 ht

end Cert.RefVal

end
-- ==== Proof.Ref.Gather1.lean ====
import Idealize.ShloMosaic.Lib.StableHlo.Predicate
import Idealize.ShloMosaic.Lib.ValueIdx

namespace Cert.RefVal.G1

open Idealize.ShloMosaic Idealize.ShloMosaic.ValueIdx

-- The library's rank-one take, restated at the coordinate constructors the other modules use.
theorem gather1_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  have h1 : ∀ {n : Nat} (k : Fin n), (ix1 k : (⟨1, ![n]⟩ : Shape).Idx) = Shape.Idx.ofFin k :=
    fun k => funext fun a => match a with | ⟨0, _⟩ => rfl
  have h2 : ix2 e (0 : Fin 1) = StableHlo.Predicate.ixP e := funext fun a => match a with | ⟨0, _⟩ => rfl | ⟨1, _⟩ => rfl
  have h := StableHlo.Predicate.gather_take d hcoll hob hsim hivd x idx e hN
  simp only [← h1, ← h2] at h
  exact h

end Cert.RefVal.G1
-- ==== Proof.Ref.Layer1.lean ====
import proofs.«415159_j89687507076125_2_alg».proof.Proof.Gen.ReferenceIdeal.Read
import proofs.«415159_j89687507076125_2_alg».proof.Proof.Spec
import proofs.«415159_j89687507076125_2_alg».proof.Proof.LibGatherScatter
import proofs.«415159_j89687507076125_2_alg».proof.Proof.LibScatter1
import proofs.«415159_j89687507076125_2_alg».proof.Proof.Ref.Scale
import proofs.«415159_j89687507076125_2_alg».proof.Proof.Ref.Gather1
import Idealize.ShloMosaic.PureOps.Ideal.Laws
import Idealize.ShloMosaic.Lib.ValueIdx

open scoped BigOperators

noncomputable section

namespace Cert.RefVal

open Cert.ReferenceIdeal Cert.ReferenceIdeal.Gen Cert.ReferenceIdeal.Read Idealize.ShloMosaic Idealize.ShloMosaic.ValueIdx

theorem v33_at (x1 : IVec S2x800000 32) (n : Fin 50000) (j : Fin 256) :
    val_main_v33 (F := Ideal) x1 (ix2 n j) = val_main_v10 (F := Ideal) x1 (ix1 n) := by
  rw [val_main_v33_apply, val_main_v32_apply]
  exact congrArg _ (funext fun a => Fin.ext (by match a with | ⟨0, _⟩ => rfl))

theorem v37_at (x1 : IVec S2x800000 32) (n : Fin 50000) (j : Fin 256) :
    val_main_v37 (F := Ideal) x1 (ix2 n j) = val_main_v10 (F := Ideal) x1 (ix1 n) * val_main_v10 (F := Ideal) x1 (ix1 n) := by
  rw [val_main_v37_apply, val_main_v36_apply, val_main_v35_apply, Ideal.mulf_def]
  have e : idx_main_v36 (idx_main_v37 (ix2 n j)) = ix1 n :=
    funext fun a => Fin.ext (by match a with | ⟨0, _⟩ => rfl)
  rw [e]

theorem v41_at (x4 : FVec Ideal S256 .f32) (n : Fin 50000) (j : Fin 256) :
    val_main_v41 (F := Ideal) x4 (ix2 n j) = x4 (ix1 j) := by
  rw [val_main_v41_apply, val_main_v40_apply]
  exact congrArg _ (funext fun a => Fin.ext (by match a with | ⟨0, _⟩ => rfl))

theorem v45_at (x11 : FVec Ideal S256 .f32) (n : Fin 50000) (j : Fin 256) :
    val_main_v45 (F := Ideal) x11 (ix2 n j) = x11 (ix1 j) := by
  rw [val_main_v45_apply, val_main_v44_apply]
  exact congrArg _ (funext fun a => Fin.ext (by match a with | ⟨0, _⟩ => rfl))

theorem v55_at (x10 : FVec Ideal S256 .f32) (n : Fin 50000) (j : Fin 256) :
    val_main_v55 (F := Ideal) x10 (ix2 n j) = x10 (ix1 j) := by
  rw [val_main_v55_apply, val_main_v54_apply]
  exact congrArg _ (funext fun a => Fin.ext (by match a with | ⟨0, _⟩ => rfl))

theorem v52_at (x9 x12 : FVec Ideal S256 .f32) (n : Fin 50000) (j : Fin 256) :
    val_main_v52 (F := Ideal) x9 x12 (ix2 n j) = val_main_v50 (F := Ideal) x9 x12 (ix1 j) := by
  rw [val_main_v52_apply, val_main_v51_apply]
  exact congrArg _ (funext fun a => Fin.ext (by match a with | ⟨0, _⟩ => rfl))

theorem v29_at (i : S50000x256.Idx) : val_main_v29 (F := Ideal) i = 0 := by
  rw [val_main_v29_apply, val_main_cst_5_apply, Ideal.ofBits_def, Ideal.ofBits_zero_f32]

theorem call0_v0_at (i : S50000x256.Idx) : val_main_call0_v0 (F := Ideal) i = 0 := by
  rw [val_main_call0_v0_apply, val_main_call0_cst_apply, Ideal.ofBits_def, Ideal.ofBits_zero_f32]

theorem v11_at (x0 : FVec Ideal S50000x128 .f32) (x3 : FVec Ideal S128x256 .f32) (n : Fin 50000) (j : Fin 256) :
    val_main_v11 (F := Ideal) x0 x3 (ix2 n j)
      = Cert.Spec.mm (fun n k => x0 (ix2 n k)) (fun k j => x3 (ix2 k j)) n j := by
  rw [val_main_v11_apply]
  unfold Cert.Spec.mm
  refine Finset.sum_congr rfl fun k _ => ?_
  have el : lidx_main_v11 (ix2 n j) k = ix2 n k :=
    funext fun a => Fin.ext (by match a with | ⟨0, _⟩ => rfl | ⟨1, _⟩ => rfl)
  have er : ridx_main_v11 (ix2 n j) k = ix2 k j :=
    funext fun a => Fin.ext (by match a with | ⟨0, _⟩ => rfl | ⟨1, _⟩ => rfl)
  rw [el, er]

theorem v18_at (x0 : FVec Ideal S50000x128 .f32) (x1 : IVec S2x800000 32) (x3 : FVec Ideal S128x256 .f32)
    (e : Fin 800000) (j : Fin 256) :
    val_main_v18 (F := Ideal) x0 x1 x3 (ix2 e j)
      = val_main_v11 (F := Ideal) x0 x3 (ix2 (Cert.Spec.rowOf (val_main_v17 (F := Ideal) x1 (ix2 e 0))) j) := by
  unfold val_main_v18
  exact Cert.Bridge.GS.gather_apply (by omega) gather_S50000x256_S800000x1_S800000x256_1_0_n_n_0_1_1256 rfl rfl rfl rfl rfl
    _ _ e j

theorem v27_at (x1 : IVec S2x800000 32) (e : Fin 800000) (j : Fin 256) :
    val_main_v27 (F := Ideal) x1 (ix2 e j)
      = val_main_v10 (F := Ideal) x1 (ix1 (Cert.Spec.rowOf (val_main_v17 (F := Ideal) x1 (ix2 e 0)))) := by
  rw [val_main_v27_apply, val_main_v26_apply]
  have e1 : idx_main_v26 (idx_main_v27 (ix2 e j)) = ix1 e :=
    funext fun a => Fin.ext (by match a with | ⟨0, _⟩ => rfl)
  rw [e1]
  unfold val_main_v25
  exact G1.gather1_apply (by decide) gather_S50000_S800000x1_S800000_n_0_n_n_0_1_1 rfl rfl rfl rfl _ _ e

theorem v28_at (x0 : FVec Ideal S50000x128 .f32) (x1 : IVec S2x800000 32) (x3 : FVec Ideal S128x256 .f32)
    (e : Fin 800000) (j : Fin 256) :
    val_main_v28 (F := Ideal) x0 x1 x3 (ix2 e j)
      = Cert.Spec.mm (fun n k => x0 (ix2 n k)) (fun k j => x3 (ix2 k j))
            (Cert.Spec.rowOf (val_main_v17 (F := Ideal) x1 (ix2 e 0))) j
          * val_main_v10 (F := Ideal) x1 (ix1 (Cert.Spec.rowOf (val_main_v17 (F := Ideal) x1 (ix2 e 0)))) := by
  rw [val_main_v28_apply, Ideal.mulf_def, v18_at, v27_at, v11_at]

theorem v31_at (x0 : FVec Ideal S50000x128 .f32) (x1 : IVec S2x800000 32) (x3 : FVec Ideal S128x256 .f32)
    (n : Fin 50000) (j : Fin 256) :
    val_main_v31 (F := Ideal) x0 x1 x3 (ix2 n j)
      = Cert.Spec.agg (val_main_v17 (F := Ideal) x1) (val_main_v30 (F := Ideal) x1)
          (fun n => val_main_v10 (F := Ideal) x1 (ix1 n))
          (Cert.Spec.mm (fun n k => x0 (ix2 n k)) (fun k j => x3 (ix2 k j))) n j := by
  unfold val_main_v31
  rw [Cert.Bridge.GS.scatterAdd_apply scatter_S50000x256_S800000x1_S800000x256_1_0_0_1 rfl rfl rfl rfl _ _ _ n j,
    v29_at, zero_add]
  unfold Cert.Spec.agg Cert.Spec.hits
  exact Finset.sum_congr rfl fun e _ => v28_at x0 x1 x3 e j

theorem v42_at (x0 : FVec Ideal S50000x128 .f32) (x1 : IVec S2x800000 32) (x3 : FVec Ideal S128x256 .f32)
    (x4 : FVec Ideal S256 .f32) (n : Fin 50000) (j : Fin 256) :
    val_main_v42 (F := Ideal) x0 x1 x3 x4 (ix2 n j)
      = Cert.Spec.conv (val_main_v17 (F := Ideal) x1) (val_main_v30 (F := Ideal) x1)
          (fun n => val_main_v10 (F := Ideal) x1 (ix1 n))
          (Cert.Spec.mm (fun n k => x0 (ix2 n k)) (fun k j => x3 (ix2 k j))) (fun j => x4 (ix1 j)) n j := by
  rw [val_main_v42_apply, val_main_v39_apply, val_main_v34_apply, val_main_v38_apply, v31_at, v33_at, v11_at, v37_at,
    v41_at]
  simp only [Ideal.addf_def, Ideal.mulf_def]
  rfl

theorem v50_at (x9 x12 : FVec Ideal S256 .f32) (j : Fin 256) (hv : 0 ≤ x12 (ix1 j) ∧ x12 (ix1 j) ≠ ⊤) :
    val_main_v50 (F := Ideal) x9 x12 (ix1 j) = x9 (ix1 j) * Ideal.rsqrt (x12 (ix1 j) + Cert.Spec.eps) := by
  rw [val_main_v50_apply, val_main_v49_apply, val_main_v48_apply, val_main_v47_apply, val_main_cst_6_apply,
    Ideal.hostDivf_def, Ideal.hostUnary_sqrt_def, Ideal.addf_def, Ideal.ofBits_def]
  exact scale_eq_word _ _ hv.1 hv.2

theorem ref_layer1 (x0 : FVec Ideal S50000x128 .f32) (x1 : IVec S2x800000 32) (x3 : FVec Ideal S128x256 .f32)
    (x4 x9 x10 x11 x12 : FVec Ideal S256 .f32)
    (hv : ∀ j : Fin 256, 0 ≤ x12 (ix1 j) ∧ x12 (ix1 j) ≠ ⊤) (n : Fin 50000) (j : Fin 256) :
    val_main_v56 (F := Ideal) x0 x1 x3 x4 x9 x10 x11 x12 (ix2 n j)
      = Cert.Spec.layer1 (val_main_v17 (F := Ideal) x1) (val_main_v30 (F := Ideal) x1)
          (fun n : Fin 50000 => val_main_v10 (F := Ideal) x1 (ix1 n))
          (fun n k => x0 (ix2 n k)) (fun k j => x3 (ix2 k j)) (fun j => x4 (ix1 j)) (fun j => x9 (ix1 j))
          (fun j => x10 (ix1 j)) (fun j => x11 (ix1 j)) (fun j => x12 (ix1 j)) n j := by
  rw [val_main_v56_apply, val_main_v53_apply, val_main_v46_apply, val_main_v43_apply, v55_at, v52_at, v45_at,
    call0_v0_at, v42_at, v50_at x9 x12 j (hv j)]
  simp only [Ideal.addf_def, Ideal.mulf_def, Ideal.subf_def, Ideal.maximumf_def]
  rfl

end Cert.RefVal

end
-- ==== Proof.Ref.LayerR.lean ====
import proofs.«415159_j89687507076125_2_alg».proof.Proof.Gen.ReferenceIdeal.Read
import proofs.«415159_j89687507076125_2_alg».proof.Proof.Spec
import proofs.«415159_j89687507076125_2_alg».proof.Proof.LibGatherScatter
import proofs.«415159_j89687507076125_2_alg».proof.Proof.Ref.Scale
import proofs.«415159_j89687507076125_2_alg».proof.Proof.Ref.Gather1

open scoped BigOperators

noncomputable section

namespace Cert.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

abbrev Tab := FVec Ideal S50000x256 .f32
abbrev Sq := FVec Ideal S256x256 .f32
abbrev Row := FVec Ideal S256 .f32
abbrev Edges := IVec S2x800000 32
abbrev Msg := FVec Ideal S800000x256 .f32

def lin (hin : Tab) (W : Sq) : Tab :=
  Host.dotGeneral (F := Ideal) dot_S50000x256_S256x256_S50000x256_1_0_0_1_n_n none hin W

def msgs (x1 : Edges) (h : Tab) : Msg :=
  mulf (F := Ideal) (Host.gather gather_S50000x256_S800000x1_S800000x256_1_0_n_n_0_1_1256 h (val_main_v63 (F := Ideal) x1))
    (val_main_v73 (F := Ideal) x1)

def aggr (x1 : Edges) (h : Tab) : Tab :=
  Host.scatterAdd (F := Ideal) scatter_S50000x256_S800000x1_S800000x256_1_0_0_1 (val_main_v75 (F := Ideal)) (val_main_v76 (F := Ideal) x1)
    (msgs x1 h)

def convR (x1 : Edges) (h : Tab) (b : Row) : Tab :=
  addf (F := Ideal) (addf (F := Ideal) (mulf (F := Ideal) (aggr x1 h) (val_main_v79 (F := Ideal) x1)) (mulf (F := Ideal) h (val_main_v83 (F := Ideal) x1)))
    (val_main_v87 (F := Ideal) b)

def bnR (y : Tab) (g be mu v : Row) : Tab :=
  addf (F := Ideal) (mulf (F := Ideal) (subf (F := Ideal) (maximumf (F := Ideal) y (val_main_call1_v0 (F := Ideal))) (val_main_v91 (F := Ideal) mu))
    (val_main_v98 (F := Ideal) g v)) (val_main_v101 (F := Ideal) be)

def layerRef (x1 : Edges) (hin : Tab) (W : Sq) (b g be mu v : Row) : Tab :=
  addf (F := Ideal) hin (bnR (convR x1 (lin hin W) b) g be mu v)

theorem lin_apply (hin : Tab) (W : Sq) (n : Fin 50000) (j : Fin 256) :
    lin hin W (ix2 n j) = ∑ k : Fin 256, hin (ix2 n k) * W (ix2 k j) := by
  unfold lin
  simp only [Host.dotGeneral]
  rw [Ideal.dotGeneral_apply,
    ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ix2 n j)
      ((ValueIdx.contrEquiv1 dot_S50000x256_S256x256_S50000x256_1_0_0_1_n_n 256 rfl rfl).symm k) = ix2 n k :=
    funext fun a => Fin.ext (by
      match a with
      | ⟨0, _⟩ => exact lhs_main_v57_0 _ _
      | ⟨1, _⟩ => exact (lhs_main_v57_1 _ _).trans hk)
  have er : dot_S50000x256_S256x256_S50000x256_1_0_0_1_n_n.rhsIdx (ix2 n j)
      ((ValueIdx.contrEquiv1 dot_S50000x256_S256x256_S50000x256_1_0_0_1_n_n 256 rfl rfl).symm k) = ix2 k j :=
    funext fun a => Fin.ext (by
      match a with
      | ⟨0, _⟩ => exact (rhs_main_v57_0 _ _).trans hk
      | ⟨1, _⟩ => exact rhs_main_v57_1 _ _)
  rw [el, er]

theorem zeroAcc_apply (i : S50000x256.Idx) : val_main_v75 (F := Ideal) i = 0 := by
  rw [val_main_v75_apply, val_main_cst_11_apply]
  exact Ideal.ofBits_zero_f32

theorem zeroTab_apply (i : S50000x256.Idx) : val_main_call1_v0 (F := Ideal) i = 0 := by
  rw [val_main_call1_v0_apply, val_main_call1_cst_apply]
  exact Ideal.ofBits_zero_f32

theorem dinvCol_apply (x1 : Edges) (n : Fin 50000) (j : Fin 256) :
    val_main_v79 (F := Ideal) x1 (ix2 n j) = val_main_v10 (F := Ideal) x1 (ix1 n) := by
  rw [val_main_v79_apply, val_main_v78_apply]
  exact congrArg _ (funext fun a => match a with | ⟨0, _⟩ => rfl)

theorem dinvSq_apply (x1 : Edges) (n : Fin 50000) (j : Fin 256) :
    val_main_v83 (F := Ideal) x1 (ix2 n j) = val_main_v10 (F := Ideal) x1 (ix1 n) * val_main_v10 (F := Ideal) x1 (ix1 n) := by
  rw [val_main_v83_apply, val_main_v82_apply, val_main_v81_apply]
  have hi : idx_main_v82 (idx_main_v83 (ix2 n j)) = ix1 n := funext fun a => match a with | ⟨0, _⟩ => rfl
  rw [hi]
  rfl

theorem biasRow_apply (b : Row) (n : Fin 50000) (j : Fin 256) : val_main_v87 (F := Ideal) b (ix2 n j) = b (ix1 j) := by
  rw [val_main_v87_apply, val_main_v86_apply]
  exact congrArg _ (funext fun a => match a with | ⟨0, _⟩ => rfl)

theorem meanRow_apply (mu : Row) (n : Fin 50000) (j : Fin 256) : val_main_v91 (F := Ideal) mu (ix2 n j) = mu (ix1 j) := by
  rw [val_main_v91_apply, val_main_v90_apply]
  exact congrArg _ (funext fun a => match a with | ⟨0, _⟩ => rfl)

theorem shiftRow_apply (be : Row) (n : Fin 50000) (j : Fin 256) : val_main_v101 (F := Ideal) be (ix2 n j) = be (ix1 j) := by
  rw [val_main_v101_apply, val_main_v100_apply]
  exact congrArg _ (funext fun a => match a with | ⟨0, _⟩ => rfl)

theorem scaleRow_apply (g v : Row) (n : Fin 50000) (j : Fin 256) :
    val_main_v98 (F := Ideal) g v (ix2 n j)
      = Ideal.div (g (ix1 j)) (Ideal.sqrt (v (ix1 j) + Ideal.ofBits .f32 0x3727C5AC#32)) := by
  rw [val_main_v98_apply, val_main_v97_apply, val_main_v96_apply, val_main_v95_apply, val_main_v94_apply,
    val_main_v93_apply, val_main_cst_12_apply]
  have hi : idx_main_v97 (idx_main_v98 (ix2 n j)) = ix1 j := funext fun a => match a with | ⟨0, _⟩ => rfl
  rw [hi]
  rfl

theorem dinvEdge_apply (x1 : Edges) (e : Fin 800000) (j : Fin 256) :
    val_main_v73 (F := Ideal) x1 (ix2 e j)
      = val_main_v10 (F := Ideal) x1 (ix1 (Cert.Spec.rowOf (val_main_v17 (F := Ideal) x1 (ix2 e 0)))) := by
  rw [val_main_v73_apply, val_main_v72_apply]
  have hi : idx_main_v72 (idx_main_v73 (ix2 e j)) = ix1 e := funext fun a => match a with | ⟨0, _⟩ => rfl
  rw [hi]
  unfold val_main_v71
  exact G1.gather1_apply (by decide) gather_S50000_S800000x1_S800000_n_0_n_n_0_1_1 rfl rfl rfl rfl _ _ e

theorem msgs_apply (x1 : Edges) (h : Tab) (e : Fin 800000) (j : Fin 256) :
    msgs x1 h (ix2 e j)
      = h (ix2 (Cert.Spec.rowOf (val_main_v17 (F := Ideal) x1 (ix2 e 0))) j)
        * val_main_v10 (F := Ideal) x1 (ix1 (Cert.Spec.rowOf (val_main_v17 (F := Ideal) x1 (ix2 e 0)))) := by
  unfold msgs
  rw [ValueIdx.mulf_apply, dinvEdge_apply,
    Cert.Bridge.GS.gather_apply (by decide) gather_S50000x256_S800000x1_S800000x256_1_0_n_n_0_1_1256 rfl rfl rfl rfl rfl]
  rfl

theorem aggr_apply (x1 : Edges) (h : Tab) (n : Fin 50000) (j : Fin 256) :
    aggr x1 h (ix2 n j)
      = Cert.Spec.agg (val_main_v17 (F := Ideal) x1) (val_main_v30 (F := Ideal) x1)
          (fun n => val_main_v10 (F := Ideal) x1 (ix1 n)) (fun n j => h (ix2 n j)) n j := by
  unfold aggr
  rw [Cert.Bridge.GS.scatterAdd_apply scatter_S50000x256_S800000x1_S800000x256_1_0_0_1 rfl rfl rfl rfl, zeroAcc_apply,
    zero_add]
  unfold Cert.Spec.agg Cert.Spec.hits
  refine Finset.sum_congr rfl fun e _ => ?_
  exact msgs_apply x1 h e j

theorem convR_apply (x1 : Edges) (h : Tab) (b : Row) (n : Fin 50000) (j : Fin 256) :
    convR x1 h b (ix2 n j)
      = Cert.Spec.conv (val_main_v17 (F := Ideal) x1) (val_main_v30 (F := Ideal) x1)
          (fun n => val_main_v10 (F := Ideal) x1 (ix1 n)) (fun n j => h (ix2 n j)) (fun j => b (ix1 j)) n j := by
  unfold convR
  rw [ValueIdx.addf_apply, ValueIdx.addf_apply, ValueIdx.mulf_apply, ValueIdx.mulf_apply, aggr_apply, dinvCol_apply,
    dinvSq_apply, biasRow_apply]
  rfl

theorem bnR_apply (y : Tab) (g be mu v : Row) (hv : ∀ j : Fin 256, 0 ≤ v (ix1 j) ∧ v (ix1 j) ≠ ⊤)
    (n : Fin 50000) (j : Fin 256) :
    bnR y g be mu v (ix2 n j)
      = Cert.Spec.bn (fun n j => y (ix2 n j)) (fun j => g (ix1 j)) (fun j => be (ix1 j)) (fun j => mu (ix1 j))
          (fun j => v (ix1 j)) n j := by
  unfold bnR
  rw [ValueIdx.addf_apply, ValueIdx.mulf_apply, ValueIdx.subf_apply, ValueIdx.maximumf_apply, zeroTab_apply,
    meanRow_apply, scaleRow_apply, shiftRow_apply, scale_eq_word _ _ (hv j).1 (hv j).2]
  rfl

theorem layerRef_apply (x1 : Edges) (hin : Tab) (W : Sq) (b g be mu v : Row)
    (hv : ∀ j : Fin 256, 0 ≤ v (ix1 j) ∧ v (ix1 j) ≠ ⊤) (n : Fin 50000) (j : Fin 256) :
    layerRef x1 hin W b g be mu v (ix2 n j)
      = Cert.Spec.layerR (val_main_v17 (F := Ideal) x1) (val_main_v30 (F := Ideal) x1)
          (fun n => val_main_v10 (F := Ideal) x1 (ix1 n)) (fun n j => hin (ix2 n j)) (fun k j => W (ix2 k j))
          (fun j => b (ix1 j)) (fun j => g (ix1 j)) (fun j => be (ix1 j)) (fun j => mu (ix1 j)) (fun j => v (ix1 j)) n j := by
  have hlin : (fun (n : Fin 50000) (j : Fin 256) => lin hin W (ix2 n j))
      = Cert.Spec.mm (fun n k => hin (ix2 n k)) (fun k j => W (ix2 k j)) := by
    funext n j; exact lin_apply hin W n j
  have hconv : (fun (n : Fin 50000) (j : Fin 256) => convR x1 (lin hin W) b (ix2 n j))
      = Cert.Spec.conv (val_main_v17 (F := Ideal) x1) (val_main_v30 (F := Ideal) x1)
          (fun n => val_main_v10 (F := Ideal) x1 (ix1 n)) (Cert.Spec.mm (fun n k => hin (ix2 n k)) (fun k j => W (ix2 k j)))
          (fun j => b (ix1 j)) := by
    funext n j; rw [convR_apply, hlin]
  unfold layerRef
  rw [ValueIdx.addf_apply, bnR_apply _ _ _ _ _ hv, hconv, add_comm]
  rfl

end Cert.RefVal

end
-- ==== Proof.Ref.Layer2.lean ====
import proofs.«415159_j89687507076125_2_alg».proof.Proof.Ref.LayerR

open scoped BigOperators

noncomputable section

namespace Cert.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem v103_eq (x0 : (⟨S50000x128, .f32⟩ : BufTy).Contents (Elt Ideal)) (x1 : (⟨S2x800000, .i32⟩ : BufTy).Contents (Elt Ideal))
    (x3 : (⟨S128x256, .f32⟩ : BufTy).Contents (Elt Ideal)) (x4 : (⟨S256, .f32⟩ : BufTy).Contents (Elt Ideal)) (x5 : (⟨S256x256, .f32⟩ : BufTy).Contents (Elt Ideal))
    (x6 x9 x10 x11 x12 x13 x14 x15 x16 : (⟨S256, .f32⟩ : BufTy).Contents (Elt Ideal)) :
    val_main_v103 (F := Ideal) x0 x1 x3 x4 x5 x6 x9 x10 x11 x12 x13 x14 x15 x16
      = layerRef x1 (val_main_v56 (F := Ideal) x0 x1 x3 x4 x9 x10 x11 x12) x5 x6 x13 x14 x15 x16 := rfl

theorem ref_layer2 (x0 : (⟨S50000x128, .f32⟩ : BufTy).Contents (Elt Ideal)) (x1 : (⟨S2x800000, .i32⟩ : BufTy).Contents (Elt Ideal))
    (x3 : (⟨S128x256, .f32⟩ : BufTy).Contents (Elt Ideal)) (x4 : (⟨S256, .f32⟩ : BufTy).Contents (Elt Ideal)) (x5 : (⟨S256x256, .f32⟩ : BufTy).Contents (Elt Ideal))
    (x6 x9 x10 x11 x12 x13 x14 x15 x16 : (⟨S256, .f32⟩ : BufTy).Contents (Elt Ideal))
    (hv : ∀ j : Fin 256, 0 ≤ x16 (ix1 j) ∧ x16 (ix1 j) ≠ ⊤) (n : Fin 50000) (j : Fin 256) :
    val_main_v103 (F := Ideal) x0 x1 x3 x4 x5 x6 x9 x10 x11 x12 x13 x14 x15 x16 (ix2 n j)
      = Cert.Spec.layerR (val_main_v17 (F := Ideal) x1) (val_main_v30 (F := Ideal) x1)
          (fun n : Fin 50000 => val_main_v10 (F := Ideal) x1 (ix1 n))
          (fun n j => val_main_v56 (F := Ideal) x0 x1 x3 x4 x9 x10 x11 x12 (ix2 n j))
          (fun k j => x5 (ix2 k j)) (fun j => x6 (ix1 j)) (fun j => x13 (ix1 j)) (fun j => x14 (ix1 j))
          (fun j => x15 (ix1 j)) (fun j => x16 (ix1 j)) n j := by
  rw [v103_eq]
  exact layerRef_apply x1 _ x5 x6 x13 x14 x15 x16 hv n j

end Cert.RefVal

end
-- ==== Proof.Ref.Layer3.lean ====
import proofs.«415159_j89687507076125_2_alg».proof.Proof.Ref.LayerR

open scoped BigOperators

noncomputable section

namespace Cert.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

theorem v150_eq (x0 : (⟨S50000x128, .f32⟩ : BufTy).Contents (Elt Ideal)) (x1 : (⟨S2x800000, .i32⟩ : BufTy).Contents (Elt Ideal))
    (x3 : (⟨S128x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 x9 x10 x11 x12 x13 x14 x15 x16 x17 x18 x19 x20 : (⟨S256, .f32⟩ : BufTy).Contents (Elt Ideal)) :
    val_main_v150 (F := Ideal) x0 x1 x3 x4 x5 x6 x7 x8 x9 x10 x11 x12 x13 x14 x15 x16 x17 x18 x19 x20
      = layerRef x1 (val_main_v103 (F := Ideal) x0 x1 x3 x4 x5 x6 x9 x10 x11 x12 x13 x14 x15 x16) x7 x8 x17 x18 x19 x20 := rfl

theorem ref_layer3 (x0 : (⟨S50000x128, .f32⟩ : BufTy).Contents (Elt Ideal)) (x1 : (⟨S2x800000, .i32⟩ : BufTy).Contents (Elt Ideal))
    (x3 : (⟨S128x256, .f32⟩ : BufTy).Contents (Elt Ideal)) (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 x9 x10 x11 x12 x13 x14 x15 x16 x17 x18 x19 x20 : (⟨S256, .f32⟩ : BufTy).Contents (Elt Ideal))
    (hv : ∀ j : Fin 256, 0 ≤ x20 (ix1 j) ∧ x20 (ix1 j) ≠ ⊤) (n : Fin 50000) (j : Fin 256) :
    val_main_v150 (F := Ideal) x0 x1 x3 x4 x5 x6 x7 x8 x9 x10 x11 x12 x13 x14 x15 x16 x17 x18 x19 x20 (ix2 n j)
      = Cert.Spec.layerR (val_main_v17 (F := Ideal) x1) (val_main_v30 (F := Ideal) x1)
          (fun n : Fin 50000 => val_main_v10 (F := Ideal) x1 (ix1 n))
          (fun n j => val_main_v103 (F := Ideal) x0 x1 x3 x4 x5 x6 x9 x10 x11 x12 x13 x14 x15 x16 (ix2 n j))
          (fun k j => x7 (ix2 k j)) (fun j => x8 (ix1 j)) (fun j => x17 (ix1 j)) (fun j => x18 (ix1 j))
          (fun j => x19 (ix1 j)) (fun j => x20 (ix1 j)) n j := by
  rw [v150_eq]
  exact layerRef_apply x1 _ x7 x8 x17 x18 x19 x20 hv n j

end Cert.RefVal

end
-- ==== Proof.Ref.RVal.lean ====
import proofs.«415159_j89687507076125_2_alg».proof.Proof.Ref.Pool
import proofs.«415159_j89687507076125_2_alg».proof.Proof.Ref.Layer1
import proofs.«415159_j89687507076125_2_alg».proof.Proof.Ref.Layer2
import proofs.«415159_j89687507076125_2_alg».proof.Proof.Ref.Layer3

open scoped BigOperators

noncomputable section

namespace Cert.RefVal

open Cert.ReferenceIdeal Cert.ReferenceIdeal.Gen Cert.ReferenceIdeal.Read Idealize.ShloMosaic Idealize.ShloMosaic.ValueIdx

section Whole

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 x9 x10 x11 x12 x13 x14 x15 x16 x17 x18 x19 x20 : (⟨S256, .f32⟩ : BufTy).Contents (Elt Ideal))
  (x21 : (⟨S256x256, .f32⟩ : BufTy).Contents (Elt Ideal)) (x22 : (⟨S256, .f32⟩ : BufTy).Contents (Elt Ideal))
  (x23 : (⟨S256x1, .f32⟩ : BufTy).Contents (Elt Ideal)) (x24 : (⟨S1, .f32⟩ : BufTy).Contents (Elt Ideal))

theorem ref_val
    (hv1 : ∀ j : Fin 256, 0 ≤ x12 (ix1 j) ∧ x12 (ix1 j) ≠ ⊤)
    (hv2 : ∀ j : Fin 256, 0 ≤ x16 (ix1 j) ∧ x16 (ix1 j) ≠ ⊤)
    (hv3 : ∀ j : Fin 256, 0 ≤ x20 (ix1 j) ∧ x20 (ix1 j) ≠ ⊤) (g : Fin 512) :
    val_main_v171 (F := Ideal) x0 x1 x2 x3 x4 x5 x6 x7 x8 x9 x10 x11 x12 x13 x14 x15 x16 x17 x18 x19 x20 x21 x22 x23 x24 (ix2 g 0) =
      Cert.Spec.out (val_main_v17 (F := Ideal) x1) (val_main_v30 (F := Ideal) x1)
        (fun n : Fin 50000 => val_main_v10 (F := Ideal) x1 (ix1 n))
        (val_main_v152 (F := Ideal) x2) (fun g => val_main_v157 (F := Ideal) x2 (ix1 g))
        (fun n k => x0 (ix2 n k))
        (fun k j => x3 (ix2 k j)) (fun j => x4 (ix1 j)) (fun j => x9 (ix1 j)) (fun j => x10 (ix1 j)) (fun j => x11 (ix1 j))
        (fun j => x12 (ix1 j))
        (fun k j => x5 (ix2 k j)) (fun j => x6 (ix1 j)) (fun j => x13 (ix1 j)) (fun j => x14 (ix1 j)) (fun j => x15 (ix1 j))
        (fun j => x16 (ix1 j))
        (fun k j => x7 (ix2 k j)) (fun j => x8 (ix1 j)) (fun j => x17 (ix1 j)) (fun j => x18 (ix1 j)) (fun j => x19 (ix1 j))
        (fun j => x20 (ix1 j))
        (fun k j => x21 (ix2 k j)) (fun j => x22 (ix1 j)) (fun k => x23 (ix2 k 0)) (x24 (ix1 0)) g := by

  have h1 : (fun (n : Fin 50000) (j : Fin 256) => val_main_v56 (F := Ideal) x0 x1 x3 x4 x9 x10 x11 x12 (ix2 n j)) =
      Cert.Spec.layer1 (val_main_v17 (F := Ideal) x1) (val_main_v30 (F := Ideal) x1)
        (fun n : Fin 50000 => val_main_v10 (F := Ideal) x1 (ix1 n))
        (fun n k => x0 (ix2 n k)) (fun k j => x3 (ix2 k j)) (fun j => x4 (ix1 j)) (fun j => x9 (ix1 j))
        (fun j => x10 (ix1 j)) (fun j => x11 (ix1 j)) (fun j => x12 (ix1 j)) :=
    funext fun n => funext fun j => ref_layer1 x0 x1 x3 x4 x9 x10 x11 x12 hv1 n j

  have h2 : (fun (n : Fin 50000) (j : Fin 256) =>
        val_main_v103 (F := Ideal) x0 x1 x3 x4 x5 x6 x9 x10 x11 x12 x13 x14 x15 x16 (ix2 n j)) =
      Cert.Spec.layerR (val_main_v17 (F := Ideal) x1) (val_main_v30 (F := Ideal) x1)
        (fun n : Fin 50000 => val_main_v10 (F := Ideal) x1 (ix1 n))
        (Cert.Spec.layer1 (val_main_v17 (F := Ideal) x1) (val_main_v30 (F := Ideal) x1)
          (fun n : Fin 50000 => val_main_v10 (F := Ideal) x1 (ix1 n))
          (fun n k => x0 (ix2 n k)) (fun k j => x3 (ix2 k j)) (fun j => x4 (ix1 j)) (fun j => x9 (ix1 j))
          (fun j => x10 (ix1 j)) (fun j => x11 (ix1 j)) (fun j => x12 (ix1 j)))
        (fun k j => x5 (ix2 k j)) (fun j => x6 (ix1 j)) (fun j => x13 (ix1 j)) (fun j => x14 (ix1 j))
        (fun j => x15 (ix1 j)) (fun j => x16 (ix1 j)) :=
    funext fun n => funext fun j => by
      rw [ref_layer2 x0 x1 x3 x4 x5 x6 x9 x10 x11 x12 x13 x14 x15 x16 hv2 n j, h1]

  have h3 : (fun (n : Fin 50000) (j : Fin 256) =>
        val_main_v150 (F := Ideal) x0 x1 x3 x4 x5 x6 x7 x8 x9 x10 x11 x12 x13 x14 x15 x16 x17 x18 x19 x20 (ix2 n j)) =
      Cert.Spec.layerR (val_main_v17 (F := Ideal) x1) (val_main_v30 (F := Ideal) x1)
        (fun n : Fin 50000 => val_main_v10 (F := Ideal) x1 (ix1 n))
        (Cert.Spec.layerR (val_main_v17 (F := Ideal) x1) (val_main_v30 (F := Ideal) x1)
          (fun n : Fin 50000 => val_main_v10 (F := Ideal) x1 (ix1 n))
          (Cert.Spec.layer1 (val_main_v17 (F := Ideal) x1) (val_main_v30 (F := Ideal) x1)
            (fun n : Fin 50000 => val_main_v10 (F := Ideal) x1 (ix1 n))
            (fun n k => x0 (ix2 n k)) (fun k j => x3 (ix2 k j)) (fun j => x4 (ix1 j)) (fun j => x9 (ix1 j))
            (fun j => x10 (ix1 j)) (fun j => x11 (ix1 j)) (fun j => x12 (ix1 j)))
          (fun k j => x5 (ix2 k j)) (fun j => x6 (ix1 j)) (fun j => x13 (ix1 j)) (fun j => x14 (ix1 j))
          (fun j => x15 (ix1 j)) (fun j => x16 (ix1 j)))
        (fun k j => x7 (ix2 k j)) (fun j => x8 (ix1 j)) (fun j => x17 (ix1 j)) (fun j => x18 (ix1 j))
        (fun j => x19 (ix1 j)) (fun j => x20 (ix1 j)) :=
    funext fun n => funext fun j => by
      rw [ref_layer3 x0 x1 x3 x4 x5 x6 x7 x8 x9 x10 x11 x12 x13 x14 x15 x16 x17 x18 x19 x20 hv3 n j, h2]

  rw [ref_pool, h3]
  rfl

end Whole

end Cert.RefVal

end
-- ==== Proof.Ident.lean ====
import proofs.«415159_j89687507076125_2_alg».proof.Proof.Gen.ReferenceIdeal.Read
import proofs.«415159_j89687507076125_2_alg».proof.Proof.KernelIdeal.GlueDefs

noncomputable section

namespace Cert.Ident

open Idealize.ShloMosaic Idealize.ShloMosaic.TcCoe Idealize.ShloMosaic.ValueIdx

theorem srcCol_eq (ei : (⟨Cert.KernelIdeal.S2x800000, .i32⟩ : BufTy).Contents (Elt Ideal)) :
    Cert.KernelIdeal.Glue.srcCol ei = Cert.ReferenceIdeal.Read.val_main_v17 (F := Ideal) ei := rfl

theorem tgtCol_eq (ei : (⟨Cert.KernelIdeal.S2x800000, .i32⟩ : BufTy).Contents (Elt Ideal)) :
    Cert.KernelIdeal.Glue.tgtCol ei = Cert.ReferenceIdeal.Read.val_main_v30 (F := Ideal) ei := rfl

theorem dinvV_eq (ei : (⟨Cert.KernelIdeal.S2x800000, .i32⟩ : BufTy).Contents (Elt Ideal)) :
    Cert.KernelIdeal.Glue.dinvV ei = Cert.ReferenceIdeal.Read.val_main_v10 (F := Ideal) ei := rfl

theorem batchClip_eq (b : (⟨Cert.KernelIdeal.S50000, .i32⟩ : BufTy).Contents (Elt Ideal))
    (hb : ∀ i : Fin 50000, 0 ≤ (b (ix1 i)).toInt ∧ (b (ix1 i)).toInt < 512) :
    Cert.KernelIdeal.Glue.batchClip b = b := by
  funext j
  obtain ⟨i, rfl⟩ : ∃ i : Fin 50000, j = ix1 i := ⟨j 0, eq_ix1 j⟩
  rw [Cert.KernelIdeal.Glue.batchClip_apply]
  exact Cert.KernelIdeal.Glue.clip_of_inRange _ (hb i).1 (hb i).2

theorem batchCol_eq (b : (⟨Cert.KernelIdeal.S50000, .i32⟩ : BufTy).Contents (Elt Ideal))
    (hb : ∀ i : Fin 50000, 0 ≤ (b (ix1 i)).toInt ∧ (b (ix1 i)).toInt < 512) :
    Cert.KernelIdeal.Glue.batchCol b = Cert.ReferenceIdeal.Read.val_main_v152 (F := Ideal) b := by
  funext j
  obtain ⟨i, u, rfl⟩ : ∃ (i : Fin 50000) (u : Fin 1), j = ix2 i u := ⟨j 0, j 1, eq_ix2 j⟩
  have hu : u = 0 := Subsingleton.elim _ _
  subst hu
  exact (Cert.KernelIdeal.Glue.batchCol_of_inRange b hb i).trans
    (Cert.KernelIdeal.Glue.broadcastInDim_a_a1_apply b _ i 0).symm

theorem cntV_eq (b : (⟨Cert.KernelIdeal.S50000, .i32⟩ : BufTy).Contents (Elt Ideal))
    (hb : ∀ i : Fin 50000, 0 ≤ (b (ix1 i)).toInt ∧ (b (ix1 i)).toInt < 512) :
    Cert.KernelIdeal.Glue.cntV b = Cert.ReferenceIdeal.Read.val_main_v157 (F := Ideal) b := by
  unfold Cert.KernelIdeal.Glue.cntV
  rw [batchClip_eq b hb]
  rfl

end Cert.Ident

end
-- ==== Proof.PreFacts.lean ====
import proofs.«415159_j89687507076125_2_alg».proof.Pre_finite_inputs
import proofs.«415159_j89687507076125_2_alg».proof.Proof.Gen.Pre_finite_inputs
import Idealize.ShloMosaic.PureOps.Ideal.Laws
import Idealize.ShloMosaic.Lib.ValueIdx
import Idealize.ShloMosaic.Lib.ReduceAll

noncomputable section

namespace Cert.PreFacts

open Idealize.ShloMosaic Idealize.ShloMosaic.ValueIdx
open Cert.Pre_finite_inputs Cert.Pre_finite_inputs.Gen

instance : Subsingleton S_.Idx := ⟨fun a b => funext fun d => d.elim0⟩

theorem ofBool_eq_one (b : Bool) : BitVec.ofBool b = 1#1 ↔ b = true := by cases b <;> decide

theorem ne_top_of_abs_lt (x : EReal)
    (h : Ideal.cmp .olt (max x (-x)) (Ideal.ofBits .f32 0x7F800000#32) = 1#1) : x ≠ ⊤ := by
  have htop : Ideal.ofBits .f32 0x7F800000#32 = ⊤ := by simp [Ideal.ofBits, Ideal.ieee]
  rw [htop] at h
  simp only [Ideal.cmp, ofBool_eq_one, decide_eq_true_eq] at h
  rintro rfl
  simp at h

theorem nonneg_of_ge (x : EReal)
    (h : Ideal.cmp .oge x (Ideal.ofBits .f32 0x00000000#32) = 1#1) : 0 ≤ x := by
  rw [Ideal.ofBits_zero_f32] at h
  simpa only [Ideal.cmp, ofBool_eq_one, decide_eq_true_eq] using h

theorem toInt_nonneg_of_sge (w : BitVec 32) (h : IntOp.cmpi .sge w 0#32 = 1#1) : 0 ≤ w.toInt := by
  have := IntOp.cmpi_sge.1 h
  rwa [show (0#32 : BitVec 32).toInt = 0 from by decide] at this

theorem toInt_lt_of_slt (w : BitVec 32) (h : IntOp.cmpi .slt w 512#32 = 1#1) : w.toInt < 512 := by
  have := IntOp.cmpi_slt.1 h
  rwa [show (512#32 : BitVec 32).toInt = 512 from by decide] at this

theorem pre_facts
    (x0 : FVec Ideal S50000x128 .f32) (x1 : IVec S2x800000 32) (x2 : IVec S50000 32) (x3 : FVec Ideal S128x256 .f32)
    (x4 : FVec Ideal S256 .f32) (x5 : FVec Ideal S256x256 .f32) (x6 : FVec Ideal S256 .f32) (x7 : FVec Ideal S256x256 .f32)
    (x8 x9 x10 x11 x12 x13 x14 x15 x16 x17 x18 x19 x20 : FVec Ideal S256 .f32) (x21 : FVec Ideal S256x256 .f32)
    (x22 : FVec Ideal S256 .f32) (x23 : FVec Ideal S256x1 .f32) (x24 : FVec Ideal S1 .f32)
    (h : Cert.Pre_finite_inputs.fn (F := Ideal) x0 x1 x2 x3 x4 x5 x6 x7 x8 x9 x10 x11 x12 x13 x14 x15 x16 x17 x18 x19 x20 x21
          x22 x23 x24 = fun _ => 1#1) :
    (∀ j : Fin 256, 0 ≤ x12 (ix1 j) ∧ x12 (ix1 j) ≠ ⊤) ∧ (∀ j : Fin 256, 0 ≤ x16 (ix1 j) ∧ x16 (ix1 j) ≠ ⊤)
      ∧ (∀ j : Fin 256, 0 ≤ x20 (ix1 j) ∧ x20 (ix1 j) ≠ ⊤)
      ∧ (∀ i : Fin 50000, 0 ≤ (x2 (ix1 i)).toInt ∧ (x2 (ix1 i)).toInt < 512) := by

  have e := congrFun h ix0
  dsimp only [Cert.Pre_finite_inputs.fn, fn_part1, fn_part2, fn_part3, fn_part4, fn_part5, fn_part6, fn_part7] at e
  simp only [Idealize.ShloMosaic.andi, IntOp.andi_eq_one] at e

  obtain ⟨⟨⟨⟨⟨⟨⟨⟨⟨⟨⟨⟨⟨⟨⟨⟨⟨⟨-, f12⟩, -⟩, -⟩, -⟩, f16⟩, -⟩, -⟩, -⟩, f20⟩, -⟩, -⟩, -⟩, -⟩, n12⟩, n16⟩, n20⟩, bge⟩, blt⟩ := e
  refine ⟨fun j => ⟨?_, ?_⟩, fun j => ⟨?_, ?_⟩, fun j => ⟨?_, ?_⟩, fun i => ⟨?_, ?_⟩⟩
  · exact nonneg_of_ge _ (Host.reduce_andi_all _ _ _ _ _ n12 (ix1 j))
  · exact ne_top_of_abs_lt _ (Host.reduce_andi_all _ _ _ _ _ f12 (ix1 j))
  · exact nonneg_of_ge _ (Host.reduce_andi_all _ _ _ _ _ n16 (ix1 j))
  · exact ne_top_of_abs_lt _ (Host.reduce_andi_all _ _ _ _ _ f16 (ix1 j))
  · exact nonneg_of_ge _ (Host.reduce_andi_all _ _ _ _ _ n20 (ix1 j))
  · exact ne_top_of_abs_lt _ (Host.reduce_andi_all _ _ _ _ _ f20 (ix1 j))
  · exact toInt_nonneg_of_sge _ (Host.reduce_andi_all _ _ _ _ _ bge (ix1 i))
  · exact toInt_lt_of_slt _ (Host.reduce_andi_all _ _ _ _ _ blt (ix1 i))

end Cert.PreFacts

end
-- ==== Proof.lean ====
import proofs.«415159_j89687507076125_2_alg».proof.Defs
import proofs.«415159_j89687507076125_2_alg».proof.Proof.Gen.Kernel
import proofs.«415159_j89687507076125_2_alg».proof.Proof.Gen.KernelIdeal
import proofs.«415159_j89687507076125_2_alg».proof.Proof.Gen.ReferenceIdeal
import proofs.«415159_j89687507076125_2_alg».proof.Proof.Gen.Pre_finite_inputs
import proofs.«415159_j89687507076125_2_alg».proof.Proof.Gen.ReferenceIdeal.Run
import proofs.«415159_j89687507076125_2_alg».proof.Proof.Gen.ReferenceIdeal.Read
import proofs.«415159_j89687507076125_2_alg».proof.Proof.Kernel.Records
import proofs.«415159_j89687507076125_2_alg».proof.Proof.KernelIdeal.Records
import proofs.«415159_j89687507076125_2_alg».proof.Proof.KernelIdeal.KVal
import proofs.«415159_j89687507076125_2_alg».proof.Proof.Ref.RVal
import proofs.«415159_j89687507076125_2_alg».proof.Proof.Ident
import proofs.«415159_j89687507076125_2_alg».proof.Proof.PreFacts

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in

theorem algebraic : Cert.algebraic_KernelIdeal_ReferenceIdeal := by
  intro m ρ m' ρ' hpre hagree
  refine ⟨fun c => Cert.KernelIdeal.Gen.V14 m (Cert.KernelIdeal.Frm.outs m) c Cert.KernelIdeal.main_v75, ?_, ?_⟩
  · exact (θ_run Cert.KernelIdeal.defs _ _).mono (fun r h c =>
      ⟨h c _ (Cert.KernelIdeal.Frm.mem_uc Cert.KernelIdeal.main_v75 (by decide)),
        Cert.KernelIdeal.Frm.allOf_map (l := Cert.KernelIdeal.Frm.args)
          (P := fun b => r.2.mem ((c.tc : Thread Cert.KernelIdeal.nD Cert.KernelIdeal.τ).loc b)
            = m ((c.tc : Thread Cert.KernelIdeal.nD Cert.KernelIdeal.τ).loc b))
          fun b hb => (h c _ (Cert.KernelIdeal.Frm.mem_uc b (by decide +revert))).trans
            (Cert.KernelIdeal.Frm.V14_arg m c b hb)⟩) (Cert.KernelIdeal.Frm.run_main m ρ)
  · refine (θ_run Cert.ReferenceIdeal.defs _ _).mono (fun _ h c => ⟨(h c).1.trans ?_, (h c).2⟩)
      (Cert.ReferenceIdeal.Value.run (F := Ideal) m' ρ')
    obtain ⟨hv1, hv2, hv3, hb⟩ := Cert.PreFacts.pre_facts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (hpre c)
    obtain ⟨e0, e1, e2, e3, e4, e5, e6, e7, e8, e9, e10, e11, e12, e13, e14, e15, e16, e17, e18, e19, e20, e21, e22, e23, e24⟩ := hagree c
    rw [Cert.ReferenceIdeal.Read.val_main_v171_eq, e0, e1, e2, e3, e4, e5, e6, e7, e8, e9, e10, e11, e12, e13, e14, e15, e16, e17, e18, e19, e20, e21, e22, e23, e24]
    funext i
    obtain ⟨g, u, rfl⟩ : ∃ (g : Fin 512) (u : Fin 1), i = ix2 g u := ⟨i 0, i 1, eq_ix2 i⟩
    obtain rfl : u = 0 := Subsingleton.elim _ _
    rw [Cert.RefVal.ref_val _ _ _ _ _ _ _ _ _ _ _ _ _ _ _ _ _ _ _ _ _ _ _ _ _ hv1 hv2 hv3 g]
    refine Eq.trans ?_ (Cert.KernelIdeal.Val.kernel_val m c g).symm
    rw [Cert.Ident.srcCol_eq, Cert.Ident.tgtCol_eq, Cert.Ident.dinvV_eq, Cert.Ident.batchCol_eq _ hb, Cert.Ident.cntV_eq _ hb]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
